-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v525) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x64 : Shape := ⟨2, ![5000, 64]⟩
abbrev S1x64 : Shape := ⟨2, ![1, 64]⟩
abbrev S850000x64 : Shape := ⟨2, ![850000, 64]⟩
abbrev S5000x1 : Shape := ⟨2, ![5000, 1]⟩
abbrev S800000x64 : Shape := ⟨2, ![800000, 64]⟩
abbrev S8000x64 : Shape := ⟨2, ![8000, 64]⟩

abbrev nBuf : Space → Nat
  | .hbm => 287
  | .vmem => 204
  | .smem => 0
  | _ => 0

abbrev hbmTy0_0 (i : Nat) : BufTy := match i % 128 with
  | 0 => ⟨S50000x256, .f32⟩
  | 1 => ⟨S2x800000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S850000x1, .f32⟩
  | 54 => ⟨S_, .f32⟩
  | 55 => ⟨S800000, .f32⟩
  | 56 => ⟨S_, .f32⟩
  | 57 => ⟨S50000, .f32⟩
  | 58 => ⟨S800000x1, .i32⟩
  | 59 => ⟨S50000, .f32⟩
  | 60 => ⟨S50000x1, .f32⟩
  | 61 => ⟨S50000x64, .f32⟩
  | 62 => ⟨S50000x64, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x64, .f32⟩
  | 72 => ⟨S850000x64, .f32⟩
  | 73 => ⟨S_, .f32⟩
  | 74 => ⟨S50000x64, .f32⟩
  | 75 => ⟨S850000x1, .i32⟩
  | 76 => ⟨S50000x64, .f32⟩
  | 77 => ⟨S50000x64, .f32⟩
  | 78 => ⟨S50000x64, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x64, .f32⟩
  | 89 => ⟨S_, .f32⟩
  | 90 => ⟨S50000x64, .f32⟩
  | 91 => ⟨S850000x1, .i32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S50000x64, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x64, .f32⟩
  | _ => ⟨S50000x256, .f32⟩

abbrev hbmTy0_1 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S50000x64, .f32⟩
  | 6 => ⟨S50000x64, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x64, .f32⟩
  | 16 => ⟨S850000x64, .f32⟩
  | 17 => ⟨S_, .f32⟩
  | 18 => ⟨S50000x64, .f32⟩
  | 19 => ⟨S850000x1, .i32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S50000x64, .f32⟩
  | 46 => ⟨S50000x64, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x64, .f32⟩
  | 56 => ⟨S850000x64, .f32⟩
  | 57 => ⟨S_, .f32⟩
  | 58 => ⟨S50000x64, .f32⟩
  | 59 => ⟨S850000x1, .i32⟩
  | 60 => ⟨S50000x64, .f32⟩
  | 61 => ⟨S50000x64, .f32⟩
  | 62 => ⟨S50000x64, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x64, .f32⟩
  | 72 => ⟨S850000x64, .f32⟩
  | 73 => ⟨S_, .f32⟩
  | 74 => ⟨S50000x64, .f32⟩
  | 75 => ⟨S850000x1, .i32⟩
  | 76 => ⟨S50000x64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S50000x64, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x64, .f32⟩
  | 113 => ⟨S_, .f32⟩
  | 114 => ⟨S50000x64, .f32⟩
  | 115 => ⟨S850000x1, .i32⟩
  | 116 => ⟨S50000x64, .f32⟩
  | 117 => ⟨S50000x64, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x64, .f32⟩
  | _ => ⟨S50000x256, .f32⟩

abbrev hbmTy0_2 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S50000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S50000x64, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev vmemTy0_0 (i : Nat) : BufTy := match i % 128 with
  | 0 => ⟨S5000x256, .f32⟩
  | 1 => ⟨S5000x256, .f32⟩
  | 2 => ⟨S256x64, .f32⟩
  | 3 => ⟨S64, .f32⟩
  | 4 => ⟨S5000x64, .f32⟩
  | 5 => ⟨S5000x64, .f32⟩
  | 6 => ⟨S5000x64, .f32⟩
  | 7 => ⟨S5000x64, .f32⟩
  | 8 => ⟨S64x64, .f32⟩
  | 9 => ⟨S5000x64, .f32⟩
  | 10 => ⟨S5000x64, .f32⟩
  | 11 => ⟨S5000x64, .f32⟩
  | 12 => ⟨S5000x64, .f32⟩
  | 13 => ⟨S5000x1, .f32⟩
  | 14 => ⟨S5000x1, .f32⟩
  | 15 => ⟨S5000x64, .f32⟩
  | 16 => ⟨S5000x64, .f32⟩
  | 17 => ⟨S5000x64, .f32⟩
  | 18 => ⟨S5000x64, .f32⟩
  | 19 => ⟨S64, .f32⟩
  | 20 => ⟨S5000x64, .f32⟩
  | 21 => ⟨S5000x64, .f32⟩
  | 22 => ⟨S5000x64, .f32⟩
  | 23 => ⟨S5000x64, .f32⟩
  | 24 => ⟨S64x64, .f32⟩
  | 25 => ⟨S5000x64, .f32⟩
  | 26 => ⟨S5000x64, .f32⟩
  | 27 => ⟨S5000x64, .f32⟩
  | 28 => ⟨S5000x64, .f32⟩
  | 29 => ⟨S5000x1, .f32⟩
  | 30 => ⟨S5000x1, .f32⟩
  | 31 => ⟨S5000x64, .f32⟩
  | 32 => ⟨S5000x64, .f32⟩
  | 33 => ⟨S5000x64, .f32⟩
  | 34 => ⟨S5000x64, .f32⟩
  | 35 => ⟨S64, .f32⟩
  | 36 => ⟨S5000x64, .f32⟩
  | 37 => ⟨S5000x64, .f32⟩
  | 38 => ⟨S8000x64, .f32⟩
  | 39 => ⟨S8000x64, .f32⟩
  | 40 => ⟨S8000x64, .f32⟩
  | 41 => ⟨S8000x64, .f32⟩
  | 42 => ⟨S8000x64, .f32⟩
  | 43 => ⟨S8000x64, .f32⟩
  | 44 => ⟨S5000x64, .f32⟩
  | 45 => ⟨S5000x64, .f32⟩
  | 46 => ⟨S5000x1, .f32⟩
  | 47 => ⟨S5000x1, .f32⟩
  | 48 => ⟨S5000x64, .f32⟩
  | 49 => ⟨S5000x64, .f32⟩
  | 50 => ⟨S5000x64, .f32⟩
  | 51 => ⟨S5000x64, .f32⟩
  | 52 => ⟨S5000x64, .f32⟩
  | 53 => ⟨S5000x64, .f32⟩
  | 54 => ⟨S5000x64, .f32⟩
  | 55 => ⟨S5000x64, .f32⟩
  | 56 => ⟨S64x64, .f32⟩
  | 57 => ⟨S5000x64, .f32⟩
  | 58 => ⟨S5000x64, .f32⟩
  | 59 => ⟨S5000x64, .f32⟩
  | 60 => ⟨S5000x64, .f32⟩
  | 61 => ⟨S5000x1, .f32⟩
  | 62 => ⟨S5000x1, .f32⟩
  | 63 => ⟨S5000x64, .f32⟩
  | 64 => ⟨S5000x64, .f32⟩
  | 65 => ⟨S5000x64, .f32⟩
  | 66 => ⟨S5000x64, .f32⟩
  | 67 => ⟨S64, .f32⟩
  | 68 => ⟨S5000x64, .f32⟩
  | 69 => ⟨S5000x64, .f32⟩
  | 70 => ⟨S5000x64, .f32⟩
  | 71 => ⟨S5000x64, .f32⟩
  | 72 => ⟨S64x64, .f32⟩
  | 73 => ⟨S5000x64, .f32⟩
  | 74 => ⟨S5000x64, .f32⟩
  | 75 => ⟨S5000x64, .f32⟩
  | 76 => ⟨S5000x64, .f32⟩
  | 77 => ⟨S5000x1, .f32⟩
  | 78 => ⟨S5000x1, .f32⟩
  | 79 => ⟨S5000x64, .f32⟩
  | 80 => ⟨S5000x64, .f32⟩
  | 81 => ⟨S5000x64, .f32⟩
  | 82 => ⟨S5000x64, .f32⟩
  | 83 => ⟨S64, .f32⟩
  | 84 => ⟨S5000x64, .f32⟩
  | 85 => ⟨S5000x64, .f32⟩
  | 86 => ⟨S8000x64, .f32⟩
  | 87 => ⟨S8000x64, .f32⟩
  | 88 => ⟨S8000x64, .f32⟩
  | 89 => ⟨S8000x64, .f32⟩
  | 90 => ⟨S8000x64, .f32⟩
  | 91 => ⟨S8000x64, .f32⟩
  | 92 => ⟨S5000x64, .f32⟩
  | 93 => ⟨S5000x64, .f32⟩
  | 94 => ⟨S5000x1, .f32⟩
  | 95 => ⟨S5000x1, .f32⟩
  | 96 => ⟨S5000x64, .f32⟩
  | 97 => ⟨S5000x64, .f32⟩
  | 98 => ⟨S5000x64, .f32⟩
  | 99 => ⟨S5000x64, .f32⟩
  | 100 => ⟨S5000x64, .f32⟩
  | 101 => ⟨S5000x64, .f32⟩
  | 102 => ⟨S5000x64, .f32⟩
  | 103 => ⟨S5000x64, .f32⟩
  | 104 => ⟨S64x64, .f32⟩
  | 105 => ⟨S5000x64, .f32⟩
  | 106 => ⟨S5000x64, .f32⟩
  | 107 => ⟨S5000x64, .f32⟩
  | 108 => ⟨S5000x64, .f32⟩
  | 109 => ⟨S5000x1, .f32⟩
  | 110 => ⟨S5000x1, .f32⟩
  | 111 => ⟨S5000x64, .f32⟩
  | 112 => ⟨S5000x64, .f32⟩
  | 113 => ⟨S5000x64, .f32⟩
  | 114 => ⟨S5000x64, .f32⟩
  | 115 => ⟨S64, .f32⟩
  | 116 => ⟨S5000x64, .f32⟩
  | 117 => ⟨S5000x64, .f32⟩
  | 118 => ⟨S5000x64, .f32⟩
  | 119 => ⟨S5000x64, .f32⟩
  | 120 => ⟨S64x64, .f32⟩
  | 121 => ⟨S5000x64, .f32⟩
  | 122 => ⟨S5000x64, .f32⟩
  | 123 => ⟨S5000x64, .f32⟩
  | 124 => ⟨S5000x64, .f32⟩
  | 125 => ⟨S5000x1, .f32⟩
  | 126 => ⟨S5000x1, .f32⟩
  | 127 => ⟨S5000x64, .f32⟩
  | _ => ⟨S50000x256, .f32⟩

abbrev vmemTy0_1 (i : Nat) : BufTy := match i % 128 with
  | 0 => ⟨S5000x64, .f32⟩
  | 1 => ⟨S5000x64, .f32⟩
  | 2 => ⟨S5000x64, .f32⟩
  | 3 => ⟨S64, .f32⟩
  | 4 => ⟨S5000x64, .f32⟩
  | 5 => ⟨S5000x64, .f32⟩
  | 6 => ⟨S8000x64, .f32⟩
  | 7 => ⟨S8000x64, .f32⟩
  | 8 => ⟨S8000x64, .f32⟩
  | 9 => ⟨S8000x64, .f32⟩
  | 10 => ⟨S8000x64, .f32⟩
  | 11 => ⟨S8000x64, .f32⟩
  | 12 => ⟨S5000x64, .f32⟩
  | 13 => ⟨S5000x64, .f32⟩
  | 14 => ⟨S5000x1, .f32⟩
  | 15 => ⟨S5000x1, .f32⟩
  | 16 => ⟨S5000x64, .f32⟩
  | 17 => ⟨S5000x64, .f32⟩
  | 18 => ⟨S5000x64, .f32⟩
  | 19 => ⟨S5000x64, .f32⟩
  | 20 => ⟨S5000x64, .f32⟩
  | 21 => ⟨S5000x64, .f32⟩
  | 22 => ⟨S5000x64, .f32⟩
  | 23 => ⟨S5000x64, .f32⟩
  | 24 => ⟨S64x64, .f32⟩
  | 25 => ⟨S5000x64, .f32⟩
  | 26 => ⟨S5000x64, .f32⟩
  | 27 => ⟨S5000x64, .f32⟩
  | 28 => ⟨S5000x64, .f32⟩
  | 29 => ⟨S5000x1, .f32⟩
  | 30 => ⟨S5000x1, .f32⟩
  | 31 => ⟨S5000x64, .f32⟩
  | 32 => ⟨S5000x64, .f32⟩
  | 33 => ⟨S5000x64, .f32⟩
  | 34 => ⟨S5000x64, .f32⟩
  | 35 => ⟨S64, .f32⟩
  | 36 => ⟨S5000x64, .f32⟩
  | 37 => ⟨S5000x64, .f32⟩
  | 38 => ⟨S5000x64, .f32⟩
  | 39 => ⟨S5000x64, .f32⟩
  | 40 => ⟨S64x64, .f32⟩
  | 41 => ⟨S5000x64, .f32⟩
  | 42 => ⟨S5000x64, .f32⟩
  | 43 => ⟨S5000x64, .f32⟩
  | 44 => ⟨S5000x64, .f32⟩
  | 45 => ⟨S5000x1, .f32⟩
  | 46 => ⟨S5000x1, .f32⟩
  | 47 => ⟨S5000x64, .f32⟩
  | 48 => ⟨S5000x64, .f32⟩
  | 49 => ⟨S5000x64, .f32⟩
  | 50 => ⟨S5000x64, .f32⟩
  | 51 => ⟨S64, .f32⟩
  | 52 => ⟨S5000x64, .f32⟩
  | 53 => ⟨S5000x64, .f32⟩
  | 54 => ⟨S8000x64, .f32⟩
  | 55 => ⟨S8000x64, .f32⟩
  | 56 => ⟨S8000x64, .f32⟩
  | 57 => ⟨S8000x64, .f32⟩
  | 58 => ⟨S8000x64, .f32⟩
  | 59 => ⟨S8000x64, .f32⟩
  | 60 => ⟨S5000x64, .f32⟩
  | 61 => ⟨S5000x64, .f32⟩
  | 62 => ⟨S5000x1, .f32⟩
  | 63 => ⟨S5000x1, .f32⟩
  | 64 => ⟨S5000x64, .f32⟩
  | 65 => ⟨S5000x64, .f32⟩
  | 66 => ⟨S5000x64, .f32⟩
  | 67 => ⟨S5000x64, .f32⟩
  | 68 => ⟨S5000x64, .f32⟩
  | 69 => ⟨S5000x64, .f32⟩
  | 70 => ⟨S5000x64, .f32⟩
  | 71 => ⟨S5000x64, .f32⟩
  | 72 => ⟨S64x64, .f32⟩
  | 73 => ⟨S64, .f32⟩
  | 74 => ⟨S5000x64, .f32⟩
  | 75 => ⟨S5000x64, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 204 → Bool
  | ⟨i, _⟩ => dmaSemScopedAt i

abbrev sig : RefSig :=
  ofTc nBuf bufTy 0 204 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_23 : Ref sig .tc := ⟨.hbm, 135, rfl⟩
abbrev main_v98 : Ref sig .tc := ⟨.hbm, 136, rfl⟩
abbrev main_v99 : Ref sig .tc := ⟨.hbm, 137, rfl⟩
abbrev main_c_24 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_25 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_26 : Ref sig .tc := ⟨.hbm, 150, rfl⟩
abbrev main_v110 : Ref sig .tc := ⟨.hbm, 151, rfl⟩
abbrev main_v111 : Ref sig .tc := ⟨.hbm, 152, rfl⟩
abbrev main_c_27 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_28 : Ref sig .tc := ⟨.hbm, 159, rfl⟩
abbrev main_v117 : Ref sig .tc := ⟨.hbm, 160, rfl⟩
abbrev main_v118 : Ref sig .tc := ⟨.hbm, 161, rfl⟩
abbrev main_c_29 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_30 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_31 : Ref sig .tc := ⟨.hbm, 175, rfl⟩
abbrev main_v130 : Ref sig .tc := ⟨.hbm, 176, rfl⟩
abbrev main_v131 : Ref sig .tc := ⟨.hbm, 177, rfl⟩
abbrev main_c_32 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_33 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_c_34 : Ref sig .tc := ⟨.hbm, 191, rfl⟩
abbrev main_v143 : Ref sig .tc := ⟨.hbm, 192, rfl⟩
abbrev main_v144 : Ref sig .tc := ⟨.hbm, 193, rfl⟩
abbrev main_c_35 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_36 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_37 : Ref sig .tc := ⟨.hbm, 206, rfl⟩
abbrev main_v155 : Ref sig .tc := ⟨.hbm, 207, rfl⟩
abbrev main_v156 : Ref sig .tc := ⟨.hbm, 208, rfl⟩
abbrev main_c_38 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_39 : Ref sig .tc := ⟨.hbm, 215, rfl⟩
abbrev main_v162 : Ref sig .tc := ⟨.hbm, 216, rfl⟩
abbrev main_v163 : Ref sig .tc := ⟨.hbm, 217, rfl⟩
abbrev main_c_40 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_41 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_c_42 : Ref sig .tc := ⟨.hbm, 231, rfl⟩
abbrev main_v175 : Ref sig .tc := ⟨.hbm, 232, rfl⟩
abbrev main_v176 : Ref sig .tc := ⟨.hbm, 233, rfl⟩
abbrev main_c_43 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_44 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_45 : Ref sig .tc := ⟨.hbm, 247, rfl⟩
abbrev main_v188 : Ref sig .tc := ⟨.hbm, 248, rfl⟩
abbrev main_v189 : Ref sig .tc := ⟨.hbm, 249, rfl⟩
abbrev main_c_46 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_47 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_c_48 : Ref sig .tc := ⟨.hbm, 262, rfl⟩
abbrev main_v200 : Ref sig .tc := ⟨.hbm, 263, rfl⟩
abbrev main_v201 : Ref sig .tc := ⟨.hbm, 264, rfl⟩
abbrev main_c_49 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_c_50 : Ref sig .tc := ⟨.hbm, 271, rfl⟩
abbrev main_v207 : Ref sig .tc := ⟨.hbm, 272, rfl⟩
abbrev main_v208 : Ref sig .tc := ⟨.hbm, 273, rfl⟩
abbrev main_c_51 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_cst_52 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc8_stg3_0 : Ref sig .tc := ⟨.vmem, 50, rfl⟩
abbrev cc8_stg3_1 : Ref sig .tc := ⟨.vmem, 51, rfl⟩
abbrev cc8_stg4_0 : Ref sig .tc := ⟨.vmem, 52, rfl⟩
abbrev cc8_stg4_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg1_1 : Ref sig .tc := ⟨.vmem, 62, rfl⟩
abbrev cc10_stg2_0 : Ref sig .tc := ⟨.vmem, 63, rfl⟩
abbrev cc10_stg2_1 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg2_0 : Ref sig .tc := ⟨.vmem, 68, rfl⟩
abbrev cc11_stg2_1 : Ref sig .tc := ⟨.vmem, 69, rfl⟩
abbrev cc12_stg0_0 : Ref sig .tc := ⟨.vmem, 70, rfl⟩
abbrev cc12_stg0_1 : Ref sig .tc := ⟨.vmem, 71, rfl⟩
abbrev cc12_stg1_0 : Ref sig .tc := ⟨.vmem, 72, rfl⟩
abbrev cc12_stg2_0 : Ref sig .tc := ⟨.vmem, 73, rfl⟩
abbrev cc12_stg2_1 : Ref sig .tc := ⟨.vmem, 74, rfl⟩
abbrev cc13_stg0_0 : Ref sig .tc := ⟨.vmem, 75, rfl⟩
abbrev cc13_stg0_1 : Ref sig .tc := ⟨.vmem, 76, rfl⟩
abbrev cc13_stg1_0 : Ref sig .tc := ⟨.vmem, 77, rfl⟩
abbrev cc13_stg1_1 : Ref sig .tc := ⟨.vmem, 78, rfl⟩
abbrev cc13_stg2_0 : Ref sig .tc := ⟨.vmem, 79, rfl⟩
abbrev cc13_stg2_1 : Ref sig .tc := ⟨.vmem, 80, rfl⟩
abbrev cc14_stg0_0 : Ref sig .tc := ⟨.vmem, 81, rfl⟩
abbrev cc14_stg0_1 : Ref sig .tc := ⟨.vmem, 82, rfl⟩
abbrev cc14_stg1_0 : Ref sig .tc := ⟨.vmem, 83, rfl⟩
abbrev cc14_stg2_0 : Ref sig .tc := ⟨.vmem, 84, rfl⟩
abbrev cc14_stg2_1 : Ref sig .tc := ⟨.vmem, 85, rfl⟩
abbrev cc15_stg0_0 : Ref sig .tc := ⟨.vmem, 86, rfl⟩
abbrev cc15_stg0_1 : Ref sig .tc := ⟨.vmem, 87, rfl⟩
abbrev cc15_stg1_0 : Ref sig .tc := ⟨.vmem, 88, rfl⟩
abbrev cc15_stg1_1 : Ref sig .tc := ⟨.vmem, 89, rfl⟩
abbrev cc15_stg2_0 : Ref sig .tc := ⟨.vmem, 90, rfl⟩
abbrev cc15_stg2_1 : Ref sig .tc := ⟨.vmem, 91, rfl⟩
abbrev cc16_stg0_0 : Ref sig .tc := ⟨.vmem, 92, rfl⟩
abbrev cc16_stg0_1 : Ref sig .tc := ⟨.vmem, 93, rfl⟩
abbrev cc16_stg1_0 : Ref sig .tc := ⟨.vmem, 94, rfl⟩
abbrev cc16_stg1_1 : Ref sig .tc := ⟨.vmem, 95, rfl⟩
abbrev cc16_stg2_0 : Ref sig .tc := ⟨.vmem, 96, rfl⟩
abbrev cc16_stg2_1 : Ref sig .tc := ⟨.vmem, 97, rfl⟩
abbrev cc16_stg3_0 : Ref sig .tc := ⟨.vmem, 98, rfl⟩
abbrev cc16_stg3_1 : Ref sig .tc := ⟨.vmem, 99, rfl⟩
abbrev cc16_stg4_0 : Ref sig .tc := ⟨.vmem, 100, rfl⟩
abbrev cc16_stg4_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg2_0 : Ref sig .tc := ⟨.vmem, 105, rfl⟩
abbrev cc17_stg2_1 : Ref sig .tc := ⟨.vmem, 106, rfl⟩
abbrev cc18_stg0_0 : Ref sig .tc := ⟨.vmem, 107, rfl⟩
abbrev cc18_stg0_1 : Ref sig .tc := ⟨.vmem, 108, rfl⟩
abbrev cc18_stg1_0 : Ref sig .tc := ⟨.vmem, 109, rfl⟩
abbrev cc18_stg1_1 : Ref sig .tc := ⟨.vmem, 110, rfl⟩
abbrev cc18_stg2_0 : Ref sig .tc := ⟨.vmem, 111, rfl⟩
abbrev cc18_stg2_1 : Ref sig .tc := ⟨.vmem, 112, rfl⟩
abbrev cc19_stg0_0 : Ref sig .tc := ⟨.vmem, 113, rfl⟩
abbrev cc19_stg0_1 : Ref sig .tc := ⟨.vmem, 114, rfl⟩
abbrev cc19_stg1_0 : Ref sig .tc := ⟨.vmem, 115, rfl⟩
abbrev cc19_stg2_0 : Ref sig .tc := ⟨.vmem, 116, rfl⟩
abbrev cc19_stg2_1 : Ref sig .tc := ⟨.vmem, 117, rfl⟩
abbrev cc20_stg0_0 : Ref sig .tc := ⟨.vmem, 118, rfl⟩
abbrev cc20_stg0_1 : Ref sig .tc := ⟨.vmem, 119, rfl⟩
abbrev cc20_stg1_0 : Ref sig .tc := ⟨.vmem, 120, rfl⟩
abbrev cc20_stg2_0 : Ref sig .tc := ⟨.vmem, 121, rfl⟩
abbrev cc20_stg2_1 : Ref sig .tc := ⟨.vmem, 122, rfl⟩
abbrev cc21_stg0_0 : Ref sig .tc := ⟨.vmem, 123, rfl⟩
abbrev cc21_stg0_1 : Ref sig .tc := ⟨.vmem, 124, rfl⟩
abbrev cc21_stg1_0 : Ref sig .tc := ⟨.vmem, 125, rfl⟩
abbrev cc21_stg1_1 : Ref sig .tc := ⟨.vmem, 126, rfl⟩
abbrev cc21_stg2_0 : Ref sig .tc := ⟨.vmem, 127, rfl⟩
abbrev cc21_stg2_1 : Ref sig .tc := ⟨.vmem, 128, rfl⟩
abbrev cc22_stg0_0 : Ref sig .tc := ⟨.vmem, 129, rfl⟩
abbrev cc22_stg0_1 : Ref sig .tc := ⟨.vmem, 130, rfl⟩
abbrev cc22_stg1_0 : Ref sig .tc := ⟨.vmem, 131, rfl⟩
abbrev cc22_stg2_0 : Ref sig .tc := ⟨.vmem, 132, rfl⟩
abbrev cc22_stg2_1 : Ref sig .tc := ⟨.vmem, 133, rfl⟩
abbrev cc23_stg0_0 : Ref sig .tc := ⟨.vmem, 134, rfl⟩
abbrev cc23_stg0_1 : Ref sig .tc := ⟨.vmem, 135, rfl⟩
abbrev cc23_stg1_0 : Ref sig .tc := ⟨.vmem, 136, rfl⟩
abbrev cc23_stg1_1 : Ref sig .tc := ⟨.vmem, 137, rfl⟩
abbrev cc23_stg2_0 : Ref sig .tc := ⟨.vmem, 138, rfl⟩
abbrev cc23_stg2_1 : Ref sig .tc := ⟨.vmem, 139, rfl⟩
abbrev cc24_stg0_0 : Ref sig .tc := ⟨.vmem, 140, rfl⟩
abbrev cc24_stg0_1 : Ref sig .tc := ⟨.vmem, 141, rfl⟩
abbrev cc24_stg1_0 : Ref sig .tc := ⟨.vmem, 142, rfl⟩
abbrev cc24_stg1_1 : Ref sig .tc := ⟨.vmem, 143, rfl⟩
abbrev cc24_stg2_0 : Ref sig .tc := ⟨.vmem, 144, rfl⟩
abbrev cc24_stg2_1 : Ref sig .tc := ⟨.vmem, 145, rfl⟩
abbrev cc24_stg3_0 : Ref sig .tc := ⟨.vmem, 146, rfl⟩
abbrev cc24_stg3_1 : Ref sig .tc := ⟨.vmem, 147, rfl⟩
abbrev cc24_stg4_0 : Ref sig .tc := ⟨.vmem, 148, rfl⟩
abbrev cc24_stg4_1 : Ref sig .tc := ⟨.vmem, 149, rfl⟩
abbrev cc25_stg0_0 : Ref sig .tc := ⟨.vmem, 150, rfl⟩
abbrev cc25_stg0_1 : Ref sig .tc := ⟨.vmem, 151, rfl⟩
abbrev cc25_stg1_0 : Ref sig .tc := ⟨.vmem, 152, rfl⟩
abbrev cc25_stg2_0 : Ref sig .tc := ⟨.vmem, 153, rfl⟩
abbrev cc25_stg2_1 : Ref sig .tc := ⟨.vmem, 154, rfl⟩
abbrev cc26_stg0_0 : Ref sig .tc := ⟨.vmem, 155, rfl⟩
abbrev cc26_stg0_1 : Ref sig .tc := ⟨.vmem, 156, rfl⟩
abbrev cc26_stg1_0 : Ref sig .tc := ⟨.vmem, 157, rfl⟩
abbrev cc26_stg1_1 : Ref sig .tc := ⟨.vmem, 158, rfl⟩
abbrev cc26_stg2_0 : Ref sig .tc := ⟨.vmem, 159, rfl⟩
abbrev cc26_stg2_1 : Ref sig .tc := ⟨.vmem, 160, rfl⟩
abbrev cc27_stg0_0 : Ref sig .tc := ⟨.vmem, 161, rfl⟩
abbrev cc27_stg0_1 : Ref sig .tc := ⟨.vmem, 162, rfl⟩
abbrev cc27_stg1_0 : Ref sig .tc := ⟨.vmem, 163, rfl⟩
abbrev cc27_stg2_0 : Ref sig .tc := ⟨.vmem, 164, rfl⟩
abbrev cc27_stg2_1 : Ref sig .tc := ⟨.vmem, 165, rfl⟩
abbrev cc28_stg0_0 : Ref sig .tc := ⟨.vmem, 166, rfl⟩
abbrev cc28_stg0_1 : Ref sig .tc := ⟨.vmem, 167, rfl⟩
abbrev cc28_stg1_0 : Ref sig .tc := ⟨.vmem, 168, rfl⟩
abbrev cc28_stg2_0 : Ref sig .tc := ⟨.vmem, 169, rfl⟩
abbrev cc28_stg2_1 : Ref sig .tc := ⟨.vmem, 170, rfl⟩
abbrev cc29_stg0_0 : Ref sig .tc := ⟨.vmem, 171, rfl⟩
abbrev cc29_stg0_1 : Ref sig .tc := ⟨.vmem, 172, rfl⟩
abbrev cc29_stg1_0 : Ref sig .tc := ⟨.vmem, 173, rfl⟩
abbrev cc29_stg1_1 : Ref sig .tc := ⟨.vmem, 174, rfl⟩
abbrev cc29_stg2_0 : Ref sig .tc := ⟨.vmem, 175, rfl⟩
abbrev cc29_stg2_1 : Ref sig .tc := ⟨.vmem, 176, rfl⟩
abbrev cc30_stg0_0 : Ref sig .tc := ⟨.vmem, 177, rfl⟩
abbrev cc30_stg0_1 : Ref sig .tc := ⟨.vmem, 178, rfl⟩
abbrev cc30_stg1_0 : Ref sig .tc := ⟨.vmem, 179, rfl⟩
abbrev cc30_stg2_0 : Ref sig .tc := ⟨.vmem, 180, rfl⟩
abbrev cc30_stg2_1 : Ref sig .tc := ⟨.vmem, 181, rfl⟩
abbrev cc31_stg0_0 : Ref sig .tc := ⟨.vmem, 182, rfl⟩
abbrev cc31_stg0_1 : Ref sig .tc := ⟨.vmem, 183, rfl⟩
abbrev cc31_stg1_0 : Ref sig .tc := ⟨.vmem, 184, rfl⟩
abbrev cc31_stg1_1 : Ref sig .tc := ⟨.vmem, 185, rfl⟩
abbrev cc31_stg2_0 : Ref sig .tc := ⟨.vmem, 186, rfl⟩
abbrev cc31_stg2_1 : Ref sig .tc := ⟨.vmem, 187, rfl⟩
abbrev cc32_stg0_0 : Ref sig .tc := ⟨.vmem, 188, rfl⟩
abbrev cc32_stg0_1 : Ref sig .tc := ⟨.vmem, 189, rfl⟩
abbrev cc32_stg1_0 : Ref sig .tc := ⟨.vmem, 190, rfl⟩
abbrev cc32_stg1_1 : Ref sig .tc := ⟨.vmem, 191, rfl⟩
abbrev cc32_stg2_0 : Ref sig .tc := ⟨.vmem, 192, rfl⟩
abbrev cc32_stg2_1 : Ref sig .tc := ⟨.vmem, 193, rfl⟩
abbrev cc32_stg3_0 : Ref sig .tc := ⟨.vmem, 194, rfl⟩
abbrev cc32_stg3_1 : Ref sig .tc := ⟨.vmem, 195, rfl⟩
abbrev cc32_stg4_0 : Ref sig .tc := ⟨.vmem, 196, rfl⟩
abbrev cc32_stg4_1 : Ref sig .tc := ⟨.vmem, 197, rfl⟩
abbrev cc33_stg0_0 : Ref sig .tc := ⟨.vmem, 198, rfl⟩
abbrev cc33_stg0_1 : Ref sig .tc := ⟨.vmem, 199, rfl⟩
abbrev cc33_stg1_0 : Ref sig .tc := ⟨.vmem, 200, rfl⟩
abbrev cc33_stg2_0 : Ref sig .tc := ⟨.vmem, 201, rfl⟩
abbrev cc33_stg3_0 : Ref sig .tc := ⟨.vmem, 202, rfl⟩
abbrev cc33_stg3_1 : Ref sig .tc := ⟨.vmem, 203, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc8_sem3_0 : DmaSem sig := 50
abbrev cc8_sem3_1 : DmaSem sig := 51
abbrev cc8_sem4_0 : DmaSem sig := 52
abbrev cc8_sem4_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem1_1 : DmaSem sig := 62
abbrev cc10_sem2_0 : DmaSem sig := 63
abbrev cc10_sem2_1 : DmaSem sig := 64
abbrev cc11_sem0_0 : DmaSem sig := 65
abbrev cc11_sem0_1 : DmaSem sig := 66
abbrev cc11_sem1_0 : DmaSem sig := 67
abbrev cc11_sem2_0 : DmaSem sig := 68
abbrev cc11_sem2_1 : DmaSem sig := 69
abbrev cc12_sem0_0 : DmaSem sig := 70
abbrev cc12_sem0_1 : DmaSem sig := 71
abbrev cc12_sem1_0 : DmaSem sig := 72
abbrev cc12_sem2_0 : DmaSem sig := 73
abbrev cc12_sem2_1 : DmaSem sig := 74
abbrev cc13_sem0_0 : DmaSem sig := 75
abbrev cc13_sem0_1 : DmaSem sig := 76
abbrev cc13_sem1_0 : DmaSem sig := 77
abbrev cc13_sem1_1 : DmaSem sig := 78
abbrev cc13_sem2_0 : DmaSem sig := 79
abbrev cc13_sem2_1 : DmaSem sig := 80
abbrev cc14_sem0_0 : DmaSem sig := 81
abbrev cc14_sem0_1 : DmaSem sig := 82
abbrev cc14_sem1_0 : DmaSem sig := 83
abbrev cc14_sem2_0 : DmaSem sig := 84
abbrev cc14_sem2_1 : DmaSem sig := 85
abbrev cc15_sem0_0 : DmaSem sig := 86
abbrev cc15_sem0_1 : DmaSem sig := 87
abbrev cc15_sem1_0 : DmaSem sig := 88
abbrev cc15_sem1_1 : DmaSem sig := 89
abbrev cc15_sem2_0 : DmaSem sig := 90
abbrev cc15_sem2_1 : DmaSem sig := 91
abbrev cc16_sem0_0 : DmaSem sig := 92
abbrev cc16_sem0_1 : DmaSem sig := 93
abbrev cc16_sem1_0 : DmaSem sig := 94
abbrev cc16_sem1_1 : DmaSem sig := 95
abbrev cc16_sem2_0 : DmaSem sig := 96
abbrev cc16_sem2_1 : DmaSem sig := 97
abbrev cc16_sem3_0 : DmaSem sig := 98
abbrev cc16_sem3_1 : DmaSem sig := 99
abbrev cc16_sem4_0 : DmaSem sig := 100
abbrev cc16_sem4_1 : DmaSem sig := 101
abbrev cc17_sem0_0 : DmaSem sig := 102
abbrev cc17_sem0_1 : DmaSem sig := 103
abbrev cc17_sem1_0 : DmaSem sig := 104
abbrev cc17_sem2_0 : DmaSem sig := 105
abbrev cc17_sem2_1 : DmaSem sig := 106
abbrev cc18_sem0_0 : DmaSem sig := 107
abbrev cc18_sem0_1 : DmaSem sig := 108
abbrev cc18_sem1_0 : DmaSem sig := 109
abbrev cc18_sem1_1 : DmaSem sig := 110
abbrev cc18_sem2_0 : DmaSem sig := 111
abbrev cc18_sem2_1 : DmaSem sig := 112
abbrev cc19_sem0_0 : DmaSem sig := 113
abbrev cc19_sem0_1 : DmaSem sig := 114
abbrev cc19_sem1_0 : DmaSem sig := 115
abbrev cc19_sem2_0 : DmaSem sig := 116
abbrev cc19_sem2_1 : DmaSem sig := 117
abbrev cc20_sem0_0 : DmaSem sig := 118
abbrev cc20_sem0_1 : DmaSem sig := 119
abbrev cc20_sem1_0 : DmaSem sig := 120
abbrev cc20_sem2_0 : DmaSem sig := 121
abbrev cc20_sem2_1 : DmaSem sig := 122
abbrev cc21_sem0_0 : DmaSem sig := 123
abbrev cc21_sem0_1 : DmaSem sig := 124
abbrev cc21_sem1_0 : DmaSem sig := 125
abbrev cc21_sem1_1 : DmaSem sig := 126
abbrev cc21_sem2_0 : DmaSem sig := 127
abbrev cc21_sem2_1 : DmaSem sig := 128
abbrev cc22_sem0_0 : DmaSem sig := 129
abbrev cc22_sem0_1 : DmaSem sig := 130
abbrev cc22_sem1_0 : DmaSem sig := 131
abbrev cc22_sem2_0 : DmaSem sig := 132
abbrev cc22_sem2_1 : DmaSem sig := 133
abbrev cc23_sem0_0 : DmaSem sig := 134
abbrev cc23_sem0_1 : DmaSem sig := 135
abbrev cc23_sem1_0 : DmaSem sig := 136
abbrev cc23_sem1_1 : DmaSem sig := 137
abbrev cc23_sem2_0 : DmaSem sig := 138
abbrev cc23_sem2_1 : DmaSem sig := 139
abbrev cc24_sem0_0 : DmaSem sig := 140
abbrev cc24_sem0_1 : DmaSem sig := 141
abbrev cc24_sem1_0 : DmaSem sig := 142
abbrev cc24_sem1_1 : DmaSem sig := 143
abbrev cc24_sem2_0 : DmaSem sig := 144
abbrev cc24_sem2_1 : DmaSem sig := 145
abbrev cc24_sem3_0 : DmaSem sig := 146
abbrev cc24_sem3_1 : DmaSem sig := 147
abbrev cc24_sem4_0 : DmaSem sig := 148
abbrev cc24_sem4_1 : DmaSem sig := 149
abbrev cc25_sem0_0 : DmaSem sig := 150
abbrev cc25_sem0_1 : DmaSem sig := 151
abbrev cc25_sem1_0 : DmaSem sig := 152
abbrev cc25_sem2_0 : DmaSem sig := 153
abbrev cc25_sem2_1 : DmaSem sig := 154
abbrev cc26_sem0_0 : DmaSem sig := 155
abbrev cc26_sem0_1 : DmaSem sig := 156
abbrev cc26_sem1_0 : DmaSem sig := 157
abbrev cc26_sem1_1 : DmaSem sig := 158
abbrev cc26_sem2_0 : DmaSem sig := 159
abbrev cc26_sem2_1 : DmaSem sig := 160
abbrev cc27_sem0_0 : DmaSem sig := 161
abbrev cc27_sem0_1 : DmaSem sig := 162
abbrev cc27_sem1_0 : DmaSem sig := 163
abbrev cc27_sem2_0 : DmaSem sig := 164
abbrev cc27_sem2_1 : DmaSem sig := 165
abbrev cc28_sem0_0 : DmaSem sig := 166
abbrev cc28_sem0_1 : DmaSem sig := 167
abbrev cc28_sem1_0 : DmaSem sig := 168
abbrev cc28_sem2_0 : DmaSem sig := 169
abbrev cc28_sem2_1 : DmaSem sig := 170
abbrev cc29_sem0_0 : DmaSem sig := 171
abbrev cc29_sem0_1 : DmaSem sig := 172
abbrev cc29_sem1_0 : DmaSem sig := 173
abbrev cc29_sem1_1 : DmaSem sig := 174
abbrev cc29_sem2_0 : DmaSem sig := 175
abbrev cc29_sem2_1 : DmaSem sig := 176
abbrev cc30_sem0_0 : DmaSem sig := 177
abbrev cc30_sem0_1 : DmaSem sig := 178
abbrev cc30_sem1_0 : DmaSem sig := 179
abbrev cc30_sem2_0 : DmaSem sig := 180
abbrev cc30_sem2_1 : DmaSem sig := 181
abbrev cc31_sem0_0 : DmaSem sig := 182
abbrev cc31_sem0_1 : DmaSem sig := 183
abbrev cc31_sem1_0 : DmaSem sig := 184
abbrev cc31_sem1_1 : DmaSem sig := 185
abbrev cc31_sem2_0 : DmaSem sig := 186
abbrev cc31_sem2_1 : DmaSem sig := 187
abbrev cc32_sem0_0 : DmaSem sig := 188
abbrev cc32_sem0_1 : DmaSem sig := 189
abbrev cc32_sem1_0 : DmaSem sig := 190
abbrev cc32_sem1_1 : DmaSem sig := 191
abbrev cc32_sem2_0 : DmaSem sig := 192
abbrev cc32_sem2_1 : DmaSem sig := 193
abbrev cc32_sem3_0 : DmaSem sig := 194
abbrev cc32_sem3_1 : DmaSem sig := 195
abbrev cc32_sem4_0 : DmaSem sig := 196
abbrev cc32_sem4_1 : DmaSem sig := 197
abbrev cc33_sem0_0 : DmaSem sig := 198
abbrev cc33_sem0_1 : DmaSem sig := 199
abbrev cc33_sem1_0 : DmaSem sig := 200
abbrev cc33_sem2_0 : DmaSem sig := 201
abbrev cc33_sem3_0 : DmaSem sig := 202
abbrev cc33_sem3_1 : DmaSem sig := 203

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![170], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![170], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![170], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![100], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S8000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S5000x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S5000x64 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![170], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x1 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S5000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S5000x64 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S64x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S5000x64 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![170], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S5000x1 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 2 → Memref sig .tc .vmem S5000x64 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 1 → Nat :=
  let arg0 : BitVec 32 := BitVec.ofNat 32 (i 0).val
  let c0_i32 : BitVec 32 := 0#32
  let c0_i32_0 : BitVec 32 := 0#32
  ![c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S5000x64 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![100], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S8000x64 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S8000x64 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 2 → Memref sig .tc .vmem S8000x64 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev grid24 : Pipeline.Grid := ⟨1, ![10], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_4 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S5000x64 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x1 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S5000x64 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 2 → Memref sig .tc .vmem S5000x64 .f32 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![true]

abbrev stage24_4 : Fin 2 → Memref sig .tc .vmem S5000x64 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true]

abbrev grid25 : Pipeline.Grid := ⟨1, ![10], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S5000x64 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S64x64 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 2 → Memref sig .tc .vmem S5000x64 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev grid26 : Pipeline.Grid := ⟨1, ![170], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S5000x64 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S5000x1 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev stage26_2 : Fin 2 → Memref sig .tc .vmem S5000x64 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

abbrev grid27 : Pipeline.Grid := ⟨1, ![10], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 1 → Nat :=
  let arg0 : BitVec 32 := BitVec.ofNat 32 (i 0).val
  let c0_i32 : BitVec 32 := 0#32
  let c0_i32_0 : BitVec 32 := 0#32
  ![c0_i32.toNat]

def cc27_transform_2 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S5000x64 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S64 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 2 → Memref sig .tc .vmem S5000x64 .f32 := fun | 0 => Memref.whole cc27_stg2_0 | 1 => Memref.whole cc27_stg2_1 | ⟨_ + 2, h⟩ => absurd h (Nat.not_lt.2 (Nat.le_add_left _ _))
abbrev sem27_2 : Fin 2 → DmaSem sig := fun | 0 => cc27_sem2_0 | 1 => cc27_sem2_1 | ⟨_ + 2, h⟩ => absurd h (Nat.not_lt.2 (Nat.le_add_left _ _))
abbrev reads27_2 : Fin grid27.rank → Bool := ![true]

abbrev grid28 : Pipeline.Grid := ⟨1, ![10], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S5000x64 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S64x64 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 2 → Memref sig .tc .vmem S5000x64 .f32 := fun | 0 => Memref.whole cc28_stg2_0 | 1 => Memref.whole cc28_stg2_1 | ⟨_ + 2, h⟩ => absurd h (Nat.not_lt.2 (Nat.le_add_left _ _))
abbrev sem28_2 : Fin 2 → DmaSem sig := fun | 0 => cc28_sem2_0 | 1 => cc28_sem2_1 | ⟨_ + 2, h⟩ => absurd h (Nat.not_lt.2 (Nat.le_add_left _ _))
abbrev reads28_2 : Fin grid28.rank → Bool := ![true]

abbrev grid29 : Pipeline.Grid := ⟨1, ![170], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_2 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S5000x64 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S5000x1 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev stage29_2 : Fin 2 → Memref sig .tc .vmem S5000x64 .f32 := fun | 0 => Memref.whole cc29_stg2_0 | 1 => Memref.whole cc29_stg2_1 | ⟨_ + 2, h⟩ => absurd h (Nat.not_lt.2 (Nat.le_add_left _ _))
abbrev sem29_2 : Fin 2 → DmaSem sig := fun | 0 => cc29_sem2_0 | 1 => cc29_sem2_1 | ⟨_ + 2, h⟩ => absurd h (Nat.not_lt.2 (Nat.le_add_left _ _))
abbrev reads29_2 : Fin grid29.rank → Bool := ![true]

abbrev grid30 : Pipeline.Grid := ⟨1, ![10], ![false]⟩

def cc30_transform_0 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_1 (i : grid30.Coords) : Fin 1 → Nat :=
  let arg0 : BitVec 32 := BitVec.ofNat 32 (i 0).val
  let c0_i32 : BitVec 32 := 0#32
  let c0_i32_0 : BitVec 32 := 0#32
  ![c0_i32.toNat]

def cc30_transform_2 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S5000x64 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 1 → Memref sig .tc .vmem S64 .f32 := fun | 0 => Memref.whole cc30_stg1_0 | ⟨_ + 1, h⟩ => absurd h (Nat.not_lt.2 (Nat.le_add_left _ _))
abbrev sem30_1 : Fin 1 → DmaSem sig := fun | 0 => cc30_sem1_0 | ⟨_ + 1, h⟩ => absurd h (Nat.not_lt.2 (Nat.le_add_left _ _))
abbrev reads30_1 : Fin grid30.rank → Bool := ![false]

abbrev stage30_2 : Fin 2 → Memref sig .tc .vmem S5000x64 .f32 := fun | 0 => Memref.whole cc30_stg2_0 | 1 => Memref.whole cc30_stg2_1 | ⟨_ + 2, h⟩ => absurd h (Nat.not_lt.2 (Nat.le_add_left _ _))
abbrev sem30_2 : Fin 2 → DmaSem sig := fun | 0 => cc30_sem2_0 | 1 => cc30_sem2_1 | ⟨_ + 2, h⟩ => absurd h (Nat.not_lt.2 (Nat.le_add_left _ _))
abbrev reads30_2 : Fin grid30.rank → Bool := ![true]

abbrev grid31 : Pipeline.Grid := ⟨1, ![100], ![false]⟩

def cc31_transform_0 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_1 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_2 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage31_0 : Fin 2 → Memref sig .tc .vmem S8000x64 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 2 → Memref sig .tc .vmem S8000x64 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev stage31_2 : Fin 2 → Memref sig .tc .vmem S8000x64 .f32 := fun | 0 => Memref.whole cc31_stg2_0 | 1 => Memref.whole cc31_stg2_1 | ⟨_ + 2, h⟩ => absurd h (Nat.not_lt.2 (Nat.le_add_left _ _))
abbrev sem31_2 : Fin 2 → DmaSem sig := fun | 0 => cc31_sem2_0 | 1 => cc31_sem2_1 | ⟨_ + 2, h⟩ => absurd h (Nat.not_lt.2 (Nat.le_add_left _ _))
abbrev reads31_2 : Fin grid31.rank → Bool := ![true]

abbrev grid32 : Pipeline.Grid := ⟨1, ![10], ![false]⟩

def cc32_transform_0 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_1 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_2 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_3 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_4 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S5000x64 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 2 → Memref sig .tc .vmem S5000x1 .f32 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![true]

abbrev stage32_2 : Fin 2 → Memref sig .tc .vmem S5000x64 .f32 := fun | 0 => Memref.whole cc32_stg2_0 | 1 => Memref.whole cc32_stg2_1 | ⟨_ + 2, h⟩ => absurd h (Nat.not_lt.2 (Nat.le_add_left _ _))
abbrev sem32_2 : Fin 2 → DmaSem sig := fun | 0 => cc32_sem2_0 | 1 => cc32_sem2_1 | ⟨_ + 2, h⟩ => absurd h (Nat.not_lt.2 (Nat.le_add_left _ _))
abbrev reads32_2 : Fin grid32.rank → Bool := ![true]

abbrev stage32_3 : Fin 2 → Memref sig .tc .vmem S5000x64 .f32 := fun | 0 => Memref.whole cc32_stg3_0 | 1 => Memref.whole cc32_stg3_1 | ⟨_ + 2, h⟩ => absurd h (Nat.not_lt.2 (Nat.le_add_left _ _))
abbrev sem32_3 : Fin 2 → DmaSem sig := fun | 0 => cc32_sem3_0 | 1 => cc32_sem3_1 | ⟨_ + 2, h⟩ => absurd h (Nat.not_lt.2 (Nat.le_add_left _ _))
abbrev reads32_3 : Fin grid32.rank → Bool := ![true]

abbrev stage32_4 : Fin 2 → Memref sig .tc .vmem S5000x64 .f32 := fun | 0 => Memref.whole cc32_stg4_0 | 1 => Memref.whole cc32_stg4_1 | ⟨_ + 2, h⟩ => absurd h (Nat.not_lt.2 (Nat.le_add_left _ _))
abbrev sem32_4 : Fin 2 → DmaSem sig := fun | 0 => cc32_sem4_0 | 1 => cc32_sem4_1 | ⟨_ + 2, h⟩ => absurd h (Nat.not_lt.2 (Nat.le_add_left _ _))
abbrev reads32_4 : Fin grid32.rank → Bool := ![true]

abbrev grid33 : Pipeline.Grid := ⟨1, ![10], ![false]⟩

def cc33_transform_0 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

def cc33_transform_1 (i : grid33.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc33_transform_2 (i : grid33.Coords) : Fin 1 → Nat :=
  let arg0 : BitVec 32 := BitVec.ofNat 32 (i 0).val
  let c0_i32 : BitVec 32 := 0#32
  let c0_i32_0 : BitVec 32 := 0#32
  ![c0_i32.toNat]

def cc33_transform_3 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage33_0 : Fin 2 → Memref sig .tc .vmem S5000x64 .f32 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev stage33_1 : Fin 1 → Memref sig .tc .vmem S64x64 .f32 := fun | 0 => Memref.whole cc33_stg1_0 | ⟨_ + 1, h⟩ => absurd h (Nat.not_lt.2 (Nat.le_add_left _ _))
abbrev sem33_1 : Fin 1 → DmaSem sig := fun | 0 => cc33_sem1_0 | ⟨_ + 1, h⟩ => absurd h (Nat.not_lt.2 (Nat.le_add_left _ _))
abbrev reads33_1 : Fin grid33.rank → Bool := ![false]

abbrev stage33_2 : Fin 1 → Memref sig .tc .vmem S64 .f32 := fun | 0 => Memref.whole cc33_stg2_0 | ⟨_ + 1, h⟩ => absurd h (Nat.not_lt.2 (Nat.le_add_left _ _))
abbrev sem33_2 : Fin 1 → DmaSem sig := fun | 0 => cc33_sem2_0 | ⟨_ + 1, h⟩ => absurd h (Nat.not_lt.2 (Nat.le_add_left _ _))
abbrev reads33_2 : Fin grid33.rank → Bool := ![false]

abbrev stage33_3 : Fin 2 → Memref sig .tc .vmem S5000x64 .f32 := fun | 0 => Memref.whole cc33_stg3_0 | 1 => Memref.whole cc33_stg3_1 | ⟨_ + 2, h⟩ => absurd h (Nat.not_lt.2 (Nat.le_add_left _ _))
abbrev sem33_3 : Fin 2 → DmaSem sig := fun | 0 => cc33_sem3_0 | 1 => cc33_sem3_1 | ⟨_ + 2, h⟩ => absurd h (Nat.not_lt.2 (Nat.le_add_left _ _))
abbrev reads33_3 : Fin grid33.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S800000x1_S800000_n_0_0_1_wf : ScatterDims.WF S50000 S800000x1 S800000 [] [0] [0] 1
  dot_S5000x256_S256x64_S5000x64_1_0_0_1_n_n_wf : DotDims.WF S5000x256 S256x64 S5000x64 [1] [0] [0] [1] [] []
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S850000x64.size a
  hwx2_0 : ∀ i : grid2.Coords, EltTy.bits .f32 = 32 ∨ (Rect.block (s := S850000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S850000x1.size a
  hwx2_1 : ∀ i : grid2.Coords, EltTy.bits .f32 = 32 ∨ (Rect.block (s := S850000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S850000x64.size a
  hwx2_2 : ∀ i : grid2.Coords, EltTy.bits .f32 = 32 ∨ (Rect.block (s := S850000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S850000x64.size a
  hwx5_0 : ∀ i : grid5.Coords, EltTy.bits .f32 = 32 ∨ (Rect.block (s := S850000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S850000x1.size a
  hwx5_1 : ∀ i : grid5.Coords, EltTy.bits .f32 = 32 ∨ (Rect.block (s := S850000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S850000x64.size a
  hwx5_2 : ∀ i : grid5.Coords, EltTy.bits .f32 = 32 ∨ (Rect.block (s := S850000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64.size a ≤ S64.size a
  hwx6_1 : ∀ i : grid6.Coords, EltTy.bits .f32 = 32 ∨ (Rect.block (s := S64) S64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S800000x64.size a
  hwx7_0 : ∀ i : grid7.Coords, EltTy.bits .f32 = 32 ∨ (Rect.block (s := S800000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S800000x64.size a
  hwx7_1 : ∀ i : grid7.Coords, EltTy.bits .f32 = 32 ∨ (Rect.block (s := S800000x64) S8000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x64.size a ≤ S800000x64.size a
  hwx7_2 : ∀ i : grid7.Coords, EltTy.bits .f32 = 32 ∨ (Rect.block (s := S800000x64) S8000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .f32 = 32 ∨ (Rect.block (s := S50000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S850000x64.size a
  hwx10_0 : ∀ i : grid10.Coords, EltTy.bits .f32 = 32 ∨ (Rect.block (s := S850000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S850000x1.size a
  hwx10_1 : ∀ i : grid10.Coords, EltTy.bits .f32 = 32 ∨ (Rect.block (s := S850000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S850000x64.size a
  hwx10_2 : ∀ i : grid10.Coords, EltTy.bits .f32 = 32 ∨ (Rect.block (s := S850000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64.size a ≤ S64.size a
  hwx11_1 : ∀ i : grid11.Coords, EltTy.bits .f32 = 32 ∨ (Rect.block (s := S64) S64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S50000x64.size a
  hwx11_2 : ∀ i : grid11.Coords, EltTy.bits .f32 = 32 ∨ (Rect.block (s := S50000x64) S5000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S50000x64.size a
  hwx12_2 : ∀ i : grid12.Coords, EltTy.bits .f32 = 32 ∨ (Rect.block (s := S50000x64) S5000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S850000x64.size a
  hwx13_0 : ∀ i : grid13.Coords, EltTy.bits .f32 = 32 ∨ (Rect.block (s := S850000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S850000x1.size a
  hwx13_1 : ∀ i : grid13.Coords, EltTy.bits .f32 = 32 ∨ (Rect.block (s := S850000x1) S5000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S850000x64.size a
  hwx13_2 : ∀ i : grid13.Coords, EltTy.bits .f32 = 32 ∨ (Rect.block (s := S850000x64) S5000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64.size a ≤ S64.size a
  hwx14_1 : ∀ i : grid14.Coords, EltTy.bits .f32 = 32 ∨ (Rect.block (s := S64) S64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x64.size a ≤ S50000x64.size a
  hwx14_2 : ∀ i : grid14.Coords, EltTy.bits .f32 = 32 ∨ (Rect.block (s := S50000x64) S5000x64.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8000x64.size a ≤ S800000x64.size a
  hwx15_0 : ∀ i : grid15.Coords, EltTy.bits .f32 = 32 ∨ (Rect.block (s := S800000x64) S8000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8000x64.size a ≤ S800000x64.size a
  hwx15_1 : ∀ i : grid15.Coords, EltTy.bits .f32 = 32 ∨ (Rect.block (s := S800000x64) S8000x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8000x64.size a ≤ S800000x64.size a
  hwx15_2 : ∀ i : grid15.Coords, EltTy.bits .f32 = 32 ∨ (Rect.block (s := S800000x64) S8000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S50000x64.size a
  hwx16_0 : ∀ i : grid16.Coords, EltTy.bits .f32 = 32 ∨ (Rect.block (s := S50000x64) S5000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x1.size a ≤ S50000x1.size a
  hwx16_1 : ∀ i : grid16.Coords, EltTy.bits .f32 = 32 ∨ (Rect.block (s := S50000x1) S5000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x64.size a ≤ S50000x64.size a
  hwx16_2 : ∀ i : grid16.Coords, EltTy.bits .f32 = 32 ∨ (Rect.block (s := S50000x64) S5000x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x64.size a ≤ S50000x64.size a
  hwx16_3 : ∀ i : grid16.Coords, EltTy.bits .f32 = 32 ∨ (Rect.block (s := S50000x64) S5000x64.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S5000x64.size a ≤ S50000x64.size a
  hwx16_4 : ∀ i : grid16.Coords, EltTy.bits .f32 = 32 ∨ (Rect.block (s := S50000x64) S5000x64.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S50000x64.size a
  hwx17_0 : ∀ i : grid17.Coords, EltTy.bits .f32 = 32 ∨ (Rect.block (s := S50000x64) S5000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x64.size a ≤ S50000x64.size a
  hwx17_2 : ∀ i : grid17.Coords, EltTy.bits .f32 = 32 ∨ (Rect.block (s := S50000x64) S5000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S850000x64.size a
  hwx18_0 : ∀ i : grid18.Coords, EltTy.bits .f32 = 32 ∨ (Rect.block (s := S850000x64) S5000x64.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x1.size a ≤ S850000x1.size a
  hwx18_1 : ∀ i : grid18.Coords, EltTy.bits .f32 = 32 ∨ (Rect.block (s := S850000x1) S5000x1.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x64.size a ≤ S850000x64.size a
  hwx18_2 : ∀ i : grid18.Coords, EltTy.bits .f32 = 32 ∨ (Rect.block (s := S850000x64) S5000x64.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x64.size a ≤ S50000x64.size a
  hwx19_0 : ∀ i : grid19.Coords, EltTy.bits .f32 = 32 ∨ (Rect.block (s := S50000x64) S5000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S64.size a ≤ S64.size a
  hwx19_1 : ∀ i : grid19.Coords, EltTy.bits .f32 = 32 ∨ (Rect.block (s := S64) S64.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x64.size a ≤ S50000x64.size a
  hwx19_2 : ∀ i : grid19.Coords, EltTy.bits .f32 = 32 ∨ (Rect.block (s := S50000x64) S5000x64.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x64.size a ≤ S50000x64.size a
  hwx20_0 : ∀ i : grid20.Coords, EltTy.bits .f32 = 32 ∨ (Rect.block (s := S50000x64) S5000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S64x64.size a ≤ S64x64.size a
  hwx20_1 : ∀ i : grid20.Coords, EltTy.bits .f32 = 32 ∨ (Rect.block (s := S64x64) S64x64.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S5000x64.size a ≤ S50000x64.size a
  hwx20_2 : ∀ i : grid20.Coords, EltTy.bits .f32 = 32 ∨ (Rect.block (s := S50000x64) S5000x64.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x64.size a ≤ S850000x64.size a
  hwx21_0 : ∀ i : grid21.Coords, EltTy.bits .f32 = 32 ∨ (Rect.block (s := S850000x64) S5000x64.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S5000x1.size a ≤ S850000x1.size a
  hwx21_1 : ∀ i : grid21.Coords, EltTy.bits .f32 = 32 ∨ (Rect.block (s := S850000x1) S5000x1.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x64.size a ≤ S850000x64.size a
  hwx21_2 : ∀ i : grid21.Coords, EltTy.bits .f32 = 32 ∨ (Rect.block (s := S850000x64) S5000x64.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x64.size a ≤ S50000x64.size a
  hwx22_0 : ∀ i : grid22.Coords, EltTy.bits .f32 = 32 ∨ (Rect.block (s := S50000x64) S5000x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S64.size a ≤ S64.size a
  hwx22_1 : ∀ i : grid22.Coords, EltTy.bits .f32 = 32 ∨ (Rect.block (s := S64) S64.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x64.size a ≤ S50000x64.size a
  hwx22_2 : ∀ i : grid22.Coords, EltTy.bits .f32 = 32 ∨ (Rect.block (s := S50000x64) S5000x64.size (cc22_transform_2 i) (hinb22_2 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S8000x64.size a ≤ S800000x64.size a
  hwx23_0 : ∀ i : grid23.Coords, EltTy.bits .f32 = 32 ∨ (Rect.block (s := S800000x64) S8000x64.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S8000x64.size a ≤ S800000x64.size a
  hwx23_1 : ∀ i : grid23.Coords, EltTy.bits .f32 = 32 ∨ (Rect.block (s := S800000x64) S8000x64.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S8000x64.size a ≤ S800000x64.size a
  hwx23_2 : ∀ i : grid23.Coords, EltTy.bits .f32 = 32 ∨ (Rect.block (s := S800000x64) S8000x64.size (cc23_transform_2 i) (hinb23_2 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x64.size a ≤ S50000x64.size a
  hwx24_0 : ∀ i : grid24.Coords, EltTy.bits .f32 = 32 ∨ (Rect.block (s := S50000x64) S5000x64.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x1.size a ≤ S50000x1.size a
  hwx24_1 : ∀ i : grid24.Coords, EltTy.bits .f32 = 32 ∨ (Rect.block (s := S50000x1) S5000x1.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S5000x64.size a ≤ S50000x64.size a
  hwx24_2 : ∀ i : grid24.Coords, EltTy.bits .f32 = 32 ∨ (Rect.block (s := S50000x64) S5000x64.size (cc24_transform_2 i) (hinb24_2 i)).WholeWords (EltTy.packing .f32)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S5000x64.size a ≤ S50000x64.size a
  hwx24_3 : ∀ i : grid24.Coords, EltTy.bits .f32 = 32 ∨ (Rect.block (s := S50000x64) S5000x64.size (cc24_transform_3 i) (hinb24_3 i)).WholeWords (EltTy.packing .f32)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S5000x64.size a ≤ S50000x64.size a
  hwx24_4 : ∀ i : grid24.Coords, EltTy.bits .f32 = 32 ∨ (Rect.block (s := S50000x64) S5000x64.size (cc24_transform_4 i) (hinb24_4 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x64.size a ≤ S50000x64.size a
  hwx25_0 : ∀ i : grid25.Coords, EltTy.bits .f32 = 32 ∨ (Rect.block (s := S50000x64) S5000x64.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S64x64.size a ≤ S64x64.size a
  hwx25_1 : ∀ i : grid25.Coords, EltTy.bits .f32 = 32 ∨ (Rect.block (s := S64x64) S64x64.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S5000x64.size a ≤ S50000x64.size a
  hwx25_2 : ∀ i : grid25.Coords, EltTy.bits .f32 = 32 ∨ (Rect.block (s := S50000x64) S5000x64.size (cc25_transform_2 i) (hinb25_2 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S5000x64.size a ≤ S850000x64.size a
  hwx26_0 : ∀ i : grid26.Coords, EltTy.bits .f32 = 32 ∨ (Rect.block (s := S850000x64) S5000x64.size (cc26_transform_0 i) (hinb26_0 i)).WholeWords (EltTy.packing .f32)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S5000x1.size a ≤ S850000x1.size a
  hwx26_1 : ∀ i : grid26.Coords, EltTy.bits .f32 = 32 ∨ (Rect.block (s := S850000x1) S5000x1.size (cc26_transform_1 i) (hinb26_1 i)).WholeWords (EltTy.packing .f32)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S5000x64.size a ≤ S850000x64.size a
  hwx26_2 : ∀ i : grid26.Coords, EltTy.bits .f32 = 32 ∨ (Rect.block (s := S850000x64) S5000x64.size (cc26_transform_2 i) (hinb26_2 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S5000x64.size a ≤ S50000x64.size a
  hwx27_0 : ∀ i : grid27.Coords, EltTy.bits .f32 = 32 ∨ (Rect.block (s := S50000x64) S5000x64.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S64.size a ≤ S64.size a
  hwx27_1 : ∀ i : grid27.Coords, EltTy.bits .f32 = 32 ∨ (Rect.block (s := S64) S64.size (cc27_transform_1 i) (hinb27_1 i)).WholeWords (EltTy.packing .f32)
  hstage27_2 : ∀ j, (stage27_2 j).IsWhole
  nbuf27_2 : grid27.bufCount reads27_2 false = 2
  hreads27_2 : ∀ i i' : grid27.Coords, (∀ a, reads27_2 a = true → i a = i' a) → cc27_transform_2 i = cc27_transform_2 i'
  hinb27_2 : ∀ (i : grid27.Coords) a, (cc27_transform_2 i a + 1) * S5000x64.size a ≤ S50000x64.size a
  hwx27_2 : ∀ i : grid27.Coords, EltTy.bits .f32 = 32 ∨ (Rect.block (s := S50000x64) S5000x64.size (cc27_transform_2 i) (hinb27_2 i)).WholeWords (EltTy.packing .f32)
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S5000x64.size a ≤ S50000x64.size a
  hwx28_0 : ∀ i : grid28.Coords, EltTy.bits .f32 = 32 ∨ (Rect.block (s := S50000x64) S5000x64.size (cc28_transform_0 i) (hinb28_0 i)).WholeWords (EltTy.packing .f32)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S64x64.size a ≤ S64x64.size a
  hwx28_1 : ∀ i : grid28.Coords, EltTy.bits .f32 = 32 ∨ (Rect.block (s := S64x64) S64x64.size (cc28_transform_1 i) (hinb28_1 i)).WholeWords (EltTy.packing .f32)
  hstage28_2 : ∀ j, (stage28_2 j).IsWhole
  nbuf28_2 : grid28.bufCount reads28_2 false = 2
  hreads28_2 : ∀ i i' : grid28.Coords, (∀ a, reads28_2 a = true → i a = i' a) → cc28_transform_2 i = cc28_transform_2 i'
  hinb28_2 : ∀ (i : grid28.Coords) a, (cc28_transform_2 i a + 1) * S5000x64.size a ≤ S50000x64.size a
  hwx28_2 : ∀ i : grid28.Coords, EltTy.bits .f32 = 32 ∨ (Rect.block (s := S50000x64) S5000x64.size (cc28_transform_2 i) (hinb28_2 i)).WholeWords (EltTy.packing .f32)
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S5000x64.size a ≤ S850000x64.size a
  hwx29_0 : ∀ i : grid29.Coords, EltTy.bits .f32 = 32 ∨ (Rect.block (s := S850000x64) S5000x64.size (cc29_transform_0 i) (hinb29_0 i)).WholeWords (EltTy.packing .f32)
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S5000x1.size a ≤ S850000x1.size a
  hwx29_1 : ∀ i : grid29.Coords, EltTy.bits .f32 = 32 ∨ (Rect.block (s := S850000x1) S5000x1.size (cc29_transform_1 i) (hinb29_1 i)).WholeWords (EltTy.packing .f32)
  hstage29_2 : ∀ j, (stage29_2 j).IsWhole
  nbuf29_2 : grid29.bufCount reads29_2 false = 2
  hreads29_2 : ∀ i i' : grid29.Coords, (∀ a, reads29_2 a = true → i a = i' a) → cc29_transform_2 i = cc29_transform_2 i'
  hinb29_2 : ∀ (i : grid29.Coords) a, (cc29_transform_2 i a + 1) * S5000x64.size a ≤ S850000x64.size a
  hwx29_2 : ∀ i : grid29.Coords, EltTy.bits .f32 = 32 ∨ (Rect.block (s := S850000x64) S5000x64.size (cc29_transform_2 i) (hinb29_2 i)).WholeWords (EltTy.packing .f32)
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S5000x64.size a ≤ S50000x64.size a
  hwx30_0 : ∀ i : grid30.Coords, EltTy.bits .f32 = 32 ∨ (Rect.block (s := S50000x64) S5000x64.size (cc30_transform_0 i) (hinb30_0 i)).WholeWords (EltTy.packing .f32)
  hstage30_1 : ∀ j, (stage30_1 j).IsWhole
  nbuf30_1 : grid30.bufCount reads30_1 true = 1
  hreads30_1 : ∀ i i' : grid30.Coords, (∀ a, reads30_1 a = true → i a = i' a) → cc30_transform_1 i = cc30_transform_1 i'
  hinb30_1 : ∀ (i : grid30.Coords) a, (cc30_transform_1 i a + 1) * S64.size a ≤ S64.size a
  hwx30_1 : ∀ i : grid30.Coords, EltTy.bits .f32 = 32 ∨ (Rect.block (s := S64) S64.size (cc30_transform_1 i) (hinb30_1 i)).WholeWords (EltTy.packing .f32)
  hstage30_2 : ∀ j, (stage30_2 j).IsWhole
  nbuf30_2 : grid30.bufCount reads30_2 false = 2
  hreads30_2 : ∀ i i' : grid30.Coords, (∀ a, reads30_2 a = true → i a = i' a) → cc30_transform_2 i = cc30_transform_2 i'
  hinb30_2 : ∀ (i : grid30.Coords) a, (cc30_transform_2 i a + 1) * S5000x64.size a ≤ S50000x64.size a
  hwx30_2 : ∀ i : grid30.Coords, EltTy.bits .f32 = 32 ∨ (Rect.block (s := S50000x64) S5000x64.size (cc30_transform_2 i) (hinb30_2 i)).WholeWords (EltTy.packing .f32)
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S8000x64.size a ≤ S800000x64.size a
  hwx31_0 : ∀ i : grid31.Coords, EltTy.bits .f32 = 32 ∨ (Rect.block (s := S800000x64) S8000x64.size (cc31_transform_0 i) (hinb31_0 i)).WholeWords (EltTy.packing .f32)
  hstage31_1 : ∀ j, (stage31_1 j).IsWhole
  nbuf31_1 : grid31.bufCount reads31_1 false = 2
  hreads31_1 : ∀ i i' : grid31.Coords, (∀ a, reads31_1 a = true → i a = i' a) → cc31_transform_1 i = cc31_transform_1 i'
  hinb31_1 : ∀ (i : grid31.Coords) a, (cc31_transform_1 i a + 1) * S8000x64.size a ≤ S800000x64.size a
  hwx31_1 : ∀ i : grid31.Coords, EltTy.bits .f32 = 32 ∨ (Rect.block (s := S800000x64) S8000x64.size (cc31_transform_1 i) (hinb31_1 i)).WholeWords (EltTy.packing .f32)
  hstage31_2 : ∀ j, (stage31_2 j).IsWhole
  nbuf31_2 : grid31.bufCount reads31_2 false = 2
  hreads31_2 : ∀ i i' : grid31.Coords, (∀ a, reads31_2 a = true → i a = i' a) → cc31_transform_2 i = cc31_transform_2 i'
  hinb31_2 : ∀ (i : grid31.Coords) a, (cc31_transform_2 i a + 1) * S8000x64.size a ≤ S800000x64.size a
  hwx31_2 : ∀ i : grid31.Coords, EltTy.bits .f32 = 32 ∨ (Rect.block (s := S800000x64) S8000x64.size (cc31_transform_2 i) (hinb31_2 i)).WholeWords (EltTy.packing .f32)
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S5000x64.size a ≤ S50000x64.size a
  hwx32_0 : ∀ i : grid32.Coords, EltTy.bits .f32 = 32 ∨ (Rect.block (s := S50000x64) S5000x64.size (cc32_transform_0 i) (hinb32_0 i)).WholeWords (EltTy.packing .f32)
  hstage32_1 : ∀ j, (stage32_1 j).IsWhole
  nbuf32_1 : grid32.bufCount reads32_1 false = 2
  hreads32_1 : ∀ i i' : grid32.Coords, (∀ a, reads32_1 a = true → i a = i' a) → cc32_transform_1 i = cc32_transform_1 i'
  hinb32_1 : ∀ (i : grid32.Coords) a, (cc32_transform_1 i a + 1) * S5000x1.size a ≤ S50000x1.size a
  hwx32_1 : ∀ i : grid32.Coords, EltTy.bits .f32 = 32 ∨ (Rect.block (s := S50000x1) S5000x1.size (cc32_transform_1 i) (hinb32_1 i)).WholeWords (EltTy.packing .f32)
  hstage32_2 : ∀ j, (stage32_2 j).IsWhole
  nbuf32_2 : grid32.bufCount reads32_2 false = 2
  hreads32_2 : ∀ i i' : grid32.Coords, (∀ a, reads32_2 a = true → i a = i' a) → cc32_transform_2 i = cc32_transform_2 i'
  hinb32_2 : ∀ (i : grid32.Coords) a, (cc32_transform_2 i a + 1) * S5000x64.size a ≤ S50000x64.size a
  hwx32_2 : ∀ i : grid32.Coords, EltTy.bits .f32 = 32 ∨ (Rect.block (s := S50000x64) S5000x64.size (cc32_transform_2 i) (hinb32_2 i)).WholeWords (EltTy.packing .f32)
  hstage32_3 : ∀ j, (stage32_3 j).IsWhole
  nbuf32_3 : grid32.bufCount reads32_3 false = 2
  hreads32_3 : ∀ i i' : grid32.Coords, (∀ a, reads32_3 a = true → i a = i' a) → cc32_transform_3 i = cc32_transform_3 i'
  hinb32_3 : ∀ (i : grid32.Coords) a, (cc32_transform_3 i a + 1) * S5000x64.size a ≤ S50000x64.size a
  hwx32_3 : ∀ i : grid32.Coords, EltTy.bits .f32 = 32 ∨ (Rect.block (s := S50000x64) S5000x64.size (cc32_transform_3 i) (hinb32_3 i)).WholeWords (EltTy.packing .f32)
  hstage32_4 : ∀ j, (stage32_4 j).IsWhole
  nbuf32_4 : grid32.bufCount reads32_4 false = 2
  hreads32_4 : ∀ i i' : grid32.Coords, (∀ a, reads32_4 a = true → i a = i' a) → cc32_transform_4 i = cc32_transform_4 i'
  hinb32_4 : ∀ (i : grid32.Coords) a, (cc32_transform_4 i a + 1) * S5000x64.size a ≤ S50000x64.size a
  hwx32_4 : ∀ i : grid32.Coords, EltTy.bits .f32 = 32 ∨ (Rect.block (s := S50000x64) S5000x64.size (cc32_transform_4 i) (hinb32_4 i)).WholeWords (EltTy.packing .f32)
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S5000x64.size a ≤ S50000x64.size a
  hwx33_0 : ∀ i : grid33.Coords, EltTy.bits .f32 = 32 ∨ (Rect.block (s := S50000x64) S5000x64.size (cc33_transform_0 i) (hinb33_0 i)).WholeWords (EltTy.packing .f32)
  hstage33_1 : ∀ j, (stage33_1 j).IsWhole
  nbuf33_1 : grid33.bufCount reads33_1 true = 1
  hreads33_1 : ∀ i i' : grid33.Coords, (∀ a, reads33_1 a = true → i a = i' a) → cc33_transform_1 i = cc33_transform_1 i'
  hinb33_1 : ∀ (i : grid33.Coords) a, (cc33_transform_1 i a + 1) * S64x64.size a ≤ S64x64.size a
  hwx33_1 : ∀ i : grid33.Coords, EltTy.bits .f32 = 32 ∨ (Rect.block (s := S64x64) S64x64.size (cc33_transform_1 i) (hinb33_1 i)).WholeWords (EltTy.packing .f32)
  hstage33_2 : ∀ j, (stage33_2 j).IsWhole
  nbuf33_2 : grid33.bufCount reads33_2 true = 1
  hreads33_2 : ∀ i i' : grid33.Coords, (∀ a, reads33_2 a = true → i a = i' a) → cc33_transform_2 i = cc33_transform_2 i'
  hinb33_2 : ∀ (i : grid33.Coords) a, (cc33_transform_2 i a + 1) * S64.size a ≤ S64.size a
  hwx33_2 : ∀ i : grid33.Coords, EltTy.bits .f32 = 32 ∨ (Rect.block (s := S64) S64.size (cc33_transform_2 i) (hinb33_2 i)).WholeWords (EltTy.packing .f32)
  hstage33_3 : ∀ j, (stage33_3 j).IsWhole
  nbuf33_3 : grid33.bufCount reads33_3 false = 2
  hreads33_3 : ∀ i i' : grid33.Coords, (∀ a, reads33_3 a = true → i a = i' a) → cc33_transform_3 i = cc33_transform_3 i'
  hinb33_3 : ∀ (i : grid33.Coords) a, (cc33_transform_3 i a + 1) * S5000x64.size a ≤ S50000x64.size a
  hwx33_3 : ∀ i : grid33.Coords, EltTy.bits .f32 = 32 ∨ (Rect.block (s := S50000x64) S5000x64.size (cc33_transform_3 i) (hinb33_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v71) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v79) S8000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v82) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v37) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v38) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v51) S5000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v83) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v83) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v84) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v91) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v32) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v92) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v95) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg5) S64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v96) S5000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v83) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg6) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v97) S5000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v104) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v32) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v105) S5000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v108) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg7) S64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v109) S5000x64.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v116) S8000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v123) S8000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v124) S8000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v127) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v37) S5000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v83) S5000x64.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v96) S5000x64.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v128) S5000x64.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v128) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg4) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v129) S5000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v136) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v32) S5000x1.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v137) S5000x64.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v140) S5000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_arg5) S64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v141) S5000x64.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v128) S5000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_arg6) S64x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v142) S5000x64.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v149) S5000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v32) S5000x1.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v150) S5000x64.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v153) S5000x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_arg7) S64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v154) S5000x64.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v161) S8000x64.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v168) S8000x64.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v169) S8000x64.size cc23_transform_2 reads23_2 true false 2 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

abbrev win24_0 : Pipeline.Window sig grid24 :=
  Pipeline.Window.ofSpec (Memref.whole main_v172) S5000x64.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v37) S5000x1.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v128) S5000x64.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v141) S5000x64.size cc24_transform_3 reads24_3 false false 2 stage24_3 sem24_3
    hrank24 hreads24_3 hinb24_3 nbuf24_3 (Memref.isWhole_whole _) hwx24_3 hstage24_3

abbrev win24_4 : Pipeline.Window sig grid24 :=
  Pipeline.Window.ofSpec (Memref.whole main_v173) S5000x64.size cc24_transform_4 reads24_4 true false 2 stage24_4 sem24_4
    hrank24 hreads24_4 hinb24_4 nbuf24_4 (Memref.isWhole_whole _) hwx24_4 hstage24_4

abbrev win24 : Fin 5 → Pipeline.Window sig grid24 := fun | 0 => win24_0 | 1 => win24_1 | 2 => win24_2 | 3 => win24_3 | 4 => win24_4 | ⟨_ + 5, h⟩ => absurd h (Nat.not_lt.2 (Nat.le_add_left _ _))
abbrev spec24 : Fin 5 → Pipeline.WinSpec sig grid24.rank := fun w => (win24 w).toWinSpec

abbrev win25_0 : Pipeline.Window sig grid25 :=
  Pipeline.Window.ofSpec (Memref.whole main_v173) S5000x64.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_arg4) S64x64.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v174) S5000x64.size cc25_transform_2 reads25_2 true false 2 stage25_2 sem25_2
    hrank25 hreads25_2 hinb25_2 nbuf25_2 (Memref.isWhole_whole _) hwx25_2 hstage25_2

abbrev win25 : Fin 3 → Pipeline.Window sig grid25 := fun | 0 => win25_0 | 1 => win25_1 | 2 => win25_2 | ⟨_ + 3, h⟩ => absurd h (Nat.not_lt.2 (Nat.le_add_left _ _))
abbrev spec25 : Fin 3 → Pipeline.WinSpec sig grid25.rank := fun w => (win25 w).toWinSpec

abbrev win26_0 : Pipeline.Window sig grid26 :=
  Pipeline.Window.ofSpec (Memref.whole main_v181) S5000x64.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v32) S5000x1.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_v182) S5000x64.size cc26_transform_2 reads26_2 true false 2 stage26_2 sem26_2
    hrank26 hreads26_2 hinb26_2 nbuf26_2 (Memref.isWhole_whole _) hwx26_2 hstage26_2

abbrev win26 : Fin 3 → Pipeline.Window sig grid26 := fun | 0 => win26_0 | 1 => win26_1 | 2 => win26_2 | ⟨_ + 3, h⟩ => absurd h (Nat.not_lt.2 (Nat.le_add_left _ _))
abbrev spec26 : Fin 3 → Pipeline.WinSpec sig grid26.rank := fun w => (win26 w).toWinSpec

abbrev win27_0 : Pipeline.Window sig grid27 :=
  Pipeline.Window.ofSpec (Memref.whole main_v185) S5000x64.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_arg5) S64.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v186) S5000x64.size cc27_transform_2 reads27_2 true false 2 stage27_2 sem27_2
    hrank27 hreads27_2 hinb27_2 nbuf27_2 (Memref.isWhole_whole _) hwx27_2 hstage27_2

abbrev win27 : Fin 3 → Pipeline.Window sig grid27 := fun | 0 => win27_0 | 1 => win27_1 | 2 => win27_2 | ⟨_ + 3, h⟩ => absurd h (Nat.not_lt.2 (Nat.le_add_left _ _))
abbrev spec27 : Fin 3 → Pipeline.WinSpec sig grid27.rank := fun w => (win27 w).toWinSpec

abbrev win28_0 : Pipeline.Window sig grid28 :=
  Pipeline.Window.ofSpec (Memref.whole main_v173) S5000x64.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_arg6) S64x64.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_v187) S5000x64.size cc28_transform_2 reads28_2 true false 2 stage28_2 sem28_2
    hrank28 hreads28_2 hinb28_2 nbuf28_2 (Memref.isWhole_whole _) hwx28_2 hstage28_2

abbrev win28 : Fin 3 → Pipeline.Window sig grid28 := fun | 0 => win28_0 | 1 => win28_1 | 2 => win28_2 | ⟨_ + 3, h⟩ => absurd h (Nat.not_lt.2 (Nat.le_add_left _ _))
abbrev spec28 : Fin 3 → Pipeline.WinSpec sig grid28.rank := fun w => (win28 w).toWinSpec

abbrev win29_0 : Pipeline.Window sig grid29 :=
  Pipeline.Window.ofSpec (Memref.whole main_v194) S5000x64.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v32) S5000x1.size cc29_transform_1 reads29_1 false false 2 stage29_1 sem29_1
    hrank29 hreads29_1 hinb29_1 nbuf29_1 (Memref.isWhole_whole _) hwx29_1 hstage29_1

abbrev win29_2 : Pipeline.Window sig grid29 :=
  Pipeline.Window.ofSpec (Memref.whole main_v195) S5000x64.size cc29_transform_2 reads29_2 true false 2 stage29_2 sem29_2
    hrank29 hreads29_2 hinb29_2 nbuf29_2 (Memref.isWhole_whole _) hwx29_2 hstage29_2

abbrev win29 : Fin 3 → Pipeline.Window sig grid29 := fun | 0 => win29_0 | 1 => win29_1 | 2 => win29_2 | ⟨_ + 3, h⟩ => absurd h (Nat.not_lt.2 (Nat.le_add_left _ _))
abbrev spec29 : Fin 3 → Pipeline.WinSpec sig grid29.rank := fun w => (win29 w).toWinSpec

abbrev win30_0 : Pipeline.Window sig grid30 :=
  Pipeline.Window.ofSpec (Memref.whole main_v198) S5000x64.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_arg7) S64.size cc30_transform_1 reads30_1 false true 1 stage30_1 sem30_1
    hrank30 hreads30_1 hinb30_1 nbuf30_1 (Memref.isWhole_whole _) hwx30_1 hstage30_1

abbrev win30_2 : Pipeline.Window sig grid30 :=
  Pipeline.Window.ofSpec (Memref.whole main_v199) S5000x64.size cc30_transform_2 reads30_2 true false 2 stage30_2 sem30_2
    hrank30 hreads30_2 hinb30_2 nbuf30_2 (Memref.isWhole_whole _) hwx30_2 hstage30_2

abbrev win30 : Fin 3 → Pipeline.Window sig grid30 := fun | 0 => win30_0 | 1 => win30_1 | 2 => win30_2 | ⟨_ + 3, h⟩ => absurd h (Nat.not_lt.2 (Nat.le_add_left _ _))
abbrev spec30 : Fin 3 → Pipeline.WinSpec sig grid30.rank := fun w => (win30 w).toWinSpec

abbrev win31_0 : Pipeline.Window sig grid31 :=
  Pipeline.Window.ofSpec (Memref.whole main_v206) S8000x64.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_v213) S8000x64.size cc31_transform_1 reads31_1 false false 2 stage31_1 sem31_1
    hrank31 hreads31_1 hinb31_1 nbuf31_1 (Memref.isWhole_whole _) hwx31_1 hstage31_1

abbrev win31_2 : Pipeline.Window sig grid31 :=
  Pipeline.Window.ofSpec (Memref.whole main_v214) S8000x64.size cc31_transform_2 reads31_2 true false 2 stage31_2 sem31_2
    hrank31 hreads31_2 hinb31_2 nbuf31_2 (Memref.isWhole_whole _) hwx31_2 hstage31_2

abbrev win31 : Fin 3 → Pipeline.Window sig grid31 := fun | 0 => win31_0 | 1 => win31_1 | 2 => win31_2 | ⟨_ + 3, h⟩ => absurd h (Nat.not_lt.2 (Nat.le_add_left _ _))
abbrev spec31 : Fin 3 → Pipeline.WinSpec sig grid31.rank := fun w => (win31 w).toWinSpec

abbrev win32_0 : Pipeline.Window sig grid32 :=
  Pipeline.Window.ofSpec (Memref.whole main_v217) S5000x64.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_v37) S5000x1.size cc32_transform_1 reads32_1 false false 2 stage32_1 sem32_1
    hrank32 hreads32_1 hinb32_1 nbuf32_1 (Memref.isWhole_whole _) hwx32_1 hstage32_1

abbrev win32_2 : Pipeline.Window sig grid32 :=
  Pipeline.Window.ofSpec (Memref.whole main_v173) S5000x64.size cc32_transform_2 reads32_2 false false 2 stage32_2 sem32_2
    hrank32 hreads32_2 hinb32_2 nbuf32_2 (Memref.isWhole_whole _) hwx32_2 hstage32_2

abbrev win32_3 : Pipeline.Window sig grid32 :=
  Pipeline.Window.ofSpec (Memref.whole main_v186) S5000x64.size cc32_transform_3 reads32_3 false false 2 stage32_3 sem32_3
    hrank32 hreads32_3 hinb32_3 nbuf32_3 (Memref.isWhole_whole _) hwx32_3 hstage32_3

abbrev win32_4 : Pipeline.Window sig grid32 :=
  Pipeline.Window.ofSpec (Memref.whole main_v218) S5000x64.size cc32_transform_4 reads32_4 true false 2 stage32_4 sem32_4
    hrank32 hreads32_4 hinb32_4 nbuf32_4 (Memref.isWhole_whole _) hwx32_4 hstage32_4

abbrev win32 : Fin 5 → Pipeline.Window sig grid32 := fun | 0 => win32_0 | 1 => win32_1 | 2 => win32_2 | 3 => win32_3 | 4 => win32_4 | ⟨_ + 5, h⟩ => absurd h (Nat.not_lt.2 (Nat.le_add_left _ _))
abbrev spec32 : Fin 5 → Pipeline.WinSpec sig grid32.rank := fun w => (win32 w).toWinSpec

abbrev win33_0 : Pipeline.Window sig grid33 :=
  Pipeline.Window.ofSpec (Memref.whole main_v218) S5000x64.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_arg8) S64x64.size cc33_transform_1 reads33_1 false true 1 stage33_1 sem33_1
    hrank33 hreads33_1 hinb33_1 nbuf33_1 (Memref.isWhole_whole _) hwx33_1 hstage33_1

abbrev win33_2 : Pipeline.Window sig grid33 :=
  Pipeline.Window.ofSpec (Memref.whole main_arg9) S64.size cc33_transform_2 reads33_2 false true 1 stage33_2 sem33_2
    hrank33 hreads33_2 hinb33_2 nbuf33_2 (Memref.isWhole_whole _) hwx33_2 hstage33_2

abbrev win33_3 : Pipeline.Window sig grid33 :=
  Pipeline.Window.ofSpec (Memref.whole main_v219) S5000x64.size cc33_transform_3 reads33_3 true false 2 stage33_3 sem33_3
    hrank33 hreads33_3 hinb33_3 nbuf33_3 (Memref.isWhole_whole _) hwx33_3 hstage33_3

abbrev win33 : Fin 4 → Pipeline.Window sig grid33 := fun | 0 => win33_0 | 1 => win33_1 | 2 => win33_2 | 3 => win33_3 | ⟨_ + 4, h⟩ => absurd h (Nat.not_lt.2 (Nat.le_add_left _ _))
abbrev spec33 : Fin 4 → Pipeline.WinSpec sig grid33.rank := fun w => (win33 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x64 : Shape := ⟨2, ![850000, 64]⟩
abbrev S800000x1 : Shape := ⟨2, ![800000, 1]⟩
abbrev S800000x64 : Shape := ⟨2, ![800000, 64]⟩
abbrev S50000x1 : Shape := ⟨2, ![50000, 1]⟩

abbrev nBuf : Space → Nat
  | .hbm => 708
  | .vmem => 0
  | .smem => 0
  | _ => 0

abbrev hbmTy0_0 (i : Nat) : BufTy := match i % 128 with
  | 0 => ⟨S50000x256, .f32⟩
  | 1 => ⟨S2x800000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S850000x1, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x64, .f32⟩
  | 71 => ⟨S850000x64, .f32⟩
  | 72 => ⟨S850000x64, .f32⟩
  | 73 => ⟨S_, .f32⟩
  | 74 => ⟨S50000x64, .f32⟩
  | 75 => ⟨S850000x1, .i32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S50000, .i32⟩
  | 85 => ⟨S850000, .i32⟩
  | 86 => ⟨S850000, .i32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S_, .f32⟩
  | 97 => ⟨S50000, .f32⟩
  | 98 => ⟨S50000, .f32⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000, .f32⟩
  | 122 => ⟨S850000, .f32⟩
  | 123 => ⟨S850000x1, .f32⟩
  | 124 => ⟨S_, .i32⟩
  | 125 => ⟨S850000, .i32⟩
  | 126 => ⟨S850000, .i1⟩
  | 127 => ⟨S_, .i32⟩
  | _ => ⟨S50000x256, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x64, .f32⟩
  | 5 => ⟨S850000x64, .f32⟩
  | 6 => ⟨S850000x64, .f32⟩
  | 7 => ⟨S_, .f32⟩
  | 8 => ⟨S50000x64, .f32⟩
  | 9 => ⟨S850000x1, .i32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x64, .f32⟩
  | 36 => ⟨S800000x64, .f32⟩
  | 37 => ⟨S_, .f32⟩
  | 38 => ⟨S800000x64, .f32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S50000, .i32⟩
  | 65 => ⟨S850000, .i32⟩
  | 66 => ⟨S850000, .i32⟩
  | 67 => ⟨S_, .f32⟩
  | 68 => ⟨S850000, .f32⟩
  | 69 => ⟨S_, .f32⟩
  | 70 => ⟨S50000, .f32⟩
  | 71 => ⟨S850000x1, .i32⟩
  | 72 => ⟨S50000, .f32⟩
  | 73 => ⟨S_, .f32⟩
  | 74 => ⟨S50000, .f32⟩
  | 75 => ⟨S50000, .i1⟩
  | 76 => ⟨S_, .f32⟩
  | 77 => ⟨S50000, .f32⟩
  | 78 => ⟨S50000, .f32⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S850000x1, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x64, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000, .i32⟩
  | 127 => ⟨S850000, .i32⟩
  | _ => ⟨S50000x256, .f32⟩

abbrev hbmTy0_2 (i : Nat) : BufTy := match i % 128 with
  | 0 => ⟨S850000, .i32⟩
  | 1 => ⟨S_, .f32⟩
  | 2 => ⟨S850000, .f32⟩
  | 3 => ⟨S_, .f32⟩
  | 4 => ⟨S50000, .f32⟩
  | 5 => ⟨S850000x1, .i32⟩
  | 6 => ⟨S50000, .f32⟩
  | 7 => ⟨S_, .f32⟩
  | 8 => ⟨S50000, .f32⟩
  | 9 => ⟨S50000, .i1⟩
  | 10 => ⟨S_, .f32⟩
  | 11 => ⟨S50000, .f32⟩
  | 12 => ⟨S50000, .f32⟩
  | 13 => ⟨S50000, .f32⟩
  | 14 => ⟨S_, .f32⟩
  | 15 => ⟨S_, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S850000x1, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x64, .f32⟩
  | 47 => ⟨S850000x64, .f32⟩
  | 48 => ⟨S850000x64, .f32⟩
  | 49 => ⟨S_, .f32⟩
  | 50 => ⟨S50000x64, .f32⟩
  | 51 => ⟨S850000x1, .i32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x64, .f32⟩
  | 78 => ⟨S800000x64, .f32⟩
  | 79 => ⟨S_, .f32⟩
  | 80 => ⟨S800000x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S50000x64, .f32⟩
  | 104 => ⟨S50000x64, .f32⟩
  | 105 => ⟨S50000x64, .f32⟩
  | 106 => ⟨S50000, .i32⟩
  | 107 => ⟨S850000, .i32⟩
  | 108 => ⟨S850000, .i32⟩
  | 109 => ⟨S_, .f32⟩
  | 110 => ⟨S850000, .f32⟩
  | 111 => ⟨S_, .f32⟩
  | 112 => ⟨S50000, .f32⟩
  | 113 => ⟨S850000x1, .i32⟩
  | 114 => ⟨S50000, .f32⟩
  | 115 => ⟨S_, .f32⟩
  | 116 => ⟨S50000, .f32⟩
  | 117 => ⟨S50000, .i1⟩
  | 118 => ⟨S_, .f32⟩
  | 119 => ⟨S50000, .f32⟩
  | 120 => ⟨S50000, .f32⟩
  | 121 => ⟨S50000, .f32⟩
  | 122 => ⟨S_, .f32⟩
  | 123 => ⟨S_, .f32⟩
  | 124 => ⟨S50000, .f32⟩
  | 125 => ⟨S50000, .f32⟩
  | 126 => ⟨S_, .i32⟩
  | 127 => ⟨S850000, .i32⟩
  | _ => ⟨S50000x256, .f32⟩

abbrev hbmTy0_3 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S850000, .f32⟩
  | 17 => ⟨S850000x1, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x64, .f32⟩
  | 27 => ⟨S850000x64, .f32⟩
  | 28 => ⟨S850000x64, .f32⟩
  | 29 => ⟨S_, .f32⟩
  | 30 => ⟨S50000x64, .f32⟩
  | 31 => ⟨S850000x1, .i32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S50000, .i32⟩
  | 41 => ⟨S850000, .i32⟩
  | 42 => ⟨S850000, .i32⟩
  | 43 => ⟨S_, .f32⟩
  | 44 => ⟨S850000, .f32⟩
  | 45 => ⟨S_, .f32⟩
  | 46 => ⟨S50000, .f32⟩
  | 47 => ⟨S850000x1, .i32⟩
  | 48 => ⟨S50000, .f32⟩
  | 49 => ⟨S_, .f32⟩
  | 50 => ⟨S50000, .f32⟩
  | 51 => ⟨S50000, .i1⟩
  | 52 => ⟨S_, .f32⟩
  | 53 => ⟨S50000, .f32⟩
  | 54 => ⟨S50000, .f32⟩
  | 55 => ⟨S50000, .f32⟩
  | 56 => ⟨S_, .f32⟩
  | 57 => ⟨S_, .f32⟩
  | 58 => ⟨S50000, .f32⟩
  | 59 => ⟨S50000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S850000, .f32⟩
  | 79 => ⟨S850000x1, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x64, .f32⟩
  | 89 => ⟨S850000x64, .f32⟩
  | 90 => ⟨S850000x64, .f32⟩
  | 91 => ⟨S_, .f32⟩
  | 92 => ⟨S50000x64, .f32⟩
  | 93 => ⟨S850000x1, .i32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x64, .f32⟩
  | 120 => ⟨S800000x64, .f32⟩
  | 121 => ⟨S_, .f32⟩
  | 122 => ⟨S800000x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x256, .f32⟩

abbrev hbmTy0_4 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x64, .f32⟩
  | 17 => ⟨S50000x64, .f32⟩
  | 18 => ⟨S50000x64, .f32⟩
  | 19 => ⟨S50000x64, .f32⟩
  | 20 => ⟨S50000, .i32⟩
  | 21 => ⟨S850000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S850000x1, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x64, .f32⟩
  | 69 => ⟨S850000x64, .f32⟩
  | 70 => ⟨S850000x64, .f32⟩
  | 71 => ⟨S_, .f32⟩
  | 72 => ⟨S50000x64, .f32⟩
  | 73 => ⟨S850000x1, .i32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S50000x64, .f32⟩
  | 82 => ⟨S50000, .i32⟩
  | 83 => ⟨S850000, .i32⟩
  | 84 => ⟨S850000, .i32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S850000x1, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x256, .f32⟩

abbrev hbmTy0_5 (i : Nat) : BufTy := match i % 128 with
  | 0 => ⟨S850000, .i32⟩
  | 1 => ⟨S850000x1, .i32⟩
  | 2 => ⟨S850000x64, .f32⟩
  | 3 => ⟨S850000x64, .f32⟩
  | 4 => ⟨S850000x64, .f32⟩
  | 5 => ⟨S_, .f32⟩
  | 6 => ⟨S50000x64, .f32⟩
  | 7 => ⟨S850000x1, .i32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S800000x64, .f32⟩
  | 35 => ⟨S_, .f32⟩
  | 36 => ⟨S800000x64, .f32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x64, .f32⟩
  | 59 => ⟨S50000x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_call3_v0 : Ref sig .tc := ⟨.hbm, 101, rfl⟩
abbrev main_call3_v1 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_17 : Ref sig .tc := ⟨.hbm, 113, rfl⟩
abbrev main_v76 : Ref sig .tc := ⟨.hbm, 114, rfl⟩
abbrev main_v77 : Ref sig .tc := ⟨.hbm, 115, rfl⟩
abbrev main_c_18 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_19 : Ref sig .tc := ⟨.hbm, 124, rfl⟩
abbrev main_v85 : Ref sig .tc := ⟨.hbm, 125, rfl⟩
abbrev main_v86 : Ref sig .tc := ⟨.hbm, 126, rfl⟩
abbrev main_c_20 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_c_22 : Ref sig .tc := ⟨.hbm, 145, rfl⟩
abbrev main_v101 : Ref sig .tc := ⟨.hbm, 146, rfl⟩
abbrev main_v102 : Ref sig .tc := ⟨.hbm, 147, rfl⟩
abbrev main_c_23 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_24 : Ref sig .tc := ⟨.hbm, 154, rfl⟩
abbrev main_v108 : Ref sig .tc := ⟨.hbm, 155, rfl⟩
abbrev main_v109 : Ref sig .tc := ⟨.hbm, 156, rfl⟩
abbrev main_c_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_26 : Ref sig .tc := ⟨.hbm, 165, rfl⟩
abbrev main_v117 : Ref sig .tc := ⟨.hbm, 166, rfl⟩
abbrev main_v118 : Ref sig .tc := ⟨.hbm, 167, rfl⟩
abbrev main_cst_27 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_v122 : Ref sig .tc := ⟨.hbm, 173, rfl⟩
abbrev main_cst_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_30 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_31 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_32 : Ref sig .tc := ⟨.hbm, 195, rfl⟩
abbrev main_v141 : Ref sig .tc := ⟨.hbm, 196, rfl⟩
abbrev main_cst_33 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_34 : Ref sig .tc := ⟨.hbm, 201, rfl⟩
abbrev main_v145 : Ref sig .tc := ⟨.hbm, 202, rfl⟩
abbrev main_v146 : Ref sig .tc := ⟨.hbm, 203, rfl⟩
abbrev main_cst_35 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_36 : Ref sig .tc := ⟨.hbm, 208, rfl⟩
abbrev main_call5_v0 : Ref sig .tc := ⟨.hbm, 209, rfl⟩
abbrev main_call5_v1 : Ref sig .tc := ⟨.hbm, 210, rfl⟩
abbrev main_v150 : Ref sig .tc := ⟨.hbm, 211, rfl⟩
abbrev main_c_37 : Ref sig .tc := ⟨.hbm, 212, rfl⟩
abbrev main_v151 : Ref sig .tc := ⟨.hbm, 213, rfl⟩
abbrev main_v152 : Ref sig .tc := ⟨.hbm, 214, rfl⟩
abbrev main_c_38 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_c_39 : Ref sig .tc := ⟨.hbm, 221, rfl⟩
abbrev main_v158 : Ref sig .tc := ⟨.hbm, 222, rfl⟩
abbrev main_v159 : Ref sig .tc := ⟨.hbm, 223, rfl⟩
abbrev main_c_40 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_41 : Ref sig .tc := ⟨.hbm, 232, rfl⟩
abbrev main_v167 : Ref sig .tc := ⟨.hbm, 233, rfl⟩
abbrev main_v168 : Ref sig .tc := ⟨.hbm, 234, rfl⟩
abbrev main_c_42 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_43 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_call6_cst : Ref sig .tc := ⟨.hbm, 250, rfl⟩
abbrev main_call6_v0 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_cst_44 : Ref sig .tc := ⟨.hbm, 257, rfl⟩
abbrev main_v187 : Ref sig .tc := ⟨.hbm, 258, rfl⟩
abbrev main_cst_45 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_cst_46 : Ref sig .tc := ⟨.hbm, 263, rfl⟩
abbrev main_v191 : Ref sig .tc := ⟨.hbm, 264, rfl⟩
abbrev main_v192 : Ref sig .tc := ⟨.hbm, 265, rfl⟩
abbrev main_cst_47 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_cst_48 : Ref sig .tc := ⟨.hbm, 270, rfl⟩
abbrev main_call7_v0 : Ref sig .tc := ⟨.hbm, 271, rfl⟩
abbrev main_call7_v1 : Ref sig .tc := ⟨.hbm, 272, rfl⟩
abbrev main_v196 : Ref sig .tc := ⟨.hbm, 273, rfl⟩
abbrev main_c_49 : Ref sig .tc := ⟨.hbm, 274, rfl⟩
abbrev main_v197 : Ref sig .tc := ⟨.hbm, 275, rfl⟩
abbrev main_v198 : Ref sig .tc := ⟨.hbm, 276, rfl⟩
abbrev main_c_50 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_c_51 : Ref sig .tc := ⟨.hbm, 283, rfl⟩
abbrev main_v204 : Ref sig .tc := ⟨.hbm, 284, rfl⟩
abbrev main_v205 : Ref sig .tc := ⟨.hbm, 285, rfl⟩
abbrev main_c_52 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_c_53 : Ref sig .tc := ⟨.hbm, 294, rfl⟩
abbrev main_v213 : Ref sig .tc := ⟨.hbm, 295, rfl⟩
abbrev main_v214 : Ref sig .tc := ⟨.hbm, 296, rfl⟩
abbrev main_c_54 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_cst_55 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_call8_cst : Ref sig .tc := ⟨.hbm, 312, rfl⟩
abbrev main_call8_v0 : Ref sig .tc := ⟨.hbm, 313, rfl⟩
abbrev main_v228 : Ref sig .tc := ⟨.hbm, 314, rfl⟩
abbrev main_c_56 : Ref sig .tc := ⟨.hbm, 315, rfl⟩
abbrev main_v229 : Ref sig .tc := ⟨.hbm, 316, rfl⟩
abbrev main_v230 : Ref sig .tc := ⟨.hbm, 317, rfl⟩
abbrev main_c_57 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_c_58 : Ref sig .tc := ⟨.hbm, 324, rfl⟩
abbrev main_v236 : Ref sig .tc := ⟨.hbm, 325, rfl⟩
abbrev main_v237 : Ref sig .tc := ⟨.hbm, 326, rfl⟩
abbrev main_c_59 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_cst_60 : Ref sig .tc := ⟨.hbm, 335, rfl⟩
abbrev main_v245 : Ref sig .tc := ⟨.hbm, 336, rfl⟩
abbrev main_v246 : Ref sig .tc := ⟨.hbm, 337, rfl⟩
abbrev main_cst_61 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_cst_62 : Ref sig .tc := ⟨.hbm, 342, rfl⟩
abbrev main_v250 : Ref sig .tc := ⟨.hbm, 343, rfl⟩
abbrev main_cst_63 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_cst_64 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_cst_65 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_cst_66 : Ref sig .tc := ⟨.hbm, 365, rfl⟩
abbrev main_v269 : Ref sig .tc := ⟨.hbm, 366, rfl⟩
abbrev main_cst_67 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_cst_68 : Ref sig .tc := ⟨.hbm, 371, rfl⟩
abbrev main_v273 : Ref sig .tc := ⟨.hbm, 372, rfl⟩
abbrev main_v274 : Ref sig .tc := ⟨.hbm, 373, rfl⟩
abbrev main_cst_69 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_cst_70 : Ref sig .tc := ⟨.hbm, 378, rfl⟩
abbrev main_call9_v0 : Ref sig .tc := ⟨.hbm, 379, rfl⟩
abbrev main_call9_v1 : Ref sig .tc := ⟨.hbm, 380, rfl⟩
abbrev main_v278 : Ref sig .tc := ⟨.hbm, 381, rfl⟩
abbrev main_c_71 : Ref sig .tc := ⟨.hbm, 382, rfl⟩
abbrev main_v279 : Ref sig .tc := ⟨.hbm, 383, rfl⟩
abbrev main_v280 : Ref sig .tc := ⟨.hbm, 384, rfl⟩
abbrev main_c_72 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_c_73 : Ref sig .tc := ⟨.hbm, 391, rfl⟩
abbrev main_v286 : Ref sig .tc := ⟨.hbm, 392, rfl⟩
abbrev main_v287 : Ref sig .tc := ⟨.hbm, 393, rfl⟩
abbrev main_c_74 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_v291 : Ref sig .tc := ⟨.hbm, 398, rfl⟩
abbrev main_v292 : Ref sig .tc := ⟨.hbm, 399, rfl⟩
abbrev main_v293 : Ref sig .tc := ⟨.hbm, 400, rfl⟩
abbrev main_v294 : Ref sig .tc := ⟨.hbm, 401, rfl⟩
abbrev main_c_75 : Ref sig .tc := ⟨.hbm, 402, rfl⟩
abbrev main_v295 : Ref sig .tc := ⟨.hbm, 403, rfl⟩
abbrev main_v296 : Ref sig .tc := ⟨.hbm, 404, rfl⟩
abbrev main_c_76 : Ref sig .tc := ⟨.hbm, 405, rfl⟩
abbrev main_v297 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_v301 : Ref sig .tc := ⟨.hbm, 410, rfl⟩
abbrev main_v302 : Ref sig .tc := ⟨.hbm, 411, rfl⟩
abbrev main_v303 : Ref sig .tc := ⟨.hbm, 412, rfl⟩
abbrev main_cst_77 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_v308 : Ref sig .tc := ⟨.hbm, 418, rfl⟩
abbrev main_v309 : Ref sig .tc := ⟨.hbm, 419, rfl⟩
abbrev main_call10_cst : Ref sig .tc := ⟨.hbm, 420, rfl⟩
abbrev main_call10_v0 : Ref sig .tc := ⟨.hbm, 421, rfl⟩
abbrev main_v310 : Ref sig .tc := ⟨.hbm, 422, rfl⟩
abbrev main_v311 : Ref sig .tc := ⟨.hbm, 423, rfl⟩
abbrev main_v312 : Ref sig .tc := ⟨.hbm, 424, rfl⟩
abbrev main_v313 : Ref sig .tc := ⟨.hbm, 425, rfl⟩
abbrev main_v314 : Ref sig .tc := ⟨.hbm, 426, rfl⟩
abbrev main_cst_78 : Ref sig .tc := ⟨.hbm, 427, rfl⟩
abbrev main_v315 : Ref sig .tc := ⟨.hbm, 428, rfl⟩
abbrev main_cst_79 : Ref sig .tc := ⟨.hbm, 429, rfl⟩
abbrev main_v316 : Ref sig .tc := ⟨.hbm, 430, rfl⟩
abbrev main_v317 : Ref sig .tc := ⟨.hbm, 431, rfl⟩
abbrev main_v318 : Ref sig .tc := ⟨.hbm, 432, rfl⟩
abbrev main_cst_80 : Ref sig .tc := ⟨.hbm, 433, rfl⟩
abbrev main_v319 : Ref sig .tc := ⟨.hbm, 434, rfl⟩
abbrev main_v320 : Ref sig .tc := ⟨.hbm, 435, rfl⟩
abbrev main_cst_81 : Ref sig .tc := ⟨.hbm, 436, rfl⟩
abbrev main_v321 : Ref sig .tc := ⟨.hbm, 437, rfl⟩
abbrev main_v322 : Ref sig .tc := ⟨.hbm, 438, rfl⟩
abbrev main_v323 : Ref sig .tc := ⟨.hbm, 439, rfl⟩
abbrev main_cst_82 : Ref sig .tc := ⟨.hbm, 440, rfl⟩
abbrev main_call11_v0 : Ref sig .tc := ⟨.hbm, 441, rfl⟩
abbrev main_call11_v1 : Ref sig .tc := ⟨.hbm, 442, rfl⟩
abbrev main_v324 : Ref sig .tc := ⟨.hbm, 443, rfl⟩
abbrev main_c_83 : Ref sig .tc := ⟨.hbm, 444, rfl⟩
abbrev main_v325 : Ref sig .tc := ⟨.hbm, 445, rfl⟩
abbrev main_v326 : Ref sig .tc := ⟨.hbm, 446, rfl⟩
abbrev main_c_84 : Ref sig .tc := ⟨.hbm, 447, rfl⟩
abbrev main_v327 : Ref sig .tc := ⟨.hbm, 448, rfl⟩
abbrev main_v328 : Ref sig .tc := ⟨.hbm, 449, rfl⟩
abbrev main_v329 : Ref sig .tc := ⟨.hbm, 450, rfl⟩
abbrev main_v330 : Ref sig .tc := ⟨.hbm, 451, rfl⟩
abbrev main_v331 : Ref sig .tc := ⟨.hbm, 452, rfl⟩
abbrev main_c_85 : Ref sig .tc := ⟨.hbm, 453, rfl⟩
abbrev main_v332 : Ref sig .tc := ⟨.hbm, 454, rfl⟩
abbrev main_v333 : Ref sig .tc := ⟨.hbm, 455, rfl⟩
abbrev main_c_86 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩
abbrev main_v337 : Ref sig .tc := ⟨.hbm, 460, rfl⟩
abbrev main_v338 : Ref sig .tc := ⟨.hbm, 461, rfl⟩
abbrev main_v339 : Ref sig .tc := ⟨.hbm, 462, rfl⟩
abbrev main_v340 : Ref sig .tc := ⟨.hbm, 463, rfl⟩
abbrev main_c_87 : Ref sig .tc := ⟨.hbm, 464, rfl⟩
abbrev main_v341 : Ref sig .tc := ⟨.hbm, 465, rfl⟩
abbrev main_v342 : Ref sig .tc := ⟨.hbm, 466, rfl⟩
abbrev main_c_88 : Ref sig .tc := ⟨.hbm, 467, rfl⟩
abbrev main_v343 : Ref sig .tc := ⟨.hbm, 468, rfl⟩
abbrev main_v344 : Ref sig .tc := ⟨.hbm, 469, rfl⟩
abbrev main_v345 : Ref sig .tc := ⟨.hbm, 470, rfl⟩
abbrev main_v346 : Ref sig .tc := ⟨.hbm, 471, rfl⟩
abbrev main_v347 : Ref sig .tc := ⟨.hbm, 472, rfl⟩
abbrev main_v348 : Ref sig .tc := ⟨.hbm, 473, rfl⟩
abbrev main_v349 : Ref sig .tc := ⟨.hbm, 474, rfl⟩
abbrev main_cst_89 : Ref sig .tc := ⟨.hbm, 475, rfl⟩
abbrev main_v350 : Ref sig .tc := ⟨.hbm, 476, rfl⟩
abbrev main_v351 : Ref sig .tc := ⟨.hbm, 477, rfl⟩
abbrev main_v352 : Ref sig .tc := ⟨.hbm, 478, rfl⟩
abbrev main_v353 : Ref sig .tc := ⟨.hbm, 479, rfl⟩
abbrev main_v354 : Ref sig .tc := ⟨.hbm, 480, rfl⟩
abbrev main_v355 : Ref sig .tc := ⟨.hbm, 481, rfl⟩
abbrev main_call12_cst : Ref sig .tc := ⟨.hbm, 482, rfl⟩
abbrev main_call12_v0 : Ref sig .tc := ⟨.hbm, 483, rfl⟩
abbrev main_v356 : Ref sig .tc := ⟨.hbm, 484, rfl⟩
abbrev main_c_90 : Ref sig .tc := ⟨.hbm, 485, rfl⟩
abbrev main_v357 : Ref sig .tc := ⟨.hbm, 486, rfl⟩
abbrev main_v358 : Ref sig .tc := ⟨.hbm, 487, rfl⟩
abbrev main_c_91 : Ref sig .tc := ⟨.hbm, 488, rfl⟩
abbrev main_v359 : Ref sig .tc := ⟨.hbm, 489, rfl⟩
abbrev main_v360 : Ref sig .tc := ⟨.hbm, 490, rfl⟩
abbrev main_v361 : Ref sig .tc := ⟨.hbm, 491, rfl⟩
abbrev main_v362 : Ref sig .tc := ⟨.hbm, 492, rfl⟩
abbrev main_v363 : Ref sig .tc := ⟨.hbm, 493, rfl⟩
abbrev main_c_92 : Ref sig .tc := ⟨.hbm, 494, rfl⟩
abbrev main_v364 : Ref sig .tc := ⟨.hbm, 495, rfl⟩
abbrev main_v365 : Ref sig .tc := ⟨.hbm, 496, rfl⟩
abbrev main_c_93 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_v370 : Ref sig .tc := ⟨.hbm, 502, rfl⟩
abbrev main_v371 : Ref sig .tc := ⟨.hbm, 503, rfl⟩
abbrev main_v372 : Ref sig .tc := ⟨.hbm, 504, rfl⟩
abbrev main_cst_94 : Ref sig .tc := ⟨.hbm, 505, rfl⟩
abbrev main_v373 : Ref sig .tc := ⟨.hbm, 506, rfl⟩
abbrev main_v374 : Ref sig .tc := ⟨.hbm, 507, rfl⟩
abbrev main_cst_95 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_cst_96 : Ref sig .tc := ⟨.hbm, 512, rfl⟩
abbrev main_v378 : Ref sig .tc := ⟨.hbm, 513, rfl⟩
abbrev main_cst_97 : Ref sig .tc := ⟨.hbm, 514, rfl⟩
abbrev main_v379 : Ref sig .tc := ⟨.hbm, 515, rfl⟩
abbrev main_v380 : Ref sig .tc := ⟨.hbm, 516, rfl⟩
abbrev main_v381 : Ref sig .tc := ⟨.hbm, 517, rfl⟩
abbrev main_cst_98 : Ref sig .tc := ⟨.hbm, 518, rfl⟩
abbrev main_v382 : Ref sig .tc := ⟨.hbm, 519, rfl⟩
abbrev main_v383 : Ref sig .tc := ⟨.hbm, 520, rfl⟩
abbrev main_v384 : Ref sig .tc := ⟨.hbm, 521, rfl⟩
abbrev main_v385 : Ref sig .tc := ⟨.hbm, 522, rfl⟩
abbrev main_v386 : Ref sig .tc := ⟨.hbm, 523, rfl⟩
abbrev main_v387 : Ref sig .tc := ⟨.hbm, 524, rfl⟩
abbrev main_cst_99 : Ref sig .tc := ⟨.hbm, 525, rfl⟩
abbrev main_v388 : Ref sig .tc := ⟨.hbm, 526, rfl⟩
abbrev main_v389 : Ref sig .tc := ⟨.hbm, 527, rfl⟩
abbrev main_v390 : Ref sig .tc := ⟨.hbm, 528, rfl⟩
abbrev main_v391 : Ref sig .tc := ⟨.hbm, 529, rfl⟩
abbrev main_v392 : Ref sig .tc := ⟨.hbm, 530, rfl⟩
abbrev main_v393 : Ref sig .tc := ⟨.hbm, 531, rfl⟩
abbrev main_v394 : Ref sig .tc := ⟨.hbm, 532, rfl⟩
abbrev main_v395 : Ref sig .tc := ⟨.hbm, 533, rfl⟩
abbrev main_v396 : Ref sig .tc := ⟨.hbm, 534, rfl⟩
abbrev main_cst_100 : Ref sig .tc := ⟨.hbm, 535, rfl⟩
abbrev main_v397 : Ref sig .tc := ⟨.hbm, 536, rfl⟩
abbrev main_cst_101 : Ref sig .tc := ⟨.hbm, 537, rfl⟩
abbrev main_v398 : Ref sig .tc := ⟨.hbm, 538, rfl⟩
abbrev main_v399 : Ref sig .tc := ⟨.hbm, 539, rfl⟩
abbrev main_v400 : Ref sig .tc := ⟨.hbm, 540, rfl⟩
abbrev main_cst_102 : Ref sig .tc := ⟨.hbm, 541, rfl⟩
abbrev main_v401 : Ref sig .tc := ⟨.hbm, 542, rfl⟩
abbrev main_v402 : Ref sig .tc := ⟨.hbm, 543, rfl⟩
abbrev main_cst_103 : Ref sig .tc := ⟨.hbm, 544, rfl⟩
abbrev main_v403 : Ref sig .tc := ⟨.hbm, 545, rfl⟩
abbrev main_v404 : Ref sig .tc := ⟨.hbm, 546, rfl⟩
abbrev main_v405 : Ref sig .tc := ⟨.hbm, 547, rfl⟩
abbrev main_cst_104 : Ref sig .tc := ⟨.hbm, 548, rfl⟩
abbrev main_call13_v0 : Ref sig .tc := ⟨.hbm, 549, rfl⟩
abbrev main_call13_v1 : Ref sig .tc := ⟨.hbm, 550, rfl⟩
abbrev main_v406 : Ref sig .tc := ⟨.hbm, 551, rfl⟩
abbrev main_c_105 : Ref sig .tc := ⟨.hbm, 552, rfl⟩
abbrev main_v407 : Ref sig .tc := ⟨.hbm, 553, rfl⟩
abbrev main_v408 : Ref sig .tc := ⟨.hbm, 554, rfl⟩
abbrev main_c_106 : Ref sig .tc := ⟨.hbm, 555, rfl⟩
abbrev main_v409 : Ref sig .tc := ⟨.hbm, 556, rfl⟩
abbrev main_v410 : Ref sig .tc := ⟨.hbm, 557, rfl⟩
abbrev main_v411 : Ref sig .tc := ⟨.hbm, 558, rfl⟩
abbrev main_v412 : Ref sig .tc := ⟨.hbm, 559, rfl⟩
abbrev main_v413 : Ref sig .tc := ⟨.hbm, 560, rfl⟩
abbrev main_c_107 : Ref sig .tc := ⟨.hbm, 561, rfl⟩
abbrev main_v414 : Ref sig .tc := ⟨.hbm, 562, rfl⟩
abbrev main_v415 : Ref sig .tc := ⟨.hbm, 563, rfl⟩
abbrev main_c_108 : Ref sig .tc := ⟨.hbm, 564, rfl⟩
abbrev main_v416 : Ref sig .tc := ⟨.hbm, 565, rfl⟩
abbrev main_v417 : Ref sig .tc := ⟨.hbm, 566, rfl⟩
abbrev main_v418 : Ref sig .tc := ⟨.hbm, 567, rfl⟩
abbrev main_v419 : Ref sig .tc := ⟨.hbm, 568, rfl⟩
abbrev main_v420 : Ref sig .tc := ⟨.hbm, 569, rfl⟩
abbrev main_v421 : Ref sig .tc := ⟨.hbm, 570, rfl⟩
abbrev main_v422 : Ref sig .tc := ⟨.hbm, 571, rfl⟩
abbrev main_c_109 : Ref sig .tc := ⟨.hbm, 572, rfl⟩
abbrev main_v423 : Ref sig .tc := ⟨.hbm, 573, rfl⟩
abbrev main_v424 : Ref sig .tc := ⟨.hbm, 574, rfl⟩
abbrev main_c_110 : Ref sig .tc := ⟨.hbm, 575, rfl⟩
abbrev main_v425 : Ref sig .tc := ⟨.hbm, 576, rfl⟩
abbrev main_v426 : Ref sig .tc := ⟨.hbm, 577, rfl⟩
abbrev main_v427 : Ref sig .tc := ⟨.hbm, 578, rfl⟩
abbrev main_v428 : Ref sig .tc := ⟨.hbm, 579, rfl⟩
abbrev main_v429 : Ref sig .tc := ⟨.hbm, 580, rfl⟩
abbrev main_v430 : Ref sig .tc := ⟨.hbm, 581, rfl⟩
abbrev main_v431 : Ref sig .tc := ⟨.hbm, 582, rfl⟩
abbrev main_cst_111 : Ref sig .tc := ⟨.hbm, 583, rfl⟩
abbrev main_v432 : Ref sig .tc := ⟨.hbm, 584, rfl⟩
abbrev main_v433 : Ref sig .tc := ⟨.hbm, 585, rfl⟩
abbrev main_v434 : Ref sig .tc := ⟨.hbm, 586, rfl⟩
abbrev main_v435 : Ref sig .tc := ⟨.hbm, 587, rfl⟩
abbrev main_v436 : Ref sig .tc := ⟨.hbm, 588, rfl⟩
abbrev main_v437 : Ref sig .tc := ⟨.hbm, 589, rfl⟩
abbrev main_call14_cst : Ref sig .tc := ⟨.hbm, 590, rfl⟩
abbrev main_call14_v0 : Ref sig .tc := ⟨.hbm, 591, rfl⟩
abbrev main_v438 : Ref sig .tc := ⟨.hbm, 592, rfl⟩
abbrev main_v439 : Ref sig .tc := ⟨.hbm, 593, rfl⟩
abbrev main_v440 : Ref sig .tc := ⟨.hbm, 594, rfl⟩
abbrev main_v441 : Ref sig .tc := ⟨.hbm, 595, rfl⟩
abbrev main_v442 : Ref sig .tc := ⟨.hbm, 596, rfl⟩
abbrev main_cst_112 : Ref sig .tc := ⟨.hbm, 597, rfl⟩
abbrev main_v443 : Ref sig .tc := ⟨.hbm, 598, rfl⟩
abbrev main_cst_113 : Ref sig .tc := ⟨.hbm, 599, rfl⟩
abbrev main_v444 : Ref sig .tc := ⟨.hbm, 600, rfl⟩
abbrev main_v445 : Ref sig .tc := ⟨.hbm, 601, rfl⟩
abbrev main_v446 : Ref sig .tc := ⟨.hbm, 602, rfl⟩
abbrev main_cst_114 : Ref sig .tc := ⟨.hbm, 603, rfl⟩
abbrev main_v447 : Ref sig .tc := ⟨.hbm, 604, rfl⟩
abbrev main_v448 : Ref sig .tc := ⟨.hbm, 605, rfl⟩
abbrev main_cst_115 : Ref sig .tc := ⟨.hbm, 606, rfl⟩
abbrev main_v449 : Ref sig .tc := ⟨.hbm, 607, rfl⟩
abbrev main_v450 : Ref sig .tc := ⟨.hbm, 608, rfl⟩
abbrev main_v451 : Ref sig .tc := ⟨.hbm, 609, rfl⟩
abbrev main_cst_116 : Ref sig .tc := ⟨.hbm, 610, rfl⟩
abbrev main_call15_v0 : Ref sig .tc := ⟨.hbm, 611, rfl⟩
abbrev main_call15_v1 : Ref sig .tc := ⟨.hbm, 612, rfl⟩
abbrev main_v452 : Ref sig .tc := ⟨.hbm, 613, rfl⟩
abbrev main_c_117 : Ref sig .tc := ⟨.hbm, 614, rfl⟩
abbrev main_v453 : Ref sig .tc := ⟨.hbm, 615, rfl⟩
abbrev main_v454 : Ref sig .tc := ⟨.hbm, 616, rfl⟩
abbrev main_c_118 : Ref sig .tc := ⟨.hbm, 617, rfl⟩
abbrev main_v455 : Ref sig .tc := ⟨.hbm, 618, rfl⟩
abbrev main_v456 : Ref sig .tc := ⟨.hbm, 619, rfl⟩
abbrev main_v457 : Ref sig .tc := ⟨.hbm, 620, rfl⟩
abbrev main_v458 : Ref sig .tc := ⟨.hbm, 621, rfl⟩
abbrev main_v459 : Ref sig .tc := ⟨.hbm, 622, rfl⟩
abbrev main_c_119 : Ref sig .tc := ⟨.hbm, 623, rfl⟩
abbrev main_v460 : Ref sig .tc := ⟨.hbm, 624, rfl⟩
abbrev main_v461 : Ref sig .tc := ⟨.hbm, 625, rfl⟩
abbrev main_c_120 : Ref sig .tc := ⟨.hbm, 626, rfl⟩
abbrev main_v462 : Ref sig .tc := ⟨.hbm, 627, rfl⟩
abbrev main_v463 : Ref sig .tc := ⟨.hbm, 628, rfl⟩
abbrev main_v464 : Ref sig .tc := ⟨.hbm, 629, rfl⟩
abbrev main_v465 : Ref sig .tc := ⟨.hbm, 630, rfl⟩
abbrev main_v466 : Ref sig .tc := ⟨.hbm, 631, rfl⟩
abbrev main_v467 : Ref sig .tc := ⟨.hbm, 632, rfl⟩
abbrev main_v468 : Ref sig .tc := ⟨.hbm, 633, rfl⟩
abbrev main_c_121 : Ref sig .tc := ⟨.hbm, 634, rfl⟩
abbrev main_v469 : Ref sig .tc := ⟨.hbm, 635, rfl⟩
abbrev main_v470 : Ref sig .tc := ⟨.hbm, 636, rfl⟩
abbrev main_c_122 : Ref sig .tc := ⟨.hbm, 637, rfl⟩
abbrev main_v471 : Ref sig .tc := ⟨.hbm, 638, rfl⟩
abbrev main_v472 : Ref sig .tc := ⟨.hbm, 639, rfl⟩
abbrev main_v473 : Ref sig .tc := ⟨.hbm, 640, rfl⟩
abbrev main_v474 : Ref sig .tc := ⟨.hbm, 641, rfl⟩
abbrev main_v475 : Ref sig .tc := ⟨.hbm, 642, rfl⟩
abbrev main_v476 : Ref sig .tc := ⟨.hbm, 643, rfl⟩
abbrev main_v477 : Ref sig .tc := ⟨.hbm, 644, rfl⟩
abbrev main_cst_123 : Ref sig .tc := ⟨.hbm, 645, rfl⟩
abbrev main_v478 : Ref sig .tc := ⟨.hbm, 646, rfl⟩
abbrev main_v479 : Ref sig .tc := ⟨.hbm, 647, rfl⟩
abbrev main_v480 : Ref sig .tc := ⟨.hbm, 648, rfl⟩
abbrev main_v481 : Ref sig .tc := ⟨.hbm, 649, rfl⟩
abbrev main_v482 : Ref sig .tc := ⟨.hbm, 650, rfl⟩
abbrev main_v483 : Ref sig .tc := ⟨.hbm, 651, rfl⟩
abbrev main_call16_cst : Ref sig .tc := ⟨.hbm, 652, rfl⟩
abbrev main_call16_v0 : Ref sig .tc := ⟨.hbm, 653, rfl⟩
abbrev main_v484 : Ref sig .tc := ⟨.hbm, 654, rfl⟩
abbrev main_c_124 : Ref sig .tc := ⟨.hbm, 655, rfl⟩
abbrev main_v485 : Ref sig .tc := ⟨.hbm, 656, rfl⟩
abbrev main_v486 : Ref sig .tc := ⟨.hbm, 657, rfl⟩
abbrev main_c_125 : Ref sig .tc := ⟨.hbm, 658, rfl⟩
abbrev main_v487 : Ref sig .tc := ⟨.hbm, 659, rfl⟩
abbrev main_v488 : Ref sig .tc := ⟨.hbm, 660, rfl⟩
abbrev main_v489 : Ref sig .tc := ⟨.hbm, 661, rfl⟩
abbrev main_v490 : Ref sig .tc := ⟨.hbm, 662, rfl⟩
abbrev main_v491 : Ref sig .tc := ⟨.hbm, 663, rfl⟩
abbrev main_c_126 : Ref sig .tc := ⟨.hbm, 664, rfl⟩
abbrev main_v492 : Ref sig .tc := ⟨.hbm, 665, rfl⟩
abbrev main_v493 : Ref sig .tc := ⟨.hbm, 666, rfl⟩
abbrev main_c_127 : Ref sig .tc := ⟨.hbm, 667, rfl⟩
abbrev main_v494 : Ref sig .tc := ⟨.hbm, 668, rfl⟩
abbrev main_v495 : Ref sig .tc := ⟨.hbm, 669, rfl⟩
abbrev main_v496 : Ref sig .tc := ⟨.hbm, 670, rfl⟩
abbrev main_v497 : Ref sig .tc := ⟨.hbm, 671, rfl⟩
abbrev main_v498 : Ref sig .tc := ⟨.hbm, 672, rfl⟩
abbrev main_v499 : Ref sig .tc := ⟨.hbm, 673, rfl⟩
abbrev main_v500 : Ref sig .tc := ⟨.hbm, 674, rfl⟩
abbrev main_cst_128 : Ref sig .tc := ⟨.hbm, 675, rfl⟩
abbrev main_v501 : Ref sig .tc := ⟨.hbm, 676, rfl⟩
abbrev main_v502 : Ref sig .tc := ⟨.hbm, 677, rfl⟩
abbrev main_cst_129 : Ref sig .tc := ⟨.hbm, 678, rfl⟩
abbrev main_v503 : Ref sig .tc := ⟨.hbm, 679, rfl⟩
abbrev main_v504 : Ref sig .tc := ⟨.hbm, 680, rfl⟩
abbrev main_v505 : Ref sig .tc := ⟨.hbm, 681, rfl⟩
abbrev main_cst_130 : Ref sig .tc := ⟨.hbm, 682, rfl⟩
abbrev main_v506 : Ref sig .tc := ⟨.hbm, 683, rfl⟩
abbrev main_cst_131 : Ref sig .tc := ⟨.hbm, 684, rfl⟩
abbrev main_v507 : Ref sig .tc := ⟨.hbm, 685, rfl⟩
abbrev main_v508 : Ref sig .tc := ⟨.hbm, 686, rfl⟩
abbrev main_v509 : Ref sig .tc := ⟨.hbm, 687, rfl⟩
abbrev main_cst_132 : Ref sig .tc := ⟨.hbm, 688, rfl⟩
abbrev main_v510 : Ref sig .tc := ⟨.hbm, 689, rfl⟩
abbrev main_v511 : Ref sig .tc := ⟨.hbm, 690, rfl⟩
abbrev main_v512 : Ref sig .tc := ⟨.hbm, 691, rfl⟩
abbrev main_v513 : Ref sig .tc := ⟨.hbm, 692, rfl⟩
abbrev main_v514 : Ref sig .tc := ⟨.hbm, 693, rfl⟩
abbrev main_v515 : Ref sig .tc := ⟨.hbm, 694, rfl⟩
abbrev main_cst_133 : Ref sig .tc := ⟨.hbm, 695, rfl⟩
abbrev main_v516 : Ref sig .tc := ⟨.hbm, 696, rfl⟩
abbrev main_v517 : Ref sig .tc := ⟨.hbm, 697, rfl⟩
abbrev main_v518 : Ref sig .tc := ⟨.hbm, 698, rfl⟩
abbrev main_v519 : Ref sig .tc := ⟨.hbm, 699, rfl⟩
abbrev main_v520 : Ref sig .tc := ⟨.hbm, 700, rfl⟩
abbrev main_v521 : Ref sig .tc := ⟨.hbm, 701, rfl⟩
abbrev main_v522 : Ref sig .tc := ⟨.hbm, 702, rfl⟩
abbrev main_v523 : Ref sig .tc := ⟨.hbm, 703, rfl⟩
abbrev main_v524 : Ref sig .tc := ⟨.hbm, 704, rfl⟩
abbrev main_call17_cst : Ref sig .tc := ⟨.hbm, 705, rfl⟩
abbrev main_call17_v0 : Ref sig .tc := ⟨.hbm, 706, rfl⟩
abbrev main_v525 : Ref sig .tc := ⟨.hbm, 707, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x256_S256x64_S50000x64_1_0_0_1_n_n_wf : DotDims.WF S50000x256 S256x64 S50000x64 [1] [0] [0] [1] [] []
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (r c : Nat) : Type := FVec Ideal (⟨2, ![r, c]⟩ : Shape) .f32
abbrev Row (c : Nat) : Type := FVec Ideal (⟨1, ![c]⟩ : Shape) .f32

abbrev rowOf {r c : Nat} (i : (⟨2, ![r, c]⟩ : Shape).Idx) : Fin r := i 0
abbrev colOf {r c : Nat} (i : (⟨2, ![r, c]⟩ : Shape).Idx) : Fin c := i 1

abbrev zeroW : EReal := Ideal.ofBits .f32 0x00000000#32
abbrev oneW : EReal := Ideal.ofBits .f32 0x3F800000#32

/-- The matrix product: entry (n, f) sums X[n, k] · W[k, f] over the 64 features k. -/
def mm64 (x : Mat 50000 64) (w : Mat 64 64) : Mat 50000 64 := fun i =>
  ∑ k : Fin 64, x (ix2 (rowOf i) k) * w (ix2 k (colOf i))

/-- max (X W + b, 0) from 256 input features, the bias laid along every row. -/
def encode (x : Mat 50000 256) (w : Mat 256 64) (b : Row 64) : Mat 50000 64 := fun i =>
  max ((∑ k : Fin 256, x (ix2 (rowOf i) k) * w (ix2 k (colOf i))) + b (ix1 (colOf i))) zeroW

/-- max (X W + b, 0) from 64 input features. -/
def decode (x : Mat 50000 64) (w : Mat 64 64) (b : Row 64) : Mat 50000 64 := fun i =>
  max ((∑ k : Fin 64, x (ix2 (rowOf i) k) * w (ix2 k (colOf i))) + b (ix1 (colOf i))) zeroW

/-- max (A + b, 0), the bias laid along every row. -/
def biasRelu (a : Mat 50000 64) (b : Row 64) : Mat 50000 64 := fun i =>
  max (a i + b (ix1 (colOf i))) zeroW

/-- Row e of the gathered matrix times the weight of edge e. -/
def scale (g : Mat 850000 64) (w : Mat 850000 1) : Mat 850000 64 := fun i =>
  g i * w (ix2 (rowOf i) (0 : Fin 1))

/-- |p − q| · |p − q| entry by entry, with |x| = max (x, −x). -/
def diffSq (p q : Mat 800000 64) : Mat 800000 64 := fun i =>
  max (p i - q i) (-(p i - q i)) * max (p i - q i) (-(p i - q i))

/-- tanh (sums / max (count, 1)), the count of a node shared by its 64 features. -/
def tau (sums : Mat 50000 64) (cnt : Mat 50000 1) : Mat 50000 64 := fun i =>
  Ideal.tanh (Ideal.div (sums i) (max (cnt (ix2 (rowOf i) (0 : Fin 1))) oneW))

/-- The convex mix (1 − τ) · X + τ · X′. -/
def gate (sums : Mat 50000 64) (cnt : Mat 50000 1) (x xn : Mat 50000 64) : Mat 50000 64 := fun i =>
  (oneW - tau sums cnt i) * x i + tau sums cnt i * xn i

/-- The maps that depend on the edge list alone: three gathers, two segment sums, the edge weights, the out-degrees. -/
structure Graph where
  gatherE : Mat 50000 64 → Mat 850000 64
  scatterE : Mat 850000 64 → Mat 50000 64
  gatherS : Mat 50000 64 → Mat 800000 64
  gatherD : Mat 50000 64 → Mat 800000 64
  scatterS : Mat 800000 64 → Mat 50000 64
  wedge : Mat 850000 1
  cnt : Mat 50000 1

/-- max (Σ_{e into n} w_e · (X W)[source e] + b, 0): gather, scale, sum into the targets, bias, clamp. -/
def conv (g : Graph) (x : Mat 50000 64) (w : Mat 64 64) (b : Row 64) : Mat 50000 64 :=
  biasRelu (g.scatterE (scale (g.gatherE (mm64 x w)) g.wedge)) b

/-- One layer: X mixed with its convolution, gated by the summed squared differences of a second convolution along the edges. -/
def layer (g : Graph) (cw : Mat 64 64) (cb : Row 64) (gw : Mat 64 64) (gb : Row 64) (x : Mat 50000 64) : Mat 50000 64 :=
  gate (g.scatterS (diffSq (g.gatherS (conv g x gw gb)) (g.gatherD (conv g x gw gb)))) g.cnt x (conv g x cw cb)

/-- Encoder, four layers with shared weights, decoder. -/
def forward (g : Graph) (x : Mat 50000 256) (ew : Mat 256 64) (eb : Row 64) (cw : Mat 64 64) (cb : Row 64)
    (gw : Mat 64 64) (gb : Row 64) (dw : Mat 64 64) (db : Row 64) : Mat 50000 64 :=
  decode (layer g cw cb gw gb (layer g cw cb gw gb (layer g cw cb gw gb (layer g cw cb gw gb (encode x ew eb))))) dw db

end Cert.Spec

end
-- ==== Proof.KGraph.lean ====
import proofs.«402353_j91190745629151_3_alg».proof.Proof.Gen.KernelIdeal
import proofs.«402353_j91190745629151_3_alg».proof.Proof.Spec
import Idealize.ShloMosaic.PureOps.Ideal

noncomputable section

namespace Cert.KernelIdeal.Graph

open Cert.KernelIdeal Idealize.ShloMosaic
open Facts₀

def srcOf (e : IVec S2x800000 32) : IVec S800000 32 :=
  shapeCast S800000 (extractStridedSlice S1x800000 ![0, 0] e slices_S2x800000_S1x800000_0_0) shapeCasts_S1x800000_S800000

def dstOf (e : IVec S2x800000 32) : IVec S800000 32 :=
  shapeCast S800000 (extractStridedSlice S1x800000 ![1, 0] e slices_S2x800000_S1x800000_1_0) shapeCasts_S1x800000_S800000

def selfLoops (v : IVec S800000 32) : IVec S850000 32 :=
  concatenate S850000 0 [⟨S800000, v⟩, ⟨S50000, iotaInDim S50000 32 0⟩] concatenates_S800000_S50000_S850000_d0

def wrapE (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

def wrapS (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def gatherE (s : IVec S850000 32) (x : FVec Ideal S50000x64 .f32) : FVec Ideal S850000x64 .f32 :=
  Host.gather gather_S50000x64_S850000x1_S850000x64_1_0_n_n_0_1_164 x (wrapE s)

def scatterE (d : IVec S850000 32) (u : FVec Ideal S850000x64 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 d) u

def gatherS (s : IVec S800000 32) (x : FVec Ideal S50000x64 .f32) : FVec Ideal S800000x64 .f32 :=
  Host.gather gather_S50000x64_S800000x1_S800000x64_1_0_n_n_0_1_164 x (wrapS s)

def scatterS (s : IVec S800000 32) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 s) u

def degOf (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

def degPos (deg : FVec Ideal S50000 .f32) : IVec S50000 1 :=
  cmpf .ogt deg (broadcastInDim S50000 ![] bcast_S_S50000 (constant (F := Ideal) S_ .f32 0x00000000#32))

def degRsqrt (deg : FVec Ideal S50000 .f32) : FVec Ideal S50000 .f32 :=
  Host.rsqrt (maximumf deg (broadcastInDim S50000 ![] bcast_S_S50000 (constant (F := Ideal) S_ .f32 0x3F800000#32)))

def disOf (deg : FVec Ideal S50000 .f32) : FVec Ideal S50000 .f32 :=
  select (degPos deg) (degRsqrt deg) (broadcastInDim S50000 ![] bcast_S_S50000 (constant (F := Ideal) S_ .f32 0x00000000#32))

def wedgeFrom (dis : FVec Ideal S50000 .f32) (s d : IVec S850000 32) : FVec Ideal S850000x1 .f32 :=
  broadcastInDim S850000x1 ![0] bcast_S850000_S850000x1_0
    (mulf (Host.gather gather_S50000_S850000x1_S850000_n_0_n_n_0_1_1 dis (wrapE s))
      (Host.gather gather_S50000_S850000x1_S850000_n_0_n_n_0_1_1 dis (wrapE d)))

def cntOf (src : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 src)
    (broadcastInDim S800000 ![] bcast_S_S800000 (constant (F := Ideal) S_ .f32 0x3F800000#32))

def cntCol (src : IVec S800000 32) : FVec Ideal S50000x1 .f32 :=
  broadcastInDim S50000x1 ![0] bcast_S50000_S50000x1_0 (cntOf src)

def graphOf (src dst : IVec S800000 32) : Cert.Spec.Graph where
  gatherE := gatherE (selfLoops src)
  scatterE := scatterE (selfLoops dst)
  gatherS := gatherS src
  gatherD := gatherS dst
  scatterS := scatterS src
  wedge := wedgeFrom (disOf (degOf (selfLoops dst))) (selfLoops src) (selfLoops dst)
  cnt := cntCol src

def graph (e : IVec S2x800000 32) : Cert.Spec.Graph := graphOf (srcOf e) (dstOf e)

end Cert.KernelIdeal.Graph

end
-- ==== Proof.KVals.lean ====
import proofs.«402353_j91190745629151_3_alg».proof.Proof.Gen.KernelIdeal.Launch
import proofs.«402353_j91190745629151_3_alg».proof.Proof.KGraph
import Idealize.ShloMosaic.Lib.StableHlo.Run

set_option maxRecDepth 16384

noncomputable section

namespace Cert.KernelIdeal.Chain

open Cert.KernelIdeal Cert.KernelIdeal.Gen Cert.KernelIdeal.Graph Idealize.ShloMosaic Idealize.ShloMosaic.TcCoe Idealize.ShloMosaic.StableHlo
open Idealize.SL.Sem

theorem congr1 {α β : Sort _} {f : α → β} {a a' : α} (h : a = a') : f a = f a' := h ▸ rfl
theorem congr2 {α β γ : Sort _} {f : α → β → γ} {a a' : α} {b b' : β} (ha : a = a') (hb : b = b') : f a b = f a' b' := ha ▸ hb ▸ rfl
theorem congr3 {α β γ δ : Sort _} {f : α → β → γ → δ} {a a' : α} {b b' : β} {c c' : γ} (ha : a = a') (hb : b = b') (hc : c = c') :
    f a b c = f a' b' c' := ha ▸ hb ▸ hc ▸ rfl
theorem congr4 {α β γ δ ε : Sort _} {f : α → β → γ → δ → ε} {a a' : α} {b b' : β} {c c' : γ} {d d' : δ}
    (ha : a = a') (hb : b = b') (hc : c = c') (hd : d = d') : f a b c d = f a' b' c' d' := ha ▸ hb ▸ hc ▸ hd ▸ rfl

/-- The buffers nothing writes after the prologue: the layers' weights and what the edge list gives. -/
noncomputable def stable : List (Ref sig .tc) :=
  [main_arg4, main_arg5, main_arg6, main_arg7, main_arg8, main_arg9, main_v1, main_v3, main_v5, main_v6, main_v32, main_v37]

macro "keep_host " ops:ident : tactic =>
  `(tactic| (
    simp only [$ops:ident, stable, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

def disFrom (p : IVec S50000 1) (r : FVec Ideal S50000 .f32) (z : FVec Ideal S_ .f32) : FVec Ideal S50000 .f32 :=
  select p r (broadcastInDim S50000 ![] bcast_S_S50000 z)

variable (m : (ℓ : Loc nD τ sig) → Buf (Elt Ideal) ℓ) (c : Dev nD)

def A0 : FVec Ideal S50000x256 .f32 := m ((c : Thread nD τ).loc main_arg0)
def E : IVec S2x800000 32 := m ((c : Thread nD τ).loc main_arg1)
def A2 : FVec Ideal S256x64 .f32 := m ((c : Thread nD τ).loc main_arg2)
def A3 : FVec Ideal S64 .f32 := m ((c : Thread nD τ).loc main_arg3)
def A4 : FVec Ideal S64x64 .f32 := m ((c : Thread nD τ).loc main_arg4)
def A5 : FVec Ideal S64 .f32 := m ((c : Thread nD τ).loc main_arg5)
def A6 : FVec Ideal S64x64 .f32 := m ((c : Thread nD τ).loc main_arg6)
def A7 : FVec Ideal S64 .f32 := m ((c : Thread nD τ).loc main_arg7)
def A8 : FVec Ideal S64x64 .f32 := m ((c : Thread nD τ).loc main_arg8)
def A9 : FVec Ideal S64 .f32 := m ((c : Thread nD τ).loc main_arg9)

def SRC : IVec S800000 32 := srcOf (E m c)
def DST : IVec S800000 32 := dstOf (E m c)
def SL : IVec S850000 32 := (fun e => selfLoops (srcOf e)) (E m c)
def DL : IVec S850000 32 := (fun e => selfLoops (dstOf e)) (E m c)
def POS : IVec S50000 1 := (fun e => degPos (degOf (selfLoops (dstOf e)))) (E m c)
def RSQ : FVec Ideal S50000 .f32 := (fun e => degRsqrt (degOf (selfLoops (dstOf e)))) (E m c)
def ZERO : FVec Ideal S_ .f32 := constant (F := Ideal) S_ .f32 0x00000000#32
def DIS : FVec Ideal S50000 .f32 := disFrom (POS m c) (RSQ m c) ZERO
def WE : FVec Ideal S850000x1 .f32 := wedgeFrom (DIS m c) (SL m c) (DL m c)
def CN : FVec Ideal S50000x1 .f32 := cntCol (SRC m c)

theorem WE_eq : WE m c = (graph (E m c)).wedge := rfl
theorem CN_eq : CN m c = (graph (E m c)).cnt := rfl

def X0 : FVec Ideal S50000x64 .f32 := Cert.Spec.encode (A0 m c) (A2 m c) (A3 m c)

namespace L0
def xw1 : FVec Ideal S50000x64 .f32 := Cert.Spec.mm64 (X0 m c) (A4 m c)
def g1 : FVec Ideal S850000x64 .f32 := gatherE (SL m c) (xw1 m c)
def sc1 : FVec Ideal S850000x64 .f32 := Cert.Spec.scale (g1 m c) (WE m c)
def ag1 : FVec Ideal S50000x64 .f32 := scatterE (DL m c) (sc1 m c)
def c1 : FVec Ideal S50000x64 .f32 := Cert.Spec.biasRelu (ag1 m c) (A5 m c)
def xw2 : FVec Ideal S50000x64 .f32 := Cert.Spec.mm64 (X0 m c) (A6 m c)
def g2 : FVec Ideal S850000x64 .f32 := gatherE (SL m c) (xw2 m c)
def sc2 : FVec Ideal S850000x64 .f32 := Cert.Spec.scale (g2 m c) (WE m c)
def ag2 : FVec Ideal S50000x64 .f32 := scatterE (DL m c) (sc2 m c)
def c2 : FVec Ideal S50000x64 .f32 := Cert.Spec.biasRelu (ag2 m c) (A7 m c)
def ps : FVec Ideal S800000x64 .f32 := gatherS (SRC m c) (c2 m c)
def pd : FVec Ideal S800000x64 .f32 := gatherS (DST m c) (c2 m c)
def dq : FVec Ideal S800000x64 .f32 := Cert.Spec.diffSq (ps m c) (pd m c)
def sm : FVec Ideal S50000x64 .f32 := scatterS (SRC m c) (dq m c)
def Xout : FVec Ideal S50000x64 .f32 := Cert.Spec.gate (sm m c) (CN m c) (X0 m c) (c1 m c)
theorem Xout_eq : Xout m c = Cert.Spec.layer (graph (E m c)) (A4 m c) (A5 m c) (A6 m c) (A7 m c) (X0 m c) := rfl
end L0

namespace L1
def xw1 : FVec Ideal S50000x64 .f32 := Cert.Spec.mm64 (L0.Xout m c) (A4 m c)
def g1 : FVec Ideal S850000x64 .f32 := gatherE (SL m c) (xw1 m c)
def sc1 : FVec Ideal S850000x64 .f32 := Cert.Spec.scale (g1 m c) (WE m c)
def ag1 : FVec Ideal S50000x64 .f32 := scatterE (DL m c) (sc1 m c)
def c1 : FVec Ideal S50000x64 .f32 := Cert.Spec.biasRelu (ag1 m c) (A5 m c)
def xw2 : FVec Ideal S50000x64 .f32 := Cert.Spec.mm64 (L0.Xout m c) (A6 m c)
def g2 : FVec Ideal S850000x64 .f32 := gatherE (SL m c) (xw2 m c)
def sc2 : FVec Ideal S850000x64 .f32 := Cert.Spec.scale (g2 m c) (WE m c)
def ag2 : FVec Ideal S50000x64 .f32 := scatterE (DL m c) (sc2 m c)
def c2 : FVec Ideal S50000x64 .f32 := Cert.Spec.biasRelu (ag2 m c) (A7 m c)
def ps : FVec Ideal S800000x64 .f32 := gatherS (SRC m c) (c2 m c)
def pd : FVec Ideal S800000x64 .f32 := gatherS (DST m c) (c2 m c)
def dq : FVec Ideal S800000x64 .f32 := Cert.Spec.diffSq (ps m c) (pd m c)
def sm : FVec Ideal S50000x64 .f32 := scatterS (SRC m c) (dq m c)
def Xout : FVec Ideal S50000x64 .f32 := Cert.Spec.gate (sm m c) (CN m c) (L0.Xout m c) (c1 m c)
theorem Xout_eq : Xout m c = Cert.Spec.layer (graph (E m c)) (A4 m c) (A5 m c) (A6 m c) (A7 m c) (L0.Xout m c) := rfl
end L1

namespace L2
def xw1 : FVec Ideal S50000x64 .f32 := Cert.Spec.mm64 (L1.Xout m c) (A4 m c)
def g1 : FVec Ideal S850000x64 .f32 := gatherE (SL m c) (xw1 m c)
def sc1 : FVec Ideal S850000x64 .f32 := Cert.Spec.scale (g1 m c) (WE m c)
def ag1 : FVec Ideal S50000x64 .f32 := scatterE (DL m c) (sc1 m c)
def c1 : FVec Ideal S50000x64 .f32 := Cert.Spec.biasRelu (ag1 m c) (A5 m c)
def xw2 : FVec Ideal S50000x64 .f32 := Cert.Spec.mm64 (L1.Xout m c) (A6 m c)
def g2 : FVec Ideal S850000x64 .f32 := gatherE (SL m c) (xw2 m c)
def sc2 : FVec Ideal S850000x64 .f32 := Cert.Spec.scale (g2 m c) (WE m c)
def ag2 : FVec Ideal S50000x64 .f32 := scatterE (DL m c) (sc2 m c)
def c2 : FVec Ideal S50000x64 .f32 := Cert.Spec.biasRelu (ag2 m c) (A7 m c)
def ps : FVec Ideal S800000x64 .f32 := gatherS (SRC m c) (c2 m c)
def pd : FVec Ideal S800000x64 .f32 := gatherS (DST m c) (c2 m c)
def dq : FVec Ideal S800000x64 .f32 := Cert.Spec.diffSq (ps m c) (pd m c)
def sm : FVec Ideal S50000x64 .f32 := scatterS (SRC m c) (dq m c)
def Xout : FVec Ideal S50000x64 .f32 := Cert.Spec.gate (sm m c) (CN m c) (L1.Xout m c) (c1 m c)
theorem Xout_eq : Xout m c = Cert.Spec.layer (graph (E m c)) (A4 m c) (A5 m c) (A6 m c) (A7 m c) (L1.Xout m c) := rfl
end L2

namespace L3
def xw1 : FVec Ideal S50000x64 .f32 := Cert.Spec.mm64 (L2.Xout m c) (A4 m c)
def g1 : FVec Ideal S850000x64 .f32 := gatherE (SL m c) (xw1 m c)
def sc1 : FVec Ideal S850000x64 .f32 := Cert.Spec.scale (g1 m c) (WE m c)
def ag1 : FVec Ideal S50000x64 .f32 := scatterE (DL m c) (sc1 m c)
def c1 : FVec Ideal S50000x64 .f32 := Cert.Spec.biasRelu (ag1 m c) (A5 m c)
def xw2 : FVec Ideal S50000x64 .f32 := Cert.Spec.mm64 (L2.Xout m c) (A6 m c)
def g2 : FVec Ideal S850000x64 .f32 := gatherE (SL m c) (xw2 m c)
def sc2 : FVec Ideal S850000x64 .f32 := Cert.Spec.scale (g2 m c) (WE m c)
def ag2 : FVec Ideal S50000x64 .f32 := scatterE (DL m c) (sc2 m c)
def c2 : FVec Ideal S50000x64 .f32 := Cert.Spec.biasRelu (ag2 m c) (A7 m c)
def ps : FVec Ideal S800000x64 .f32 := gatherS (SRC m c) (c2 m c)
def pd : FVec Ideal S800000x64 .f32 := gatherS (DST m c) (c2 m c)
def dq : FVec Ideal S800000x64 .f32 := Cert.Spec.diffSq (ps m c) (pd m c)
def sm : FVec Ideal S50000x64 .f32 := scatterS (SRC m c) (dq m c)
def Xout : FVec Ideal S50000x64 .f32 := Cert.Spec.gate (sm m c) (CN m c) (L2.Xout m c) (c1 m c)
theorem Xout_eq : Xout m c = Cert.Spec.layer (graph (E m c)) (A4 m c) (A5 m c) (A6 m c) (A7 m c) (L2.Xout m c) := rfl
end L3

def OUT : FVec Ideal S50000x64 .f32 := Cert.Spec.decode (L3.Xout m c) (A8 m c) (A9 m c)

theorem OUT_eq : OUT m c = Cert.Spec.forward (graph (E m c)) (A0 m c) (A2 m c) (A3 m c) (A4 m c) (A5 m c) (A6 m c) (A7 m c) (A8 m c) (A9 m c) := by
  unfold OUT Cert.Spec.forward
  rw [L3.Xout_eq, L2.Xout_eq, L1.Xout_eq, L0.Xout_eq]
  rfl

end Cert.KernelIdeal.Chain

end
-- ==== Proof.PayMatmul.lean ====
import proofs.«402353_j91190745629151_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- Rows against columns: an R × K by K × C product onto zero is Σ_k a[p,k] · b[k,q] at (p, q). -/
theorem matmul_plain {R K C : ℕ} {φ₁ φ₂ : FTy} (a : FVec Ideal ⟨2, ![R, K]⟩ φ₁) (b : FVec Ideal ⟨2, ![K, C]⟩ φ₂) (p : Fin R) (q : Fin C) :
    matmul (DotDims.plain R K C) none a b (constant (F := Ideal) ⟨2, ![R, C]⟩ .f32 0x00000000#32) (ix2 p q)
      = ∑ k : Fin K, a (ix2 p k) * b (ix2 k q) := by
  refine (Ideal.matmul_constant_zero_apply (DotDims.plain R K C) none a b (ix2 p q)).trans ?_
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx (ix2 p q) ((contrEquiv1 (DotDims.plain R K C) K rfl rfl).symm k) = ix2 p k :=
    Shape.idx_ext₂ rfl hk
  have er : (DotDims.plain R K C).rhsIdx (ix2 p q) ((contrEquiv1 (DotDims.plain R K C) K rfl rfl).symm k) = ix2 k q :=
    Shape.idx_ext₂ hk rfl
  rw [el, er]

/-- X W at (p, q). -/
theorem mm (x0 : Vec Ideal S5000x64 .f32) (x1 : Vec Ideal S64x64 .f32) (p : Fin 5000) (q : Fin 64) :
    k1_pay1 x0 x1 (ix2 p q) = ∑ k : Fin 64, x0 (ix2 p k) * x1 (ix2 k q) := by
  unfold k1_pay1
  refine (matmul_plain (R := 5000) (K := 64) (C := 64) _ _ p q).trans ?_
  refine Finset.sum_congr rfl fun k _ => ?_
  rw [shapeCast_self]
  rfl

/-- A vector of length 64 laid along 5000 rows is read at (p, q) as its entry q. -/
theorem bias_apply {α : Type} (b : S64.Idx → α) (h₁ : S64.ShapeCasts S1x64) (h₂ : S1x64.Broadcasts S5000x64)
    (p : Fin 5000) (q : Fin 64) :
    broadcastTo S5000x64 (shapeCast S1x64 b h₁) h₂ (ix2 p q) = b (ix1 q) :=
  (broadcastTo_1b_ab_apply _ h₂ p q).trans (shapeCast_a_1a_apply b h₁ 0 q)

/-- The decoder's max (X W + b, 0) at (p, q). -/
theorem dec (x0 : Vec Ideal S5000x64 .f32) (x1 : Vec Ideal S64x64 .f32) (x2 : Vec Ideal S64 .f32) (p : Fin 5000) (q : Fin 64) :
    k33_pay1 x0 x1 x2 (ix2 p q) = max ((∑ k : Fin 64, x0 (ix2 p k) * x1 (ix2 k q)) + x2 (ix1 q)) (Ideal.ofBits .f32 0x00000000#32) := by
  unfold k33_pay1
  show max (matmul (DotDims.plain 5000 64 64) none _ _ (constant (F := Ideal) S5000x64 .f32 0x00000000#32) (ix2 p q)
      + broadcastTo S5000x64 (shapeCast S1x64 x2 shapeCasts_S64_S1x64) broadcasts_S1x64_S5000x64 (ix2 p q)) _ = _
  rw [matmul_plain, bias_apply, shapeCast_self]
  rfl

/-- The encoder's max (X W + b, 0) at (p, q). -/
theorem enc (x0 : Vec Ideal S5000x256 .f32) (x1 : Vec Ideal S256x64 .f32) (x2 : Vec Ideal S64 .f32) (p : Fin 5000) (q : Fin 64) :
    k0_pay1 x0 x1 x2 (ix2 p q) = max ((∑ k : Fin 256, x0 (ix2 p k) * x1 (ix2 k q)) + x2 (ix1 q)) (Ideal.ofBits .f32 0x00000000#32) := by
  unfold k0_pay1
  show max (matmul (DotDims.plain 5000 256 64) none _ _ (constant (F := Ideal) S5000x64 .f32 0x00000000#32) (ix2 p q)
      + broadcastTo S5000x64 (shapeCast S1x64 x2 shapeCasts_S64_S1x64) broadcasts_S1x64_S5000x64 (ix2 p q)) _ = _
  rw [matmul_plain, bias_apply]
  rfl

end Cert.KernelIdeal.Pay

end
-- ==== Proof.PayPointwise.lean ====
import proofs.«402353_j91190745629151_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- Laid along b lanes, a column is read at (i, j) as its entry (i, 0). -/
theorem column_lanes_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- |x0 − x1|² entry by entry, |d| being max d (−d). -/
theorem diffSq (x0 x1 : Vec Ideal S8000x64 .f32) (p : Fin 8000) (q : Fin 64) :
    k7_pay1 x0 x1 (ix2 p q)
      = max (x0 (ix2 p q) - x1 (ix2 p q)) (-(x0 (ix2 p q) - x1 (ix2 p q)))
        * max (x0 (ix2 p q) - x1 (ix2 p q)) (-(x0 (ix2 p q) - x1 (ix2 p q))) := by
  unfold k7_pay1
  show max (shapeCast S8000x64 x0 _ (ix2 p q) - shapeCast S8000x64 x1 _ (ix2 p q))
        (-(shapeCast S8000x64 x0 _ (ix2 p q) - shapeCast S8000x64 x1 _ (ix2 p q)))
      * max (shapeCast S8000x64 x0 _ (ix2 p q) - shapeCast S8000x64 x1 _ (ix2 p q))
        (-(shapeCast S8000x64 x0 _ (ix2 p q) - shapeCast S8000x64 x1 _ (ix2 p q))) = _
  rw [shapeCast_self, shapeCast_self]

/-- max (x0 + x1, 0) entry by entry, the vector x1 laid along every row. -/
theorem biasRelu (x0 : Vec Ideal S5000x64 .f32) (x1 : Vec Ideal S64 .f32) (p : Fin 5000) (q : Fin 64) :
    k3_pay1 x0 x1 (ix2 p q) = max (x0 (ix2 p q) + x1 (ix1 q)) (Ideal.ofBits .f32 0x00000000#32) := by
  unfold k3_pay1
  show max (shapeCast S5000x64 x0 _ (ix2 p q) + broadcastTo S5000x64 (shapeCast S1x64 x1 _) _ (ix2 p q))
      (Ideal.ofBits .f32 0x00000000#32) = _
  rw [shapeCast_self, broadcastTo_1b_ab_apply, shapeCast_a_1a_apply]

/-- (1 − t) · x + t · xn entry by entry, with t = tanh (s / max (c0, 1)) and the column c0 laid along the lanes. -/
theorem gate (c0 : Vec Ideal S5000x1 .f32) (s x xn : Vec Ideal S5000x64 .f32) (p : Fin 5000) (q : Fin 64) :
    k8_pay1 c0 s x xn (ix2 p q)
      = (Ideal.ofBits .f32 0x3F800000#32 - Ideal.tanh (Ideal.div (s (ix2 p q)) (max (c0 (ix2 p (0 : Fin 1))) (Ideal.ofBits .f32 0x3F800000#32)))) * x (ix2 p q)
        + Ideal.tanh (Ideal.div (s (ix2 p q)) (max (c0 (ix2 p (0 : Fin 1))) (Ideal.ofBits .f32 0x3F800000#32))) * xn (ix2 p q) := by
  unfold k8_pay1
  show (Ideal.ofBits .f32 0x3F800000#32 - Ideal.tanh (Ideal.div (shapeCast S5000x64 s _ (ix2 p q)) (broadcastTo S5000x64 (maximumf (shapeCast S5000x1 c0 _) (broadcast S5000x1 (Ideal.ofBits .f32 0x3F800000#32))) _ (ix2 p q)))) * shapeCast S5000x64 x _ (ix2 p q)
      + Ideal.tanh (Ideal.div (shapeCast S5000x64 s _ (ix2 p q)) (broadcastTo S5000x64 (maximumf (shapeCast S5000x1 c0 _) (broadcast S5000x1 (Ideal.ofBits .f32 0x3F800000#32))) _ (ix2 p q))) * shapeCast S5000x64 xn _ (ix2 p q) = _
  rw [shapeCast_self, shapeCast_self, shapeCast_self, column_lanes_apply]
  rw [shapeCast_self]
  rfl

/-- x0 · x1 entry by entry, the column x1 laid along the lanes. -/
theorem scale (x0 : Vec Ideal S5000x64 .f32) (x1 : Vec Ideal S5000x1 .f32) (p : Fin 5000) (q : Fin 64) :
    k2_pay1 x0 x1 (ix2 p q) = x0 (ix2 p q) * x1 (ix2 p (0 : Fin 1)) := by
  unfold k2_pay1
  show shapeCast S5000x64 x0 _ (ix2 p q) * broadcastTo S5000x64 (shapeCast S5000x1 x1 _) _ (ix2 p q) = _
  rw [shapeCast_self, column_lanes_apply, shapeCast_self]

end Cert.KernelIdeal.Pay

end
-- ==== Proof.LibBlocks.lean ====
import proofs.«402353_j91190745629151_3_alg».proof.Proof.Gen.KernelIdeal.Frame
import proofs.«402353_j91190745629151_3_alg».proof.Proof.Spec
import proofs.«402353_j91190745629151_3_alg».proof.Proof.PayMatmul
import proofs.«402353_j91190745629151_3_alg».proof.Proof.PayPointwise

noncomputable section

namespace Cert.KernelIdeal.Blocks

open Cert.KernelIdeal Cert.KernelIdeal.Gen Idealize.ShloMosaic Idealize.ShloMosaic.ValueIdx
open Idealize.ShloMosaic.Pipeline (Window Grid)

theorem zero2 : (![0, 0] : Fin 2 → Nat) = fun _ => 0 := funext fun a => by fin_cases a <;> rfl

theorem zero1 : (![0] : Fin 1 → Nat) = fun _ => 0 := funext fun a => by fin_cases a; rfl

/-- Functions of a matrix index agree if they agree at every (p, q). -/
theorem funext_ix2 {α : Type} {n0 n1 : ℕ} {f g : (⟨2, ![n0, n1]⟩ : Shape).Idx → α} (h : ∀ p q, f (ix2 p q) = g (ix2 p q)) : f = g :=
  funext fun j => by rw [eq_ix2 j]; exact h _ _

/-- A block index of the form (n, 0, …, 0). -/
abbrev AtRow {r : ℕ} (ix : Fin r → ℕ) (n : ℕ) : Prop := ∀ a, (a.val = 0 → ix a = n) ∧ (a.val ≠ 0 → ix a = 0)

theorem AtRow.unique {r n : ℕ} {i j : Fin r → ℕ} (hi : AtRow i n) (hj : AtRow j n) : i = j := funext fun a => by
  by_cases ha : a.val = 0
  · exact ((hi a).1 ha).trans ((hj a).1 ha).symm
  · exact ((hi a).2 ha).trans ((hj a).2 ha).symm

/-- Point t takes block (t, 0, …, 0): consecutive groups of rows. -/
abbrev ByRows {G : Grid} (w : Window sig G) : Prop := ∀ t : Fin G.N, AtRow (w.index t) t.val

/-- Every point takes block 0: the window is its whole array. -/
abbrev Whole {G : Grid} (w : Window sig G) : Prop := ∀ t : Fin G.N, AtRow (w.index t) 0

/-- Where index y of block `ix`, in blocks of sizes `size`, sits in the array. -/
abbrev place {s : Shape} (ix size : Fin s.rank → ℕ) (inb : ∀ a, ix a * size a + size a ≤ s.size a) :
    (⟨s.rank, size⟩ : Shape).Idx → s.Idx := (Rect.unit (s := s) (fun a => ix a * size a) size inb).emb

/-- Block `ix` of the array A. -/
abbrev blockOf {s : Shape} {α : Type} (A : s.Idx → α) (ix size : Fin s.rank → ℕ) (inb : ∀ a, ix a * size a + size a ≤ s.size a) :
    (⟨s.rank, size⟩ : Shape).Idx → α := fun y => A (place ix size inb y)

theorem place_row {n C R K m : ℕ} {ix : Fin 2 → ℕ} {inb} (h : AtRow ix m) (y : (⟨2, ![R, K]⟩ : Shape).Idx) :
    (place (s := ⟨2, ![n, C]⟩) ix ![R, K] inb y 0).val = m * R + (y 0).val := by
  show ix 0 * R + 1 * (y 0).val = _
  rw [(h 0).1 rfl, Nat.one_mul]

theorem place_col {n C R K m : ℕ} {ix : Fin 2 → ℕ} {inb} (h : AtRow ix m) (y : (⟨2, ![R, K]⟩ : Shape).Idx) :
    (place (s := ⟨2, ![n, C]⟩) ix ![R, K] inb y 1).val = (y 1).val := by
  show ix 1 * K + 1 * (y 1).val = _
  rw [(h 1).2 Nat.one_ne_zero, Nat.zero_mul, Nat.zero_add, Nat.one_mul]

/-- A window that is its whole array reads the array where the block is read. -/
theorem place_whole {s : Shape} {ix : Fin s.rank → ℕ} {inb} (h : AtRow ix 0) (y : s.Idx) : place (s := s) ix s.size inb y = y :=
  funext fun a => Fin.ext (by
    show ix a * s.size a + 1 * (y a).val = (y a).val
    have e : ix a = 0 := by
      by_cases ha : a.val = 0
      · exact (h a).1 ha
      · exact (h a).2 ha
    rw [e, Nat.zero_mul, Nat.zero_add, Nat.one_mul])

/-- Row r of an array cut into groups of R rows lies in group r / R. -/
theorem mem_rows {n C R : ℕ} {ix : Fin 2 → ℕ} {inb} (i : (⟨2, ![n, C]⟩ : Shape).Idx) (h : AtRow ix ((i 0).val / R)) (hR : 0 < R) :
    i ∈ (Rect.unit (s := ⟨2, ![n, C]⟩) (fun a => ix a * ![R, C] a) ![R, C] inb).set := by
  rw [Rect.mem_set_unit]
  intro a
  match a with
  | ⟨0, _⟩ =>
    show ix 0 * R ≤ (i 0).val ∧ (i 0).val < ix 0 * R + R
    rw [(h 0).1 rfl]
    exact ⟨Nat.div_mul_le_self _ _, Nat.lt_div_mul_add hR⟩
  | ⟨1, _⟩ =>
    show ix 1 * C ≤ (i 1).val ∧ (i 1).val < ix 1 * C + C
    rw [(h 1).2 Nat.one_ne_zero, Nat.zero_mul, Nat.zero_add]
    exact ⟨Nat.zero_le _, (i 1).isLt⟩

/-- M groups of R rows cover an array of R · M rows. -/
theorem exists_rows {M n C R : ℕ} (hn : n = R * M) (hR : 0 < R) {ix : Fin M → Fin 2 → ℕ}
    {inb : ∀ t a, ix t a * ![R, C] a + ![R, C] a ≤ (⟨2, ![n, C]⟩ : Shape).size a} (h : ∀ t : Fin M, AtRow (ix t) t.val)
    (i : (⟨2, ![n, C]⟩ : Shape).Idx) :
    ∃ t : Fin M, i ∈ (Rect.unit (s := ⟨2, ![n, C]⟩) (fun a => ix t a * ![R, C] a) ![R, C] (inb t)).set :=
  ⟨⟨(i 0).val / R, Nat.div_lt_of_lt_mul (hn ▸ (i 0).isLt)⟩, mem_rows i (h _) hR⟩

/-- The indices under a rectangle of a whole array are the rectangle's. -/
theorem mem_slice_whole {κ : Kind} (b : Ref sig κ) {r : Rect b.ty.shape} {i : b.ty.shape.Idx} (h : i ∈ r.set) :
    i ∈ ((View.whole b).slice r).set := (View.set_slice_whole b r).symm ▸ h

/-- The row of the entry of a column array that a block of it reads is the row the output block writes. -/
theorem column_row {n C m : ℕ} {i1 i2 : Fin 2 → ℕ} {inb1 inb2} (h1 : AtRow i1 m) (h2 : AtRow i2 m) (p : Fin 5000) (q : Fin 64) :
    place (s := ⟨2, ![n, 1]⟩) i1 S5000x1.size inb1 (ix2 p (0 : Fin 1))
      = ix2 (Spec.rowOf (place (s := ⟨2, ![n, C]⟩) i2 S5000x64.size inb2 (ix2 p q))) (0 : Fin 1) :=
  Shape.idx_ext₂ ((place_row h1 (ix2 p (0 : Fin 1))).trans (place_row (inb := inb2) h2 (ix2 p q)).symm) (place_col h1 (ix2 p (0 : Fin 1)))

/-- The bias entry read at lane q is the one at the output entry's column. -/
theorem bias_entry (b : Spec.Row 64) {i1 : Fin 1 → ℕ} {i2 : Fin 2 → ℕ} {n : ℕ} {inb1 inb2} (h1 : AtRow i1 0) (h2 : AtRow i2 n)
    (p : Fin 5000) (q : Fin 64) :
    blockOf b i1 S64.size inb1 (ix1 q) = b (ix1 (Spec.colOf (place (s := S50000x64) i2 S5000x64.size inb2 (ix2 p q)))) :=
  congrArg b ((place_whole h1 (ix1 q)).trans (congrArg ix1 (Fin.ext (place_col (inb := inb2) h2 (ix2 p q)).symm)))

/-- relu (A + b) block by block: input and output blocks are the same rows, the bias is read whole. -/
theorem biasRelu (A : Spec.Mat 50000 64) (b : Spec.Row 64) {i0 i2 : Fin 2 → ℕ} {i1 : Fin 1 → ℕ} {n : ℕ} {inb0 inb1 inb2}
    (h0 : AtRow i0 n) (h1 : AtRow i1 0) (h2 : AtRow i2 n) :
    out3_2 (F := Ideal) (blockOf A i0 S5000x64.size inb0) (blockOf b i1 S64.size inb1) = blockOf (Spec.biasRelu A b) i2 S5000x64.size inb2 := by
  obtain rfl := h0.unique h2
  unfold out3_2
  rw [View.canon_unit_zero zero2]
  simp only [View.ld_unit_zero (S := S5000x64) zero2, View.ld_unit_zero (S := S64) zero1]
  refine funext_ix2 fun p q => ?_
  refine (Pay.biasRelu _ _ p q).trans ?_
  rw [bias_entry b h1 h0 p q]
  rfl

/-- The rowwise product block by block: all three blocks are the same rows. -/
theorem scale (A : Spec.Mat 850000 64) (w : Spec.Mat 850000 1) {i0 i1 i2 : Fin 2 → ℕ} {n : ℕ} {inb0 inb1 inb2}
    (h0 : AtRow i0 n) (h1 : AtRow i1 n) (h2 : AtRow i2 n) :
    out2_2 (F := Ideal) (blockOf A i0 S5000x64.size inb0) (blockOf w i1 S5000x1.size inb1) = blockOf (Spec.scale A w) i2 S5000x64.size inb2 := by
  obtain rfl := h0.unique h2
  unfold out2_2
  rw [View.canon_unit_zero zero2]
  simp only [View.ld_unit_zero (S := S5000x64) zero2, View.ld_unit_zero (S := S5000x1) zero2]
  refine funext_ix2 fun p q => ?_
  refine (Pay.scale _ _ p q).trans ?_
  have e1 : blockOf w i1 S5000x1.size inb1 (ix2 p (0 : Fin 1)) = w _ := congrArg w (column_row (C := 64) (inb2 := inb0) h1 h0 p q)
  rw [e1]
  rfl

/-- |P − Q|² block by block: all three blocks are the same rows. -/
theorem diffSq (P Q : Spec.Mat 800000 64) {i0 i1 i2 : Fin 2 → ℕ} {n : ℕ} {inb0 inb1 inb2}
    (h0 : AtRow i0 n) (h1 : AtRow i1 n) (h2 : AtRow i2 n) :
    out7_2 (F := Ideal) (blockOf P i0 S8000x64.size inb0) (blockOf Q i1 S8000x64.size inb1) = blockOf (Spec.diffSq P Q) i2 S8000x64.size inb2 := by
  obtain rfl := h0.unique h2
  obtain rfl := h1.unique h0
  unfold out7_2
  rw [View.canon_unit_zero zero2]
  simp only [View.ld_unit_zero (S := S8000x64) zero2]
  refine funext_ix2 fun p q => ?_
  exact Pay.diffSq _ _ p q

/-- The gated mixture block by block: all five blocks are the same rows. -/
theorem gate (S : Spec.Mat 50000 64) (cnt : Spec.Mat 50000 1) (X Xn : Spec.Mat 50000 64) {i0 i1 i2 i3 i4 : Fin 2 → ℕ} {n : ℕ}
    {inb0 inb1 inb2 inb3 inb4} (h0 : AtRow i0 n) (h1 : AtRow i1 n) (h2 : AtRow i2 n) (h3 : AtRow i3 n) (h4 : AtRow i4 n) :
    out8_4 (F := Ideal) (blockOf S i0 S5000x64.size inb0) (blockOf cnt i1 S5000x1.size inb1) (blockOf X i2 S5000x64.size inb2)
        (blockOf Xn i3 S5000x64.size inb3)
      = blockOf (Spec.gate S cnt X Xn) i4 S5000x64.size inb4 := by
  obtain rfl := h0.unique h4
  obtain rfl := h2.unique h0
  obtain rfl := h3.unique h0
  unfold out8_4
  rw [View.canon_unit_zero zero2]
  simp only [View.ld_unit_zero (S := S5000x64) zero2, View.ld_unit_zero (S := S5000x1) zero2]
  refine funext_ix2 fun p q => ?_
  refine (Pay.gate _ _ _ _ p q).trans ?_
  have e1 : blockOf cnt i1 S5000x1.size inb1 (ix2 p (0 : Fin 1)) = cnt _ := congrArg cnt (column_row (C := 64) (inb2 := inb0) h1 h0 p q)
  rw [e1]
  rfl

/-- Entry (p, q) of a product of row block n of X with the whole of W is entry (n-th block's row p, q) of X W. -/
theorem product_entry {K : ℕ} (X : Spec.Mat 50000 K) (W : Spec.Mat K 64) {i0 i2 i1 : Fin 2 → ℕ} {n : ℕ} {inb0 inb1 inb2}
    (h0 : AtRow i0 n) (h1 : AtRow i1 0) (h2 : AtRow i2 n) (p : Fin 5000) (q : Fin 64) :
    ∑ k : Fin K, blockOf X i0 ![5000, K] inb0 (ix2 p k) * blockOf W i1 ![K, 64] inb1 (ix2 k q)
      = ∑ k : Fin K, X (ix2 (Spec.rowOf (place (s := S50000x64) i2 S5000x64.size inb2 (ix2 p q))) k)
          * W (ix2 k (Spec.colOf (place (s := S50000x64) i2 S5000x64.size inb2 (ix2 p q)))) :=
  Finset.sum_congr rfl fun k _ => congrArg₂ (fun a b => X a * W b)
    (Shape.idx_ext₂ ((place_row h0 (ix2 p k)).trans (place_row (inb := inb2) h2 (ix2 p q)).symm) (place_col h0 (ix2 p k)))
    ((place_whole h1 (ix2 k q)).trans (Shape.idx_ext₂ rfl (place_col (inb := inb2) h2 (ix2 p q)).symm))

/-- X W block by block: row block n of X times the whole of W is row block n of the product. -/
theorem mm (X : Spec.Mat 50000 64) (W : Spec.Mat 64 64) {i0 i1 i2 : Fin 2 → ℕ} {n : ℕ} {inb0 inb1 inb2}
    (h0 : AtRow i0 n) (h1 : AtRow i1 0) (h2 : AtRow i2 n) :
    out1_2 (F := Ideal) (blockOf X i0 S5000x64.size inb0) (blockOf W i1 S64x64.size inb1) = blockOf (Spec.mm64 X W) i2 S5000x64.size inb2 := by
  unfold out1_2
  rw [View.canon_unit_zero zero2]
  simp only [View.ld_unit_zero (S := S5000x64) zero2, View.ld_unit_zero (S := S64x64) zero2]
  refine funext_ix2 fun p q => ?_
  exact (Pay.mm _ _ p q).trans (product_entry X W h0 h1 h2 p q)

/-- The encoder block by block. -/
theorem encode (X : Spec.Mat 50000 256) (W : Spec.Mat 256 64) (b : Spec.Row 64) {i0 i1 i3 : Fin 2 → ℕ} {i2 : Fin 1 → ℕ} {n : ℕ}
    {inb0 inb1 inb2 inb3} (h0 : AtRow i0 n) (h1 : AtRow i1 0) (h2 : AtRow i2 0) (h3 : AtRow i3 n) :
    out0_3 (F := Ideal) (blockOf X i0 S5000x256.size inb0) (blockOf W i1 S256x64.size inb1) (blockOf b i2 S64.size inb2)
      = blockOf (Spec.encode X W b) i3 S5000x64.size inb3 := by
  unfold out0_3
  rw [View.canon_unit_zero zero2]
  simp only [View.ld_unit_zero (S := S5000x256) zero2, View.ld_unit_zero (S := S256x64) zero2, View.ld_unit_zero (S := S64) zero1]
  refine funext_ix2 fun p q => ?_
  exact (Pay.enc _ _ _ p q).trans (congrArg₂ (fun s t => max (s + t) Spec.zeroW) (product_entry X W h0 h1 h3 p q) (bias_entry b h2 h3 p q))

/-- The decoder block by block. -/
theorem decode (X : Spec.Mat 50000 64) (W : Spec.Mat 64 64) (b : Spec.Row 64) {i0 i1 i3 : Fin 2 → ℕ} {i2 : Fin 1 → ℕ} {n : ℕ}
    {inb0 inb1 inb2 inb3} (h0 : AtRow i0 n) (h1 : AtRow i1 0) (h2 : AtRow i2 0) (h3 : AtRow i3 n) :
    out33_3 (F := Ideal) (blockOf X i0 S5000x64.size inb0) (blockOf W i1 S64x64.size inb1) (blockOf b i2 S64.size inb2)
      = blockOf (Spec.decode X W b) i3 S5000x64.size inb3 := by
  unfold out33_3
  rw [View.canon_unit_zero zero2]
  simp only [View.ld_unit_zero (S := S5000x64) zero2, View.ld_unit_zero (S := S64x64) zero2, View.ld_unit_zero (S := S64) zero1]
  refine funext_ix2 fun p q => ?_
  exact (Pay.dec _ _ _ p q).trans (congrArg₂ (fun s t => max (s + t) Spec.zeroW) (product_entry X W h0 h1 h3 p q) (bias_entry b h2 h3 p q))

end Cert.KernelIdeal.Blocks

end
-- ==== Proof.Region33.lean ====
import proofs.«402353_j91190745629151_3_alg».proof.Proof.LibBlocks

noncomputable section

namespace Cert.KernelIdeal.Region33

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat33 V c).arrAt 3 cfg33.N = Spec.decode (V c main_v218) (V c main_arg8) (V c main_arg9) :=
  have r : Blocks.ByRows win33_3 := by decide +kernel
  (dat33 V c).arrAt_eq_of_cover 3 _
    (fun t _ => (after33_3 V c t).trans (Blocks.decode _ _ _ ((by decide +kernel : Blocks.ByRows win33_0) t) ((by decide +kernel : Blocks.Whole win33_1) t) ((by decide +kernel : Blocks.Whole win33_2) t) (r t)))
    fun i => (Blocks.exists_rows (R := 5000) (by rw [N_33]) (by decide) r i).imp fun t ht =>
      ⟨flush33_3 t, Blocks.mem_slice_whole main_v219 ht⟩

end Cert.KernelIdeal.Region33

end
-- ==== Proof.KHostL3.lean ====
import proofs.«402353_j91190745629151_3_alg».proof.Proof.Gen.KernelIdeal.Launch
import proofs.«402353_j91190745629151_3_alg».proof.Proof.KGraph
import Idealize.ShloMosaic.Lib.StableHlo.Run
import Idealize.ShloMosaic.PureOps.Ideal

set_option maxRecDepth 16384

noncomputable section

namespace Cert.KernelIdeal.HostL3

open Cert.KernelIdeal Cert.KernelIdeal.Gen Idealize.ShloMosaic Idealize.ShloMosaic.TcCoe Idealize.ShloMosaic.StableHlo
open Idealize.SL.Sem
open Cert.KernelIdeal.Graph

theorem gatherConv (W : Valuation τ sig (Elt Ideal)) :
    after hostOps26 W (Proc.devRef .tc main_v181)
      = gatherE (W (Proc.devRef .tc main_v5)) (W (Proc.devRef .tc main_v174)) := by
  after_results
  rfl

theorem scatterConv (W : Valuation τ sig (Elt Ideal)) :
    after hostOps27 W (Proc.devRef .tc main_v185)
      = scatterE (W (Proc.devRef .tc main_v6)) (W (Proc.devRef .tc main_v182)) := by
  after_results
  rfl

theorem gatherGate (W : Valuation τ sig (Elt Ideal)) :
    after hostOps29 W (Proc.devRef .tc main_v194)
      = gatherE (W (Proc.devRef .tc main_v5)) (W (Proc.devRef .tc main_v187)) := by
  after_results
  rfl

theorem scatterGate (W : Valuation τ sig (Elt Ideal)) :
    after hostOps30 W (Proc.devRef .tc main_v198)
      = scatterE (W (Proc.devRef .tc main_v6)) (W (Proc.devRef .tc main_v195)) := by
  after_results
  rfl

theorem gatherSrc (W : Valuation τ sig (Elt Ideal)) :
    after hostOps31 W (Proc.devRef .tc main_v206)
      = gatherS (W (Proc.devRef .tc main_v1)) (W (Proc.devRef .tc main_v199)) := by
  after_results_simp
  rfl

theorem gatherDst (W : Valuation τ sig (Elt Ideal)) :
    after hostOps31 W (Proc.devRef .tc main_v213)
      = gatherS (W (Proc.devRef .tc main_v3)) (W (Proc.devRef .tc main_v199)) := by
  after_results_simp
  rfl

theorem scatterSrc (W : Valuation τ sig (Elt Ideal)) :
    after hostOps32 W (Proc.devRef .tc main_v217)
      = scatterS (W (Proc.devRef .tc main_v1)) (W (Proc.devRef .tc main_v214)) := by
  after_results
  rfl

end Cert.KernelIdeal.HostL3

end
-- ==== Proof.Region25.lean ====
import proofs.«402353_j91190745629151_3_alg».proof.Proof.LibBlocks

noncomputable section

namespace Cert.KernelIdeal.Region25

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat25 V c).arrAt 2 cfg25.N = Spec.mm64 (V c main_v173) (V c main_arg4) :=
  have r : Blocks.ByRows win25_2 := by decide +kernel
  (dat25 V c).arrAt_eq_of_cover 2 _
    (fun t _ => (after25_2 V c t).trans (Blocks.mm _ _ ((by decide +kernel : Blocks.ByRows win25_0) t) ((by decide +kernel : Blocks.Whole win25_1) t) (r t)))
    fun i => (Blocks.exists_rows (R := 5000) (by rw [N_25]) (by decide) r i).imp fun t ht =>
      ⟨flush25_2 t, Blocks.mem_slice_whole main_v174 ht⟩

end Cert.KernelIdeal.Region25

end
-- ==== Proof.Region26.lean ====
import proofs.«402353_j91190745629151_3_alg».proof.Proof.LibBlocks

noncomputable section

namespace Cert.KernelIdeal.Region26

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat26 V c).arrAt 2 cfg26.N = Spec.scale (V c main_v181) (V c main_v32) :=
  have r : Blocks.ByRows win26_2 := by decide +kernel
  (dat26 V c).arrAt_eq_of_cover 2 _
    (fun t _ => (after26_2 V c t).trans (Blocks.scale _ _ ((by decide +kernel : Blocks.ByRows win26_0) t) ((by decide +kernel : Blocks.ByRows win26_1) t) (r t)))
    fun i => (Blocks.exists_rows (R := 5000) (by rw [N_26]) (by decide) r i).imp fun t ht =>
      ⟨flush26_2 t, Blocks.mem_slice_whole main_v182 ht⟩

end Cert.KernelIdeal.Region26

end
-- ==== Proof.Region27.lean ====
import proofs.«402353_j91190745629151_3_alg».proof.Proof.LibBlocks

noncomputable section

namespace Cert.KernelIdeal.Region27

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat27 V c).arrAt 2 cfg27.N = Spec.biasRelu (V c main_v185) (V c main_arg5) :=
  have r : Blocks.ByRows win27_2 := by decide +kernel
  (dat27 V c).arrAt_eq_of_cover 2 _
    (fun t _ => (after27_2 V c t).trans (Blocks.biasRelu _ _ ((by decide +kernel : Blocks.ByRows win27_0) t) ((by decide +kernel : Blocks.Whole win27_1) t) (r t)))
    fun i => (Blocks.exists_rows (R := 5000) (by rw [N_27]) (by decide) r i).imp fun t ht =>
      ⟨flush27_2 t, Blocks.mem_slice_whole main_v186 ht⟩

end Cert.KernelIdeal.Region27

end
-- ==== Proof.Region28.lean ====
import proofs.«402353_j91190745629151_3_alg».proof.Proof.LibBlocks

noncomputable section

namespace Cert.KernelIdeal.Region28

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat28 V c).arrAt 2 cfg28.N = Spec.mm64 (V c main_v173) (V c main_arg6) :=
  have r : Blocks.ByRows win28_2 := by decide +kernel
  (dat28 V c).arrAt_eq_of_cover 2 _
    (fun t _ => (after28_2 V c t).trans (Blocks.mm _ _ ((by decide +kernel : Blocks.ByRows win28_0) t) ((by decide +kernel : Blocks.Whole win28_1) t) (r t)))
    fun i => (Blocks.exists_rows (R := 5000) (by rw [N_28]) (by decide) r i).imp fun t ht =>
      ⟨flush28_2 t, Blocks.mem_slice_whole main_v187 ht⟩

end Cert.KernelIdeal.Region28

end
-- ==== Proof.Region29.lean ====
import proofs.«402353_j91190745629151_3_alg».proof.Proof.LibBlocks

noncomputable section

namespace Cert.KernelIdeal.Region29

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat29 V c).arrAt 2 cfg29.N = Spec.scale (V c main_v194) (V c main_v32) :=
  have r : Blocks.ByRows win29_2 := by decide +kernel
  (dat29 V c).arrAt_eq_of_cover 2 _
    (fun t _ => (after29_2 V c t).trans (Blocks.scale _ _ ((by decide +kernel : Blocks.ByRows win29_0) t) ((by decide +kernel : Blocks.ByRows win29_1) t) (r t)))
    fun i => (Blocks.exists_rows (R := 5000) (by rw [N_29]) (by decide) r i).imp fun t ht =>
      ⟨flush29_2 t, Blocks.mem_slice_whole main_v195 ht⟩

end Cert.KernelIdeal.Region29

end
-- ==== Proof.Region30.lean ====
import proofs.«402353_j91190745629151_3_alg».proof.Proof.LibBlocks

noncomputable section

namespace Cert.KernelIdeal.Region30

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat30 V c).arrAt 2 cfg30.N = Spec.biasRelu (V c main_v198) (V c main_arg7) :=
  have r : Blocks.ByRows win30_2 := by decide +kernel
  (dat30 V c).arrAt_eq_of_cover 2 _
    (fun t _ => (after30_2 V c t).trans (Blocks.biasRelu _ _ ((by decide +kernel : Blocks.ByRows win30_0) t) ((by decide +kernel : Blocks.Whole win30_1) t) (r t)))
    fun i => (Blocks.exists_rows (R := 5000) (by rw [N_30]) (by decide) r i).imp fun t ht =>
      ⟨flush30_2 t, Blocks.mem_slice_whole main_v199 ht⟩

end Cert.KernelIdeal.Region30

end
-- ==== Proof.Region31.lean ====
import proofs.«402353_j91190745629151_3_alg».proof.Proof.LibBlocks

noncomputable section

namespace Cert.KernelIdeal.Region31

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat31 V c).arrAt 2 cfg31.N = Spec.diffSq (V c main_v206) (V c main_v213) :=
  have r : Blocks.ByRows win31_2 := by decide +kernel
  (dat31 V c).arrAt_eq_of_cover 2 _
    (fun t _ => (after31_2 V c t).trans (Blocks.diffSq _ _ ((by decide +kernel : Blocks.ByRows win31_0) t) ((by decide +kernel : Blocks.ByRows win31_1) t) (r t)))
    fun i => (Blocks.exists_rows (R := 8000) (by rw [N_31]) (by decide) r i).imp fun t ht =>
      ⟨flush31_2 t, Blocks.mem_slice_whole main_v214 ht⟩

end Cert.KernelIdeal.Region31

end
-- ==== Proof.Region32.lean ====
import proofs.«402353_j91190745629151_3_alg».proof.Proof.LibBlocks

noncomputable section

namespace Cert.KernelIdeal.Region32

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat32 V c).arrAt 4 cfg32.N = Spec.gate (V c main_v217) (V c main_v37) (V c main_v173) (V c main_v186) :=
  have r : Blocks.ByRows win32_4 := by decide +kernel
  (dat32 V c).arrAt_eq_of_cover 4 _
    (fun t _ => (after32_4 V c t).trans (Blocks.gate _ _ _ _ ((by decide +kernel : Blocks.ByRows win32_0) t) ((by decide +kernel : Blocks.ByRows win32_1) t) ((by decide +kernel : Blocks.ByRows win32_2) t) ((by decide +kernel : Blocks.ByRows win32_3) t) (r t)))
    fun i => (Blocks.exists_rows (R := 5000) (by rw [N_32]) (by decide) r i).imp fun t ht =>
      ⟨flush32_4 t, Blocks.mem_slice_whole main_v218 ht⟩

end Cert.KernelIdeal.Region32

end
-- ==== Proof.KHostL2.lean ====
import proofs.«402353_j91190745629151_3_alg».proof.Proof.Gen.KernelIdeal.Launch
import proofs.«402353_j91190745629151_3_alg».proof.Proof.KGraph
import Idealize.ShloMosaic.Lib.StableHlo.Run
import Idealize.ShloMosaic.PureOps.Ideal

set_option maxRecDepth 16384

noncomputable section

namespace Cert.KernelIdeal.HostL2

open Cert.KernelIdeal Cert.KernelIdeal.Gen Idealize.ShloMosaic Idealize.ShloMosaic.TcCoe Idealize.ShloMosaic.StableHlo
open Idealize.SL.Sem
open Cert.KernelIdeal.Graph

theorem gatherConv (W : Valuation τ sig (Elt Ideal)) :
    after hostOps18 W (Proc.devRef .tc main_v136)
      = gatherE (W (Proc.devRef .tc main_v5)) (W (Proc.devRef .tc main_v129)) := by
  after_results
  rfl

theorem scatterConv (W : Valuation τ sig (Elt Ideal)) :
    after hostOps19 W (Proc.devRef .tc main_v140)
      = scatterE (W (Proc.devRef .tc main_v6)) (W (Proc.devRef .tc main_v137)) := by
  after_results
  rfl

theorem gatherGate (W : Valuation τ sig (Elt Ideal)) :
    after hostOps21 W (Proc.devRef .tc main_v149)
      = gatherE (W (Proc.devRef .tc main_v5)) (W (Proc.devRef .tc main_v142)) := by
  after_results
  rfl

theorem scatterGate (W : Valuation τ sig (Elt Ideal)) :
    after hostOps22 W (Proc.devRef .tc main_v153)
      = scatterE (W (Proc.devRef .tc main_v6)) (W (Proc.devRef .tc main_v150)) := by
  after_results
  rfl

theorem gatherSrc (W : Valuation τ sig (Elt Ideal)) :
    after hostOps23 W (Proc.devRef .tc main_v161)
      = gatherS (W (Proc.devRef .tc main_v1)) (W (Proc.devRef .tc main_v154)) := by
  after_results_simp
  rfl

theorem gatherDst (W : Valuation τ sig (Elt Ideal)) :
    after hostOps23 W (Proc.devRef .tc main_v168)
      = gatherS (W (Proc.devRef .tc main_v3)) (W (Proc.devRef .tc main_v154)) := by
  after_results_simp
  rfl

theorem scatterSrc (W : Valuation τ sig (Elt Ideal)) :
    after hostOps24 W (Proc.devRef .tc main_v172)
      = scatterS (W (Proc.devRef .tc main_v1)) (W (Proc.devRef .tc main_v169)) := by
  after_results
  rfl

end Cert.KernelIdeal.HostL2

end
-- ==== Proof.Region17.lean ====
import proofs.«402353_j91190745629151_3_alg».proof.Proof.LibBlocks

noncomputable section

namespace Cert.KernelIdeal.Region17

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat17 V c).arrAt 2 cfg17.N = Spec.mm64 (V c main_v128) (V c main_arg4) :=
  have r : Blocks.ByRows win17_2 := by decide +kernel
  (dat17 V c).arrAt_eq_of_cover 2 _
    (fun t _ => (after17_2 V c t).trans (Blocks.mm _ _ ((by decide +kernel : Blocks.ByRows win17_0) t) ((by decide +kernel : Blocks.Whole win17_1) t) (r t)))
    fun i => (Blocks.exists_rows (R := 5000) (by rw [N_17]) (by decide) r i).imp fun t ht =>
      ⟨flush17_2 t, Blocks.mem_slice_whole main_v129 ht⟩

end Cert.KernelIdeal.Region17

end
-- ==== Proof.Region18.lean ====
import proofs.«402353_j91190745629151_3_alg».proof.Proof.LibBlocks

noncomputable section

namespace Cert.KernelIdeal.Region18

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat18 V c).arrAt 2 cfg18.N = Spec.scale (V c main_v136) (V c main_v32) :=
  have r : Blocks.ByRows win18_2 := by decide +kernel
  (dat18 V c).arrAt_eq_of_cover 2 _
    (fun t _ => (after18_2 V c t).trans (Blocks.scale _ _ ((by decide +kernel : Blocks.ByRows win18_0) t) ((by decide +kernel : Blocks.ByRows win18_1) t) (r t)))
    fun i => (Blocks.exists_rows (R := 5000) (by rw [N_18]) (by decide) r i).imp fun t ht =>
      ⟨flush18_2 t, Blocks.mem_slice_whole main_v137 ht⟩

end Cert.KernelIdeal.Region18

end
-- ==== Proof.Region19.lean ====
import proofs.«402353_j91190745629151_3_alg».proof.Proof.LibBlocks

noncomputable section

namespace Cert.KernelIdeal.Region19

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat19 V c).arrAt 2 cfg19.N = Spec.biasRelu (V c main_v140) (V c main_arg5) :=
  have r : Blocks.ByRows win19_2 := by decide +kernel
  (dat19 V c).arrAt_eq_of_cover 2 _
    (fun t _ => (after19_2 V c t).trans (Blocks.biasRelu _ _ ((by decide +kernel : Blocks.ByRows win19_0) t) ((by decide +kernel : Blocks.Whole win19_1) t) (r t)))
    fun i => (Blocks.exists_rows (R := 5000) (by rw [N_19]) (by decide) r i).imp fun t ht =>
      ⟨flush19_2 t, Blocks.mem_slice_whole main_v141 ht⟩

end Cert.KernelIdeal.Region19

end
-- ==== Proof.Region20.lean ====
import proofs.«402353_j91190745629151_3_alg».proof.Proof.LibBlocks

noncomputable section

namespace Cert.KernelIdeal.Region20

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat20 V c).arrAt 2 cfg20.N = Spec.mm64 (V c main_v128) (V c main_arg6) :=
  have r : Blocks.ByRows win20_2 := by decide +kernel
  (dat20 V c).arrAt_eq_of_cover 2 _
    (fun t _ => (after20_2 V c t).trans (Blocks.mm _ _ ((by decide +kernel : Blocks.ByRows win20_0) t) ((by decide +kernel : Blocks.Whole win20_1) t) (r t)))
    fun i => (Blocks.exists_rows (R := 5000) (by rw [N_20]) (by decide) r i).imp fun t ht =>
      ⟨flush20_2 t, Blocks.mem_slice_whole main_v142 ht⟩

end Cert.KernelIdeal.Region20

end
-- ==== Proof.Region21.lean ====
import proofs.«402353_j91190745629151_3_alg».proof.Proof.LibBlocks

noncomputable section

namespace Cert.KernelIdeal.Region21

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat21 V c).arrAt 2 cfg21.N = Spec.scale (V c main_v149) (V c main_v32) :=
  have r : Blocks.ByRows win21_2 := by decide +kernel
  (dat21 V c).arrAt_eq_of_cover 2 _
    (fun t _ => (after21_2 V c t).trans (Blocks.scale _ _ ((by decide +kernel : Blocks.ByRows win21_0) t) ((by decide +kernel : Blocks.ByRows win21_1) t) (r t)))
    fun i => (Blocks.exists_rows (R := 5000) (by rw [N_21]) (by decide) r i).imp fun t ht =>
      ⟨flush21_2 t, Blocks.mem_slice_whole main_v150 ht⟩

end Cert.KernelIdeal.Region21

end
-- ==== Proof.Region22.lean ====
import proofs.«402353_j91190745629151_3_alg».proof.Proof.LibBlocks

noncomputable section

namespace Cert.KernelIdeal.Region22

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat22 V c).arrAt 2 cfg22.N = Spec.biasRelu (V c main_v153) (V c main_arg7) :=
  have r : Blocks.ByRows win22_2 := by decide +kernel
  (dat22 V c).arrAt_eq_of_cover 2 _
    (fun t _ => (after22_2 V c t).trans (Blocks.biasRelu _ _ ((by decide +kernel : Blocks.ByRows win22_0) t) ((by decide +kernel : Blocks.Whole win22_1) t) (r t)))
    fun i => (Blocks.exists_rows (R := 5000) (by rw [N_22]) (by decide) r i).imp fun t ht =>
      ⟨flush22_2 t, Blocks.mem_slice_whole main_v154 ht⟩

end Cert.KernelIdeal.Region22

end
-- ==== Proof.Region23.lean ====
import proofs.«402353_j91190745629151_3_alg».proof.Proof.LibBlocks

noncomputable section

namespace Cert.KernelIdeal.Region23

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat23 V c).arrAt 2 cfg23.N = Spec.diffSq (V c main_v161) (V c main_v168) :=
  have r : Blocks.ByRows win23_2 := by decide +kernel
  (dat23 V c).arrAt_eq_of_cover 2 _
    (fun t _ => (after23_2 V c t).trans (Blocks.diffSq _ _ ((by decide +kernel : Blocks.ByRows win23_0) t) ((by decide +kernel : Blocks.ByRows win23_1) t) (r t)))
    fun i => (Blocks.exists_rows (R := 8000) (by rw [N_23]) (by decide) r i).imp fun t ht =>
      ⟨flush23_2 t, Blocks.mem_slice_whole main_v169 ht⟩

end Cert.KernelIdeal.Region23

end
-- ==== Proof.Region24.lean ====
import proofs.«402353_j91190745629151_3_alg».proof.Proof.LibBlocks

noncomputable section

namespace Cert.KernelIdeal.Region24

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat24 V c).arrAt 4 cfg24.N = Spec.gate (V c main_v172) (V c main_v37) (V c main_v128) (V c main_v141) :=
  have r : Blocks.ByRows win24_4 := by decide +kernel
  (dat24 V c).arrAt_eq_of_cover 4 _
    (fun t _ => (after24_4 V c t).trans (Blocks.gate _ _ _ _ ((by decide +kernel : Blocks.ByRows win24_0) t) ((by decide +kernel : Blocks.ByRows win24_1) t) ((by decide +kernel : Blocks.ByRows win24_2) t) ((by decide +kernel : Blocks.ByRows win24_3) t) (r t)))
    fun i => (Blocks.exists_rows (R := 5000) (by rw [N_24]) (by decide) r i).imp fun t ht =>
      ⟨flush24_4 t, Blocks.mem_slice_whole main_v173 ht⟩

end Cert.KernelIdeal.Region24

end
-- ==== Proof.KHostL1.lean ====
import proofs.«402353_j91190745629151_3_alg».proof.Proof.Gen.KernelIdeal.Launch
import proofs.«402353_j91190745629151_3_alg».proof.Proof.KGraph
import Idealize.ShloMosaic.Lib.StableHlo.Run
import Idealize.ShloMosaic.PureOps.Ideal

set_option maxRecDepth 16384

noncomputable section

namespace Cert.KernelIdeal.HostL1

open Cert.KernelIdeal Cert.KernelIdeal.Gen Idealize.ShloMosaic Idealize.ShloMosaic.TcCoe Idealize.ShloMosaic.StableHlo
open Idealize.SL.Sem
open Cert.KernelIdeal.Graph

theorem gatherConv (W : Valuation τ sig (Elt Ideal)) :
    after hostOps10 W (Proc.devRef .tc main_v91)
      = gatherE (W (Proc.devRef .tc main_v5)) (W (Proc.devRef .tc main_v84)) := by
  after_results
  rfl

theorem scatterConv (W : Valuation τ sig (Elt Ideal)) :
    after hostOps11 W (Proc.devRef .tc main_v95)
      = scatterE (W (Proc.devRef .tc main_v6)) (W (Proc.devRef .tc main_v92)) := by
  after_results
  rfl

theorem gatherGate (W : Valuation τ sig (Elt Ideal)) :
    after hostOps13 W (Proc.devRef .tc main_v104)
      = gatherE (W (Proc.devRef .tc main_v5)) (W (Proc.devRef .tc main_v97)) := by
  after_results
  rfl

theorem scatterGate (W : Valuation τ sig (Elt Ideal)) :
    after hostOps14 W (Proc.devRef .tc main_v108)
      = scatterE (W (Proc.devRef .tc main_v6)) (W (Proc.devRef .tc main_v105)) := by
  after_results
  rfl

theorem gatherSrc (W : Valuation τ sig (Elt Ideal)) :
    after hostOps15 W (Proc.devRef .tc main_v116)
      = gatherS (W (Proc.devRef .tc main_v1)) (W (Proc.devRef .tc main_v109)) := by
  after_results_simp
  rfl

theorem gatherDst (W : Valuation τ sig (Elt Ideal)) :
    after hostOps15 W (Proc.devRef .tc main_v123)
      = gatherS (W (Proc.devRef .tc main_v3)) (W (Proc.devRef .tc main_v109)) := by
  after_results_simp
  rfl

theorem scatterSrc (W : Valuation τ sig (Elt Ideal)) :
    after hostOps16 W (Proc.devRef .tc main_v127)
      = scatterS (W (Proc.devRef .tc main_v1)) (W (Proc.devRef .tc main_v124)) := by
  after_results
  rfl

end Cert.KernelIdeal.HostL1

end
-- ==== Proof.Region9.lean ====
import proofs.«402353_j91190745629151_3_alg».proof.Proof.LibBlocks

noncomputable section

namespace Cert.KernelIdeal.Region9

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat9 V c).arrAt 2 cfg9.N = Spec.mm64 (V c main_v83) (V c main_arg4) :=
  have r : Blocks.ByRows win9_2 := by decide +kernel
  (dat9 V c).arrAt_eq_of_cover 2 _
    (fun t _ => (after9_2 V c t).trans (Blocks.mm _ _ ((by decide +kernel : Blocks.ByRows win9_0) t) ((by decide +kernel : Blocks.Whole win9_1) t) (r t)))
    fun i => (Blocks.exists_rows (R := 5000) (by rw [N_9]) (by decide) r i).imp fun t ht =>
      ⟨flush9_2 t, Blocks.mem_slice_whole main_v84 ht⟩

end Cert.KernelIdeal.Region9

end
-- ==== Proof.Region10.lean ====
import proofs.«402353_j91190745629151_3_alg».proof.Proof.LibBlocks

noncomputable section

namespace Cert.KernelIdeal.Region10

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat10 V c).arrAt 2 cfg10.N = Spec.scale (V c main_v91) (V c main_v32) :=
  have r : Blocks.ByRows win10_2 := by decide +kernel
  (dat10 V c).arrAt_eq_of_cover 2 _
    (fun t _ => (after10_2 V c t).trans (Blocks.scale _ _ ((by decide +kernel : Blocks.ByRows win10_0) t) ((by decide +kernel : Blocks.ByRows win10_1) t) (r t)))
    fun i => (Blocks.exists_rows (R := 5000) (by rw [N_10]) (by decide) r i).imp fun t ht =>
      ⟨flush10_2 t, Blocks.mem_slice_whole main_v92 ht⟩

end Cert.KernelIdeal.Region10

end
-- ==== Proof.Region11.lean ====
import proofs.«402353_j91190745629151_3_alg».proof.Proof.LibBlocks

noncomputable section

namespace Cert.KernelIdeal.Region11

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat11 V c).arrAt 2 cfg11.N = Spec.biasRelu (V c main_v95) (V c main_arg5) :=
  have r : Blocks.ByRows win11_2 := by decide +kernel
  (dat11 V c).arrAt_eq_of_cover 2 _
    (fun t _ => (after11_2 V c t).trans (Blocks.biasRelu _ _ ((by decide +kernel : Blocks.ByRows win11_0) t) ((by decide +kernel : Blocks.Whole win11_1) t) (r t)))
    fun i => (Blocks.exists_rows (R := 5000) (by rw [N_11]) (by decide) r i).imp fun t ht =>
      ⟨flush11_2 t, Blocks.mem_slice_whole main_v96 ht⟩

end Cert.KernelIdeal.Region11

end
-- ==== Proof.Region12.lean ====
import proofs.«402353_j91190745629151_3_alg».proof.Proof.LibBlocks

noncomputable section

namespace Cert.KernelIdeal.Region12

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat12 V c).arrAt 2 cfg12.N = Spec.mm64 (V c main_v83) (V c main_arg6) :=
  have r : Blocks.ByRows win12_2 := by decide +kernel
  (dat12 V c).arrAt_eq_of_cover 2 _
    (fun t _ => (after12_2 V c t).trans (Blocks.mm _ _ ((by decide +kernel : Blocks.ByRows win12_0) t) ((by decide +kernel : Blocks.Whole win12_1) t) (r t)))
    fun i => (Blocks.exists_rows (R := 5000) (by rw [N_12]) (by decide) r i).imp fun t ht =>
      ⟨flush12_2 t, Blocks.mem_slice_whole main_v97 ht⟩

end Cert.KernelIdeal.Region12

end
-- ==== Proof.Region13.lean ====
import proofs.«402353_j91190745629151_3_alg».proof.Proof.LibBlocks

noncomputable section

namespace Cert.KernelIdeal.Region13

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat13 V c).arrAt 2 cfg13.N = Spec.scale (V c main_v104) (V c main_v32) :=
  have r : Blocks.ByRows win13_2 := by decide +kernel
  (dat13 V c).arrAt_eq_of_cover 2 _
    (fun t _ => (after13_2 V c t).trans (Blocks.scale _ _ ((by decide +kernel : Blocks.ByRows win13_0) t) ((by decide +kernel : Blocks.ByRows win13_1) t) (r t)))
    fun i => (Blocks.exists_rows (R := 5000) (by rw [N_13]) (by decide) r i).imp fun t ht =>
      ⟨flush13_2 t, Blocks.mem_slice_whole main_v105 ht⟩

end Cert.KernelIdeal.Region13

end
-- ==== Proof.Region14.lean ====
import proofs.«402353_j91190745629151_3_alg».proof.Proof.LibBlocks

noncomputable section

namespace Cert.KernelIdeal.Region14

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat14 V c).arrAt 2 cfg14.N = Spec.biasRelu (V c main_v108) (V c main_arg7) :=
  have r : Blocks.ByRows win14_2 := by decide +kernel
  (dat14 V c).arrAt_eq_of_cover 2 _
    (fun t _ => (after14_2 V c t).trans (Blocks.biasRelu _ _ ((by decide +kernel : Blocks.ByRows win14_0) t) ((by decide +kernel : Blocks.Whole win14_1) t) (r t)))
    fun i => (Blocks.exists_rows (R := 5000) (by rw [N_14]) (by decide) r i).imp fun t ht =>
      ⟨flush14_2 t, Blocks.mem_slice_whole main_v109 ht⟩

end Cert.KernelIdeal.Region14

end
-- ==== Proof.Region15.lean ====
import proofs.«402353_j91190745629151_3_alg».proof.Proof.LibBlocks

noncomputable section

namespace Cert.KernelIdeal.Region15

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat15 V c).arrAt 2 cfg15.N = Spec.diffSq (V c main_v116) (V c main_v123) :=
  have r : Blocks.ByRows win15_2 := by decide +kernel
  (dat15 V c).arrAt_eq_of_cover 2 _
    (fun t _ => (after15_2 V c t).trans (Blocks.diffSq _ _ ((by decide +kernel : Blocks.ByRows win15_0) t) ((by decide +kernel : Blocks.ByRows win15_1) t) (r t)))
    fun i => (Blocks.exists_rows (R := 8000) (by rw [N_15]) (by decide) r i).imp fun t ht =>
      ⟨flush15_2 t, Blocks.mem_slice_whole main_v124 ht⟩

end Cert.KernelIdeal.Region15

end
-- ==== Proof.Region16.lean ====
import proofs.«402353_j91190745629151_3_alg».proof.Proof.LibBlocks

noncomputable section

namespace Cert.KernelIdeal.Region16

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat16 V c).arrAt 4 cfg16.N = Spec.gate (V c main_v127) (V c main_v37) (V c main_v83) (V c main_v96) :=
  have r : Blocks.ByRows win16_4 := by decide +kernel
  (dat16 V c).arrAt_eq_of_cover 4 _
    (fun t _ => (after16_4 V c t).trans (Blocks.gate _ _ _ _ ((by decide +kernel : Blocks.ByRows win16_0) t) ((by decide +kernel : Blocks.ByRows win16_1) t) ((by decide +kernel : Blocks.ByRows win16_2) t) ((by decide +kernel : Blocks.ByRows win16_3) t) (r t)))
    fun i => (Blocks.exists_rows (R := 5000) (by rw [N_16]) (by decide) r i).imp fun t ht =>
      ⟨flush16_4 t, Blocks.mem_slice_whole main_v128 ht⟩

end Cert.KernelIdeal.Region16

end
-- ==== Proof.KHostL0.lean ====
import proofs.«402353_j91190745629151_3_alg».proof.Proof.Gen.KernelIdeal.Launch
import proofs.«402353_j91190745629151_3_alg».proof.Proof.KGraph
import Idealize.ShloMosaic.Lib.StableHlo.Run
import Idealize.ShloMosaic.PureOps.Ideal

set_option maxRecDepth 16384

noncomputable section

namespace Cert.KernelIdeal.HostL0

open Cert.KernelIdeal Cert.KernelIdeal.Gen Idealize.ShloMosaic Idealize.ShloMosaic.TcCoe Idealize.ShloMosaic.StableHlo
open Idealize.SL.Sem
open Cert.KernelIdeal.Graph

theorem gatherConv (W : Valuation τ sig (Elt Ideal)) :
    after hostOps2 W (Proc.devRef .tc main_v46)
      = gatherE (W (Proc.devRef .tc main_v5)) (W (Proc.devRef .tc main_v39)) := by
  after_results
  rfl

theorem scatterConv (W : Valuation τ sig (Elt Ideal)) :
    after hostOps3 W (Proc.devRef .tc main_v50)
      = scatterE (W (Proc.devRef .tc main_v6)) (W (Proc.devRef .tc main_v47)) := by
  after_results
  rfl

theorem gatherGate (W : Valuation τ sig (Elt Ideal)) :
    after hostOps5 W (Proc.devRef .tc main_v59)
      = gatherE (W (Proc.devRef .tc main_v5)) (W (Proc.devRef .tc main_v52)) := by
  after_results
  rfl

theorem scatterGate (W : Valuation τ sig (Elt Ideal)) :
    after hostOps6 W (Proc.devRef .tc main_v63)
      = scatterE (W (Proc.devRef .tc main_v6)) (W (Proc.devRef .tc main_v60)) := by
  after_results
  rfl

theorem gatherSrc (W : Valuation τ sig (Elt Ideal)) :
    after hostOps7 W (Proc.devRef .tc main_v71)
      = gatherS (W (Proc.devRef .tc main_v1)) (W (Proc.devRef .tc main_v64)) := by
  after_results_simp
  rfl

theorem gatherDst (W : Valuation τ sig (Elt Ideal)) :
    after hostOps7 W (Proc.devRef .tc main_v78)
      = gatherS (W (Proc.devRef .tc main_v3)) (W (Proc.devRef .tc main_v64)) := by
  after_results_simp
  rfl

theorem scatterSrc (W : Valuation τ sig (Elt Ideal)) :
    after hostOps8 W (Proc.devRef .tc main_v82)
      = scatterS (W (Proc.devRef .tc main_v1)) (W (Proc.devRef .tc main_v79)) := by
  after_results
  rfl

end Cert.KernelIdeal.HostL0

end
-- ==== Proof.Region1.lean ====
import proofs.«402353_j91190745629151_3_alg».proof.Proof.LibBlocks

noncomputable section

namespace Cert.KernelIdeal.Region1

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat1 V c).arrAt 2 cfg1.N = Spec.mm64 (V c main_v38) (V c main_arg4) :=
  have r : Blocks.ByRows win1_2 := by decide +kernel
  (dat1 V c).arrAt_eq_of_cover 2 _
    (fun t _ => (after1_2 V c t).trans (Blocks.mm _ _ ((by decide +kernel : Blocks.ByRows win1_0) t) ((by decide +kernel : Blocks.Whole win1_1) t) (r t)))
    fun i => (Blocks.exists_rows (R := 5000) (by rw [N_1]) (by decide) r i).imp fun t ht =>
      ⟨flush1_2 t, Blocks.mem_slice_whole main_v39 ht⟩

end Cert.KernelIdeal.Region1

end
-- ==== Proof.Region2.lean ====
import proofs.«402353_j91190745629151_3_alg».proof.Proof.LibBlocks

noncomputable section

namespace Cert.KernelIdeal.Region2

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat2 V c).arrAt 2 cfg2.N = Spec.scale (V c main_v46) (V c main_v32) :=
  have r : Blocks.ByRows win2_2 := by decide +kernel
  (dat2 V c).arrAt_eq_of_cover 2 _
    (fun t _ => (after2_2 V c t).trans (Blocks.scale _ _ ((by decide +kernel : Blocks.ByRows win2_0) t) ((by decide +kernel : Blocks.ByRows win2_1) t) (r t)))
    fun i => (Blocks.exists_rows (R := 5000) (by rw [N_2]) (by decide) r i).imp fun t ht =>
      ⟨flush2_2 t, Blocks.mem_slice_whole main_v47 ht⟩

end Cert.KernelIdeal.Region2

end
-- ==== Proof.Region3.lean ====
import proofs.«402353_j91190745629151_3_alg».proof.Proof.LibBlocks

noncomputable section

namespace Cert.KernelIdeal.Region3

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat3 V c).arrAt 2 cfg3.N = Spec.biasRelu (V c main_v50) (V c main_arg5) :=
  have r : Blocks.ByRows win3_2 := by decide +kernel
  (dat3 V c).arrAt_eq_of_cover 2 _
    (fun t _ => (after3_2 V c t).trans (Blocks.biasRelu _ _ ((by decide +kernel : Blocks.ByRows win3_0) t) ((by decide +kernel : Blocks.Whole win3_1) t) (r t)))
    fun i => (Blocks.exists_rows (R := 5000) (by rw [N_3]) (by decide) r i).imp fun t ht =>
      ⟨flush3_2 t, Blocks.mem_slice_whole main_v51 ht⟩

end Cert.KernelIdeal.Region3

end
-- ==== Proof.Region4.lean ====
import proofs.«402353_j91190745629151_3_alg».proof.Proof.LibBlocks

noncomputable section

namespace Cert.KernelIdeal.Region4

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat4 V c).arrAt 2 cfg4.N = Spec.mm64 (V c main_v38) (V c main_arg6) :=
  have r : Blocks.ByRows win4_2 := by decide +kernel
  (dat4 V c).arrAt_eq_of_cover 2 _
    (fun t _ => (after4_2 V c t).trans (Blocks.mm _ _ ((by decide +kernel : Blocks.ByRows win4_0) t) ((by decide +kernel : Blocks.Whole win4_1) t) (r t)))
    fun i => (Blocks.exists_rows (R := 5000) (by rw [N_4]) (by decide) r i).imp fun t ht =>
      ⟨flush4_2 t, Blocks.mem_slice_whole main_v52 ht⟩

end Cert.KernelIdeal.Region4

end
-- ==== Proof.Region5.lean ====
import proofs.«402353_j91190745629151_3_alg».proof.Proof.LibBlocks

noncomputable section

namespace Cert.KernelIdeal.Region5

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat5 V c).arrAt 2 cfg5.N = Spec.scale (V c main_v59) (V c main_v32) :=
  have r : Blocks.ByRows win5_2 := by decide +kernel
  (dat5 V c).arrAt_eq_of_cover 2 _
    (fun t _ => (after5_2 V c t).trans (Blocks.scale _ _ ((by decide +kernel : Blocks.ByRows win5_0) t) ((by decide +kernel : Blocks.ByRows win5_1) t) (r t)))
    fun i => (Blocks.exists_rows (R := 5000) (by rw [N_5]) (by decide) r i).imp fun t ht =>
      ⟨flush5_2 t, Blocks.mem_slice_whole main_v60 ht⟩

end Cert.KernelIdeal.Region5

end
-- ==== Proof.Region6.lean ====
import proofs.«402353_j91190745629151_3_alg».proof.Proof.LibBlocks

noncomputable section

namespace Cert.KernelIdeal.Region6

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat6 V c).arrAt 2 cfg6.N = Spec.biasRelu (V c main_v63) (V c main_arg7) :=
  have r : Blocks.ByRows win6_2 := by decide +kernel
  (dat6 V c).arrAt_eq_of_cover 2 _
    (fun t _ => (after6_2 V c t).trans (Blocks.biasRelu _ _ ((by decide +kernel : Blocks.ByRows win6_0) t) ((by decide +kernel : Blocks.Whole win6_1) t) (r t)))
    fun i => (Blocks.exists_rows (R := 5000) (by rw [N_6]) (by decide) r i).imp fun t ht =>
      ⟨flush6_2 t, Blocks.mem_slice_whole main_v64 ht⟩

end Cert.KernelIdeal.Region6

end
-- ==== Proof.Region7.lean ====
import proofs.«402353_j91190745629151_3_alg».proof.Proof.LibBlocks

noncomputable section

namespace Cert.KernelIdeal.Region7

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat7 V c).arrAt 2 cfg7.N = Spec.diffSq (V c main_v71) (V c main_v78) :=
  have r : Blocks.ByRows win7_2 := by decide +kernel
  (dat7 V c).arrAt_eq_of_cover 2 _
    (fun t _ => (after7_2 V c t).trans (Blocks.diffSq _ _ ((by decide +kernel : Blocks.ByRows win7_0) t) ((by decide +kernel : Blocks.ByRows win7_1) t) (r t)))
    fun i => (Blocks.exists_rows (R := 8000) (by rw [N_7]) (by decide) r i).imp fun t ht =>
      ⟨flush7_2 t, Blocks.mem_slice_whole main_v79 ht⟩

end Cert.KernelIdeal.Region7

end
-- ==== Proof.Region8.lean ====
import proofs.«402353_j91190745629151_3_alg».proof.Proof.LibBlocks

noncomputable section

namespace Cert.KernelIdeal.Region8

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat8 V c).arrAt 4 cfg8.N = Spec.gate (V c main_v82) (V c main_v37) (V c main_v38) (V c main_v51) :=
  have r : Blocks.ByRows win8_4 := by decide +kernel
  (dat8 V c).arrAt_eq_of_cover 4 _
    (fun t _ => (after8_4 V c t).trans (Blocks.gate _ _ _ _ ((by decide +kernel : Blocks.ByRows win8_0) t) ((by decide +kernel : Blocks.ByRows win8_1) t) ((by decide +kernel : Blocks.ByRows win8_2) t) ((by decide +kernel : Blocks.ByRows win8_3) t) (r t)))
    fun i => (Blocks.exists_rows (R := 5000) (by rw [N_8]) (by decide) r i).imp fun t ht =>
      ⟨flush8_4 t, Blocks.mem_slice_whole main_v83 ht⟩

end Cert.KernelIdeal.Region8

end
-- ==== Proof.KHostPre.lean ====
import proofs.«402353_j91190745629151_3_alg».proof.Proof.Gen.KernelIdeal.Launch
import proofs.«402353_j91190745629151_3_alg».proof.Proof.KGraph
import Idealize.ShloMosaic.Lib.StableHlo.Run
import Idealize.ShloMosaic.PureOps.Ideal

set_option maxRecDepth 16384

noncomputable section

namespace Cert.KernelIdeal.HostPre

open Cert.KernelIdeal Cert.KernelIdeal.Gen Idealize.ShloMosaic Idealize.ShloMosaic.TcCoe Idealize.ShloMosaic.StableHlo
open Idealize.SL.Sem
open Cert.KernelIdeal.Graph

theorem src (W : Valuation τ sig (Elt Ideal)) :
    after hostOps0 W (Proc.devRef .tc main_v1) = srcOf (W (Proc.devRef .tc main_arg1)) := by
  after_results
  all_goals rfl

theorem dst (W : Valuation τ sig (Elt Ideal)) :
    after hostOps0 W (Proc.devRef .tc main_v3) = dstOf (W (Proc.devRef .tc main_arg1)) := by
  after_results
  all_goals rfl

theorem srcLoops (W : Valuation τ sig (Elt Ideal)) :
    after hostOps0 W (Proc.devRef .tc main_v5) = selfLoops (srcOf (W (Proc.devRef .tc main_arg1))) := by
  after_results
  all_goals rfl

theorem dstLoops (W : Valuation τ sig (Elt Ideal)) :
    after hostOps0 W (Proc.devRef .tc main_v6) = selfLoops (dstOf (W (Proc.devRef .tc main_arg1))) := by
  after_results
  all_goals rfl

theorem pos (W : Valuation τ sig (Elt Ideal)) :
    after hostOps0 W (Proc.devRef .tc main_v12) = degPos (degOf (selfLoops (dstOf (W (Proc.devRef .tc main_arg1))))) := by
  after_results_simp
  all_goals rfl

theorem rsq (W : Valuation τ sig (Elt Ideal)) :
    after hostOps0 W (Proc.devRef .tc main_v15) = degRsqrt (degOf (selfLoops (dstOf (W (Proc.devRef .tc main_arg1))))) := by
  after_results_simp
  all_goals rfl

theorem zero (W : Valuation τ sig (Elt Ideal)) :
    after hostOps0 W (Proc.devRef .tc main_cst_3) = constant (F := Ideal) S_ .f32 0x00000000#32 := by
  after_results
  all_goals rfl

theorem dis (W : Valuation τ sig (Elt Ideal)) :
    after hostOps0_1 W (Proc.devRef .tc main_v16)
      = select (W (Proc.devRef .tc main_v12)) (W (Proc.devRef .tc main_v15))
          (broadcastInDim S50000 ![] bcast_S_S50000 (W (Proc.devRef .tc main_cst_3))) := by
  after_results
  all_goals rfl

theorem wedge (W : Valuation τ sig (Elt Ideal)) :
    after hostOps0_2 W (Proc.devRef .tc main_v32)
      = wedgeFrom (W (Proc.devRef .tc main_v16)) (W (Proc.devRef .tc main_v5)) (W (Proc.devRef .tc main_v6)) := by
  after_results_simp
  all_goals rfl

theorem cnt (W : Valuation τ sig (Elt Ideal)) :
    after hostOps0_2 W (Proc.devRef .tc main_v37) = cntCol (W (Proc.devRef .tc main_v1)) := by
  after_results_simp
  all_goals rfl

end Cert.KernelIdeal.HostPre

end
-- ==== Proof.Region0.lean ====
import proofs.«402353_j91190745629151_3_alg».proof.Proof.LibBlocks

noncomputable section

namespace Cert.KernelIdeal.Region0

open Cert.KernelIdeal.Gen Idealize.ShloMosaic Idealize.ShloMosaic.TcCoe Idealize.SL.Sem

variable (V : (c : Dev nD) → (b : Ref sig .tc) → Buf (Elt Ideal) ((c : Thread nD τ).loc b))

theorem value (c : Dev nD) :
    (dat0 V c).arrAt 3 cfg0.N = Spec.encode (V c main_arg0) (V c main_arg2) (V c main_arg3) :=
  have r : Blocks.ByRows win0_3 := by decide +kernel
  (dat0 V c).arrAt_eq_of_cover 3 _
    (fun t _ => (after0_3 V c t).trans (Blocks.encode _ _ _ ((by decide +kernel : Blocks.ByRows win0_0) t) ((by decide +kernel : Blocks.Whole win0_1) t) ((by decide +kernel : Blocks.Whole win0_2) t) (r t)))
    fun i => (Blocks.exists_rows (R := 5000) (by rw [N_0]) (by decide) r i).imp fun t ht =>
      ⟨flush0_3 t, Blocks.mem_slice_whole main_v38 ht⟩

end Cert.KernelIdeal.Region0

end
-- ==== Proof.KChainPre.lean ====
import proofs.«402353_j91190745629151_3_alg».proof.Proof.Gen.KernelIdeal.Frame
import proofs.«402353_j91190745629151_3_alg».proof.Proof.KVals
import proofs.«402353_j91190745629151_3_alg».proof.Proof.KHostPre
import proofs.«402353_j91190745629151_3_alg».proof.Proof.Region0

set_option maxRecDepth 16384

noncomputable section

namespace Cert.KernelIdeal.Chain.Pre

open Cert.KernelIdeal Cert.KernelIdeal.Gen Cert.KernelIdeal.Graph Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

theorem w0_arg0 (c : Dev nD) : W0 m ρ c (Proc.devRef .tc main_arg0) = A0 m c :=
  rfl
theorem w0_arg1 (c : Dev nD) : W0 m ρ c (Proc.devRef .tc main_arg1) = E m c :=
  rfl
theorem w0_arg2 (c : Dev nD) : W0 m ρ c (Proc.devRef .tc main_arg2) = A2 m c :=
  rfl
theorem w0_arg3 (c : Dev nD) : W0 m ρ c (Proc.devRef .tc main_arg3) = A3 m c :=
  rfl
theorem w0_arg4 (c : Dev nD) : W0 m ρ c (Proc.devRef .tc main_arg4) = A4 m c :=
  rfl
theorem w0_arg5 (c : Dev nD) : W0 m ρ c (Proc.devRef .tc main_arg5) = A5 m c :=
  rfl
theorem w0_arg6 (c : Dev nD) : W0 m ρ c (Proc.devRef .tc main_arg6) = A6 m c :=
  rfl
theorem w0_arg7 (c : Dev nD) : W0 m ρ c (Proc.devRef .tc main_arg7) = A7 m c :=
  rfl
theorem w0_arg8 (c : Dev nD) : W0 m ρ c (Proc.devRef .tc main_arg8) = A8 m c :=
  rfl
theorem w0_arg9 (c : Dev nD) : W0 m ρ c (Proc.devRef .tc main_arg9) = A9 m c :=
  rfl

theorem w1_v1 (c : Dev nD) : W1 m ρ c (Proc.devRef .tc main_v1) = SRC m c :=
  (HostPre.src (W0 m ρ c)).trans (congr1 (f := srcOf) (w0_arg1 m ρ c))
theorem w1_v3 (c : Dev nD) : W1 m ρ c (Proc.devRef .tc main_v3) = DST m c :=
  (HostPre.dst (W0 m ρ c)).trans (congr1 (f := dstOf) (w0_arg1 m ρ c))
theorem w1_v5 (c : Dev nD) : W1 m ρ c (Proc.devRef .tc main_v5) = SL m c :=
  (HostPre.srcLoops (W0 m ρ c)).trans (congr1 (f := (fun e => selfLoops (srcOf e))) (w0_arg1 m ρ c))
theorem w1_v6 (c : Dev nD) : W1 m ρ c (Proc.devRef .tc main_v6) = DL m c :=
  (HostPre.dstLoops (W0 m ρ c)).trans (congr1 (f := (fun e => selfLoops (dstOf e))) (w0_arg1 m ρ c))
theorem w1_v12 (c : Dev nD) : W1 m ρ c (Proc.devRef .tc main_v12) = POS m c :=
  (HostPre.pos (W0 m ρ c)).trans (congr1 (f := (fun e => degPos (degOf (selfLoops (dstOf e))))) (w0_arg1 m ρ c))
theorem w1_v15 (c : Dev nD) : W1 m ρ c (Proc.devRef .tc main_v15) = RSQ m c :=
  (HostPre.rsq (W0 m ρ c)).trans (congr1 (f := (fun e => degRsqrt (degOf (selfLoops (dstOf e))))) (w0_arg1 m ρ c))
theorem w1_cst_3 (c : Dev nD) : W1 m ρ c (Proc.devRef .tc main_cst_3) = ZERO :=
  (HostPre.zero (W0 m ρ c))
theorem w1_arg0 (c : Dev nD) : W1 m ρ c (Proc.devRef .tc main_arg0) = A0 m c :=
  (StableHlo.after_of_forall_not_mem (b := Proc.devRef .tc main_arg0) _ _ (List.forall_iff_forall_mem.mp (by keep_host hostOps0))).trans (w0_arg0 m ρ c)
theorem w1_arg2 (c : Dev nD) : W1 m ρ c (Proc.devRef .tc main_arg2) = A2 m c :=
  (StableHlo.after_of_forall_not_mem (b := Proc.devRef .tc main_arg2) _ _ (List.forall_iff_forall_mem.mp (by keep_host hostOps0))).trans (w0_arg2 m ρ c)
theorem w1_arg3 (c : Dev nD) : W1 m ρ c (Proc.devRef .tc main_arg3) = A3 m c :=
  (StableHlo.after_of_forall_not_mem (b := Proc.devRef .tc main_arg3) _ _ (List.forall_iff_forall_mem.mp (by keep_host hostOps0))).trans (w0_arg3 m ρ c)
theorem w1_arg4 (c : Dev nD) : W1 m ρ c (Proc.devRef .tc main_arg4) = A4 m c :=
  (StableHlo.after_of_forall_not_mem (b := Proc.devRef .tc main_arg4) _ _ (List.forall_iff_forall_mem.mp (by keep_host hostOps0))).trans (w0_arg4 m ρ c)
theorem w1_arg5 (c : Dev nD) : W1 m ρ c (Proc.devRef .tc main_arg5) = A5 m c :=
  (StableHlo.after_of_forall_not_mem (b := Proc.devRef .tc main_arg5) _ _ (List.forall_iff_forall_mem.mp (by keep_host hostOps0))).trans (w0_arg5 m ρ c)
theorem w1_arg6 (c : Dev nD) : W1 m ρ c (Proc.devRef .tc main_arg6) = A6 m c :=
  (StableHlo.after_of_forall_not_mem (b := Proc.devRef .tc main_arg6) _ _ (List.forall_iff_forall_mem.mp (by keep_host hostOps0))).trans (w0_arg6 m ρ c)
theorem w1_arg7 (c : Dev nD) : W1 m ρ c (Proc.devRef .tc main_arg7) = A7 m c :=
  (StableHlo.after_of_forall_not_mem (b := Proc.devRef .tc main_arg7) _ _ (List.forall_iff_forall_mem.mp (by keep_host hostOps0))).trans (w0_arg7 m ρ c)
theorem w1_arg8 (c : Dev nD) : W1 m ρ c (Proc.devRef .tc main_arg8) = A8 m c :=
  (StableHlo.after_of_forall_not_mem (b := Proc.devRef .tc main_arg8) _ _ (List.forall_iff_forall_mem.mp (by keep_host hostOps0))).trans (w0_arg8 m ρ c)
theorem w1_arg9 (c : Dev nD) : W1 m ρ c (Proc.devRef .tc main_arg9) = A9 m c :=
  (StableHlo.after_of_forall_not_mem (b := Proc.devRef .tc main_arg9) _ _ (List.forall_iff_forall_mem.mp (by keep_host hostOps0))).trans (w0_arg9 m ρ c)

theorem w2_v16 (c : Dev nD) : W2 m ρ c (Proc.devRef .tc main_v16) = DIS m c :=
  (HostPre.dis (W1 m ρ c)).trans (congr3 (f := disFrom) (w1_v12 m ρ c) (w1_v15 m ρ c) (w1_cst_3 m ρ c))
theorem w2_arg0 (c : Dev nD) : W2 m ρ c (Proc.devRef .tc main_arg0) = A0 m c :=
  (StableHlo.after_of_forall_not_mem (b := Proc.devRef .tc main_arg0) _ _ (List.forall_iff_forall_mem.mp (by keep_host hostOps0_1))).trans (w1_arg0 m ρ c)
theorem w2_arg2 (c : Dev nD) : W2 m ρ c (Proc.devRef .tc main_arg2) = A2 m c :=
  (StableHlo.after_of_forall_not_mem (b := Proc.devRef .tc main_arg2) _ _ (List.forall_iff_forall_mem.mp (by keep_host hostOps0_1))).trans (w1_arg2 m ρ c)
theorem w2_arg3 (c : Dev nD) : W2 m ρ c (Proc.devRef .tc main_arg3) = A3 m c :=
  (StableHlo.after_of_forall_not_mem (b := Proc.devRef .tc main_arg3) _ _ (List.forall_iff_forall_mem.mp (by keep_host hostOps0_1))).trans (w1_arg3 m ρ c)
theorem w2_arg4 (c : Dev nD) : W2 m ρ c (Proc.devRef .tc main_arg4) = A4 m c :=
  (StableHlo.after_of_forall_not_mem (b := Proc.devRef .tc main_arg4) _ _ (List.forall_iff_forall_mem.mp (by keep_host hostOps0_1))).trans (w1_arg4 m ρ c)
theorem w2_arg5 (c : Dev nD) : W2 m ρ c (Proc.devRef .tc main_arg5) = A5 m c :=
  (StableHlo.after_of_forall_not_mem (b := Proc.devRef .tc main_arg5) _ _ (List.forall_iff_forall_mem.mp (by keep_host hostOps0_1))).trans (w1_arg5 m ρ c)
theorem w2_arg6 (c : Dev nD) : W2 m ρ c (Proc.devRef .tc main_arg6) = A6 m c :=
  (StableHlo.after_of_forall_not_mem (b := Proc.devRef .tc main_arg6) _ _ (List.forall_iff_forall_mem.mp (by keep_host hostOps0_1))).trans (w1_arg6 m ρ c)
theorem w2_arg7 (c : Dev nD) : W2 m ρ c (Proc.devRef .tc main_arg7) = A7 m c :=
  (StableHlo.after_of_forall_not_mem (b := Proc.devRef .tc main_arg7) _ _ (List.forall_iff_forall_mem.mp (by keep_host hostOps0_1))).trans (w1_arg7 m ρ c)
theorem w2_arg8 (c : Dev nD) : W2 m ρ c (Proc.devRef .tc main_arg8) = A8 m c :=
  (StableHlo.after_of_forall_not_mem (b := Proc.devRef .tc main_arg8) _ _ (List.forall_iff_forall_mem.mp (by keep_host hostOps0_1))).trans (w1_arg8 m ρ c)
theorem w2_arg9 (c : Dev nD) : W2 m ρ c (Proc.devRef .tc main_arg9) = A9 m c :=
  (StableHlo.after_of_forall_not_mem (b := Proc.devRef .tc main_arg9) _ _ (List.forall_iff_forall_mem.mp (by keep_host hostOps0_1))).trans (w1_arg9 m ρ c)
theorem w2_v1 (c : Dev nD) : W2 m ρ c (Proc.devRef .tc main_v1) = SRC m c :=
  (StableHlo.after_of_forall_not_mem (b := Proc.devRef .tc main_v1) _ _ (List.forall_iff_forall_mem.mp (by keep_host hostOps0_1))).trans (w1_v1 m ρ c)
theorem w2_v3 (c : Dev nD) : W2 m ρ c (Proc.devRef .tc main_v3) = DST m c :=
  (StableHlo.after_of_forall_not_mem (b := Proc.devRef .tc main_v3) _ _ (List.forall_iff_forall_mem.mp (by keep_host hostOps0_1))).trans (w1_v3 m ρ c)
theorem w2_v5 (c : Dev nD) : W2 m ρ c (Proc.devRef .tc main_v5) = SL m c :=
  (StableHlo.after_of_forall_not_mem (b := Proc.devRef .tc main_v5) _ _ (List.forall_iff_forall_mem.mp (by keep_host hostOps0_1))).trans (w1_v5 m ρ c)
theorem w2_v6 (c : Dev nD) : W2 m ρ c (Proc.devRef .tc main_v6) = DL m c :=
  (StableHlo.after_of_forall_not_mem (b := Proc.devRef .tc main_v6) _ _ (List.forall_iff_forall_mem.mp (by keep_host hostOps0_1))).trans (w1_v6 m ρ c)

theorem w3_v32 (c : Dev nD) : W3 m ρ c (Proc.devRef .tc main_v32) = WE m c :=
  (HostPre.wedge (W2 m ρ c)).trans (congr3 (f := wedgeFrom) (w2_v16 m ρ c) (w2_v5 m ρ c) (w2_v6 m ρ c))
theorem w3_v37 (c : Dev nD) : W3 m ρ c (Proc.devRef .tc main_v37) = CN m c :=
  (HostPre.cnt (W2 m ρ c)).trans (congr1 (f := cntCol) (w2_v1 m ρ c))
theorem w3_arg0 (c : Dev nD) : W3 m ρ c (Proc.devRef .tc main_arg0) = A0 m c :=
  (StableHlo.after_of_forall_not_mem (b := Proc.devRef .tc main_arg0) _ _ (List.forall_iff_forall_mem.mp (by keep_host hostOps0_2))).trans (w2_arg0 m ρ c)
theorem w3_arg2 (c : Dev nD) : W3 m ρ c (Proc.devRef .tc main_arg2) = A2 m c :=
  (StableHlo.after_of_forall_not_mem (b := Proc.devRef .tc main_arg2) _ _ (List.forall_iff_forall_mem.mp (by keep_host hostOps0_2))).trans (w2_arg2 m ρ c)
theorem w3_arg3 (c : Dev nD) : W3 m ρ c (Proc.devRef .tc main_arg3) = A3 m c :=
  (StableHlo.after_of_forall_not_mem (b := Proc.devRef .tc main_arg3) _ _ (List.forall_iff_forall_mem.mp (by keep_host hostOps0_2))).trans (w2_arg3 m ρ c)
theorem w3_arg4 (c : Dev nD) : W3 m ρ c (Proc.devRef .tc main_arg4) = A4 m c :=
  (StableHlo.after_of_forall_not_mem (b := Proc.devRef .tc main_arg4) _ _ (List.forall_iff_forall_mem.mp (by keep_host hostOps0_2))).trans (w2_arg4 m ρ c)
theorem w3_arg5 (c : Dev nD) : W3 m ρ c (Proc.devRef .tc main_arg5) = A5 m c :=
  (StableHlo.after_of_forall_not_mem (b := Proc.devRef .tc main_arg5) _ _ (List.forall_iff_forall_mem.mp (by keep_host hostOps0_2))).trans (w2_arg5 m ρ c)
theorem w3_arg6 (c : Dev nD) : W3 m ρ c (Proc.devRef .tc main_arg6) = A6 m c :=
  (StableHlo.after_of_forall_not_mem (b := Proc.devRef .tc main_arg6) _ _ (List.forall_iff_forall_mem.mp (by keep_host hostOps0_2))).trans (w2_arg6 m ρ c)
theorem w3_arg7 (c : Dev nD) : W3 m ρ c (Proc.devRef .tc main_arg7) = A7 m c :=
  (StableHlo.after_of_forall_not_mem (b := Proc.devRef .tc main_arg7) _ _ (List.forall_iff_forall_mem.mp (by keep_host hostOps0_2))).trans (w2_arg7 m ρ c)
theorem w3_arg8 (c : Dev nD) : W3 m ρ c (Proc.devRef .tc main_arg8) = A8 m c :=
  (StableHlo.after_of_forall_not_mem (b := Proc.devRef .tc main_arg8) _ _ (List.forall_iff_forall_mem.mp (by keep_host hostOps0_2))).trans (w2_arg8 m ρ c)
theorem w3_arg9 (c : Dev nD) : W3 m ρ c (Proc.devRef .tc main_arg9) = A9 m c :=
  (StableHlo.after_of_forall_not_mem (b := Proc.devRef .tc main_arg9) _ _ (List.forall_iff_forall_mem.mp (by keep_host hostOps0_2))).trans (w2_arg9 m ρ c)
theorem w3_v1 (c : Dev nD) : W3 m ρ c (Proc.devRef .tc main_v1) = SRC m c :=
  (StableHlo.after_of_forall_not_mem (b := Proc.devRef .tc main_v1) _ _ (List.forall_iff_forall_mem.mp (by keep_host hostOps0_2))).trans (w2_v1 m ρ c)
theorem w3_v3 (c : Dev nD) : W3 m ρ c (Proc.devRef .tc main_v3) = DST m c :=
  (StableHlo.after_of_forall_not_mem (b := Proc.devRef .tc main_v3) _ _ (List.forall_iff_forall_mem.mp (by keep_host hostOps0_2))).trans (w2_v3 m ρ c)
theorem w3_v5 (c : Dev nD) : W3 m ρ c (Proc.devRef .tc main_v5) = SL m c :=
  (StableHlo.after_of_forall_not_mem (b := Proc.devRef .tc main_v5) _ _ (List.forall_iff_forall_mem.mp (by keep_host hostOps0_2))).trans (w2_v5 m ρ c)
theorem w3_v6 (c : Dev nD) : W3 m ρ c (Proc.devRef .tc main_v6) = DL m c :=
  (StableHlo.after_of_forall_not_mem (b := Proc.devRef .tc main_v6) _ _ (List.forall_iff_forall_mem.mp (by keep_host hostOps0_2))).trans (w2_v6 m ρ c)

/-- The valuation still holds, on the buffers nothing writes after the prologue, what the prologue left there. -/
def _root_.Cert.KernelIdeal.Chain.Agrees (c : Dev nD) (W : Valuation τ sig (Elt Ideal)) : Prop :=
  ∀ b ∈ stable, W (Proc.devRef .tc b) = W3 m ρ c (Proc.devRef .tc b)

section
variable {m ρ} {c : Dev nD} {W W' : Valuation τ sig (Elt Ideal)}

theorem _root_.Cert.KernelIdeal.Chain.Agrees.step (h : Agrees m ρ c W) (hk : ∀ b ∈ stable, W' (Proc.devRef .tc b) = W (Proc.devRef .tc b)) :
    Agrees m ρ c W' := fun b hb => (hk b hb).trans (h b hb)

/-- A host stretch none of whose operations writes such a buffer keeps them all. -/
theorem _root_.Cert.KernelIdeal.Chain.Agrees.host (h : Agrees m ρ c W) (ops : List (HloOp τ sig (Elt Ideal)))
    (hk : stable.Forall fun b => ops.Forall fun op => Proc.devRef .tc b ∉ op.writes) : Agrees m ρ c (StableHlo.after ops W) :=
  h.step fun b hb => StableHlo.after_of_forall_not_mem _ _ (List.forall_iff_forall_mem.mp (List.forall_iff_forall_mem.mp hk b hb))

theorem _root_.Cert.KernelIdeal.Chain.Agrees.arg4 (h : Agrees m ρ c W) : W (Proc.devRef .tc main_arg4) = A4 m c := (h _ (by decide)).trans (w3_arg4 m ρ c)
theorem _root_.Cert.KernelIdeal.Chain.Agrees.arg5 (h : Agrees m ρ c W) : W (Proc.devRef .tc main_arg5) = A5 m c := (h _ (by decide)).trans (w3_arg5 m ρ c)
theorem _root_.Cert.KernelIdeal.Chain.Agrees.arg6 (h : Agrees m ρ c W) : W (Proc.devRef .tc main_arg6) = A6 m c := (h _ (by decide)).trans (w3_arg6 m ρ c)
theorem _root_.Cert.KernelIdeal.Chain.Agrees.arg7 (h : Agrees m ρ c W) : W (Proc.devRef .tc main_arg7) = A7 m c := (h _ (by decide)).trans (w3_arg7 m ρ c)
theorem _root_.Cert.KernelIdeal.Chain.Agrees.arg8 (h : Agrees m ρ c W) : W (Proc.devRef .tc main_arg8) = A8 m c := (h _ (by decide)).trans (w3_arg8 m ρ c)
theorem _root_.Cert.KernelIdeal.Chain.Agrees.arg9 (h : Agrees m ρ c W) : W (Proc.devRef .tc main_arg9) = A9 m c := (h _ (by decide)).trans (w3_arg9 m ρ c)
theorem _root_.Cert.KernelIdeal.Chain.Agrees.v1 (h : Agrees m ρ c W) : W (Proc.devRef .tc main_v1) = SRC m c := (h _ (by decide)).trans (w3_v1 m ρ c)
theorem _root_.Cert.KernelIdeal.Chain.Agrees.v3 (h : Agrees m ρ c W) : W (Proc.devRef .tc main_v3) = DST m c := (h _ (by decide)).trans (w3_v3 m ρ c)
theorem _root_.Cert.KernelIdeal.Chain.Agrees.v5 (h : Agrees m ρ c W) : W (Proc.devRef .tc main_v5) = SL m c := (h _ (by decide)).trans (w3_v5 m ρ c)
theorem _root_.Cert.KernelIdeal.Chain.Agrees.v6 (h : Agrees m ρ c W) : W (Proc.devRef .tc main_v6) = DL m c := (h _ (by decide)).trans (w3_v6 m ρ c)
theorem _root_.Cert.KernelIdeal.Chain.Agrees.v32 (h : Agrees m ρ c W) : W (Proc.devRef .tc main_v32) = WE m c := (h _ (by decide)).trans (w3_v32 m ρ c)
theorem _root_.Cert.KernelIdeal.Chain.Agrees.v37 (h : Agrees m ρ c W) : W (Proc.devRef .tc main_v37) = CN m c := (h _ (by decide)).trans (w3_v37 m ρ c)
end

theorem s3 (c : Dev nD) : Agrees m ρ c (W3 m ρ c) := fun _ _ => rfl

theorem s4 (c : Dev nD) : Agrees m ρ c (W4 m ρ c) := (s3 m ρ c).step fun b hb =>
  W4_of_ne m ρ c b (by revert b; decide)

theorem w4_v38 (c : Dev nD) : W4 m ρ c (Proc.devRef .tc main_v38) = X0 m c :=
  (W4_arr m ρ c 3).trans ((Region0.value (V3 m ρ) c).trans (congr3 (f := Cert.Spec.encode) (w3_arg0 m ρ c) (w3_arg2 m ρ c) (w3_arg3 m ρ c)))

end Cert.KernelIdeal.Chain.Pre

end
-- ==== Proof.KChainL0.lean ====
import proofs.«402353_j91190745629151_3_alg».proof.Proof.Gen.KernelIdeal.Frame
import proofs.«402353_j91190745629151_3_alg».proof.Proof.KVals
import proofs.«402353_j91190745629151_3_alg».proof.Proof.KHostL0
import proofs.«402353_j91190745629151_3_alg».proof.Proof.Region1
import proofs.«402353_j91190745629151_3_alg».proof.Proof.Region2
import proofs.«402353_j91190745629151_3_alg».proof.Proof.Region3
import proofs.«402353_j91190745629151_3_alg».proof.Proof.Region4
import proofs.«402353_j91190745629151_3_alg».proof.Proof.Region5
import proofs.«402353_j91190745629151_3_alg».proof.Proof.Region6
import proofs.«402353_j91190745629151_3_alg».proof.Proof.Region7
import proofs.«402353_j91190745629151_3_alg».proof.Proof.Region8
import proofs.«402353_j91190745629151_3_alg».proof.Proof.KChainPre

set_option maxRecDepth 16384

noncomputable section

namespace Cert.KernelIdeal.Chain.L0

open Cert.KernelIdeal Cert.KernelIdeal.Gen Cert.KernelIdeal.Graph Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

theorem s5 (c : Dev nD) : Agrees m ρ c (W5 m ρ c) := (Cert.KernelIdeal.Chain.Pre.s4 m ρ c).step fun b hb => by
  by_cases h : b = main_arg4
  · subst h; exact (W5_arr m ρ c 1).trans (((dat1 (V4 m ρ) c).arrAt_in 1 rfl _).trans (A_eq1 (V4 m ρ) c 1))
  · exact W5_of_ne m ρ c b (by revert b; decide)

theorem w5_v39 (c : Dev nD) : W5 m ρ c (Proc.devRef .tc main_v39) = L0.xw1 m c :=
  (W5_arr m ρ c 2).trans ((Region1.value (V4 m ρ) c).trans (congr2 (f := Cert.Spec.mm64) (Cert.KernelIdeal.Chain.Pre.w4_v38 m ρ c) (Cert.KernelIdeal.Chain.Pre.s4 m ρ c).arg4))
theorem w5_v38 (c : Dev nD) : W5 m ρ c (Proc.devRef .tc main_v38) = X0 m c :=
  ((W5_arr m ρ c 0).trans (((dat1 (V4 m ρ) c).arrAt_in 0 rfl _).trans (A_eq1 (V4 m ρ) c 0))).trans (Cert.KernelIdeal.Chain.Pre.w4_v38 m ρ c)

theorem s6 (c : Dev nD) : Agrees m ρ c (W6 m ρ c) := (s5 m ρ c).host hostOps2 (by keep_host hostOps2)

theorem w6_v46 (c : Dev nD) : W6 m ρ c (Proc.devRef .tc main_v46) = L0.g1 m c :=
  (HostL0.gatherConv (W5 m ρ c)).trans (congr2 (f := gatherE) (s5 m ρ c).v5 (w5_v39 m ρ c))
theorem w6_v38 (c : Dev nD) : W6 m ρ c (Proc.devRef .tc main_v38) = X0 m c :=
  (StableHlo.after_of_forall_not_mem (b := Proc.devRef .tc main_v38) _ _ (List.forall_iff_forall_mem.mp (by keep_host hostOps2))).trans (w5_v38 m ρ c)

theorem s7 (c : Dev nD) : Agrees m ρ c (W7 m ρ c) := (s6 m ρ c).step fun b hb => by
  by_cases h : b = main_v32
  · subst h; exact (W7_arr m ρ c 1).trans (((dat2 (V6 m ρ) c).arrAt_in 1 rfl _).trans (A_eq2 (V6 m ρ) c 1))
  · exact W7_of_ne m ρ c b (by revert b; decide)

theorem w7_v47 (c : Dev nD) : W7 m ρ c (Proc.devRef .tc main_v47) = L0.sc1 m c :=
  (W7_arr m ρ c 2).trans ((Region2.value (V6 m ρ) c).trans (congr2 (f := Cert.Spec.scale) (w6_v46 m ρ c) (s6 m ρ c).v32))
theorem w7_v38 (c : Dev nD) : W7 m ρ c (Proc.devRef .tc main_v38) = X0 m c :=
  (W7_of_ne m ρ c main_v38 (by decide)).trans (w6_v38 m ρ c)

theorem s8 (c : Dev nD) : Agrees m ρ c (W8 m ρ c) := (s7 m ρ c).host hostOps3 (by keep_host hostOps3)

theorem w8_v50 (c : Dev nD) : W8 m ρ c (Proc.devRef .tc main_v50) = L0.ag1 m c :=
  (HostL0.scatterConv (W7 m ρ c)).trans (congr2 (f := scatterE) (s7 m ρ c).v6 (w7_v47 m ρ c))
theorem w8_v38 (c : Dev nD) : W8 m ρ c (Proc.devRef .tc main_v38) = X0 m c :=
  (StableHlo.after_of_forall_not_mem (b := Proc.devRef .tc main_v38) _ _ (List.forall_iff_forall_mem.mp (by keep_host hostOps3))).trans (w7_v38 m ρ c)

theorem s9 (c : Dev nD) : Agrees m ρ c (W9 m ρ c) := (s8 m ρ c).step fun b hb => by
  by_cases h : b = main_arg5
  · subst h; exact (W9_arr m ρ c 1).trans (((dat3 (V8 m ρ) c).arrAt_in 1 rfl _).trans (A_eq3 (V8 m ρ) c 1))
  · exact W9_of_ne m ρ c b (by revert b; decide)

theorem w9_v51 (c : Dev nD) : W9 m ρ c (Proc.devRef .tc main_v51) = L0.c1 m c :=
  (W9_arr m ρ c 2).trans ((Region3.value (V8 m ρ) c).trans (congr2 (f := Cert.Spec.biasRelu) (w8_v50 m ρ c) (s8 m ρ c).arg5))
theorem w9_v38 (c : Dev nD) : W9 m ρ c (Proc.devRef .tc main_v38) = X0 m c :=
  (W9_of_ne m ρ c main_v38 (by decide)).trans (w8_v38 m ρ c)

theorem s10 (c : Dev nD) : Agrees m ρ c (W10 m ρ c) := (s9 m ρ c).step fun b hb => by
  by_cases h : b = main_arg6
  · subst h; exact (W10_arr m ρ c 1).trans (((dat4 (V9 m ρ) c).arrAt_in 1 rfl _).trans (A_eq4 (V9 m ρ) c 1))
  · exact W10_of_ne m ρ c b (by revert b; decide)

theorem w10_v52 (c : Dev nD) : W10 m ρ c (Proc.devRef .tc main_v52) = L0.xw2 m c :=
  (W10_arr m ρ c 2).trans ((Region4.value (V9 m ρ) c).trans (congr2 (f := Cert.Spec.mm64) (w9_v38 m ρ c) (s9 m ρ c).arg6))
theorem w10_v38 (c : Dev nD) : W10 m ρ c (Proc.devRef .tc main_v38) = X0 m c :=
  ((W10_arr m ρ c 0).trans (((dat4 (V9 m ρ) c).arrAt_in 0 rfl _).trans (A_eq4 (V9 m ρ) c 0))).trans (w9_v38 m ρ c)
theorem w10_v51 (c : Dev nD) : W10 m ρ c (Proc.devRef .tc main_v51) = L0.c1 m c :=
  (W10_of_ne m ρ c main_v51 (by decide)).trans (w9_v51 m ρ c)

theorem s11 (c : Dev nD) : Agrees m ρ c (W11 m ρ c) := (s10 m ρ c).host hostOps5 (by keep_host hostOps5)

theorem w11_v59 (c : Dev nD) : W11 m ρ c (Proc.devRef .tc main_v59) = L0.g2 m c :=
  (HostL0.gatherGate (W10 m ρ c)).trans (congr2 (f := gatherE) (s10 m ρ c).v5 (w10_v52 m ρ c))
theorem w11_v38 (c : Dev nD) : W11 m ρ c (Proc.devRef .tc main_v38) = X0 m c :=
  (StableHlo.after_of_forall_not_mem (b := Proc.devRef .tc main_v38) _ _ (List.forall_iff_forall_mem.mp (by keep_host hostOps5))).trans (w10_v38 m ρ c)
theorem w11_v51 (c : Dev nD) : W11 m ρ c (Proc.devRef .tc main_v51) = L0.c1 m c :=
  (StableHlo.after_of_forall_not_mem (b := Proc.devRef .tc main_v51) _ _ (List.forall_iff_forall_mem.mp (by keep_host hostOps5))).trans (w10_v51 m ρ c)

theorem s12 (c : Dev nD) : Agrees m ρ c (W12 m ρ c) := (s11 m ρ c).step fun b hb => by
  by_cases h : b = main_v32
  · subst h; exact (W12_arr m ρ c 1).trans (((dat5 (V11 m ρ) c).arrAt_in 1 rfl _).trans (A_eq5 (V11 m ρ) c 1))
  · exact W12_of_ne m ρ c b (by revert b; decide)

theorem w12_v60 (c : Dev nD) : W12 m ρ c (Proc.devRef .tc main_v60) = L0.sc2 m c :=
  (W12_arr m ρ c 2).trans ((Region5.value (V11 m ρ) c).trans (congr2 (f := Cert.Spec.scale) (w11_v59 m ρ c) (s11 m ρ c).v32))
theorem w12_v38 (c : Dev nD) : W12 m ρ c (Proc.devRef .tc main_v38) = X0 m c :=
  (W12_of_ne m ρ c main_v38 (by decide)).trans (w11_v38 m ρ c)
theorem w12_v51 (c : Dev nD) : W12 m ρ c (Proc.devRef .tc main_v51) = L0.c1 m c :=
  (W12_of_ne m ρ c main_v51 (by decide)).trans (w11_v51 m ρ c)

theorem s13 (c : Dev nD) : Agrees m ρ c (W13 m ρ c) := (s12 m ρ c).host hostOps6 (by keep_host hostOps6)

theorem w13_v63 (c : Dev nD) : W13 m ρ c (Proc.devRef .tc main_v63) = L0.ag2 m c :=
  (HostL0.scatterGate (W12 m ρ c)).trans (congr2 (f := scatterE) (s12 m ρ c).v6 (w12_v60 m ρ c))
theorem w13_v38 (c : Dev nD) : W13 m ρ c (Proc.devRef .tc main_v38) = X0 m c :=
  (StableHlo.after_of_forall_not_mem (b := Proc.devRef .tc main_v38) _ _ (List.forall_iff_forall_mem.mp (by keep_host hostOps6))).trans (w12_v38 m ρ c)
theorem w13_v51 (c : Dev nD) : W13 m ρ c (Proc.devRef .tc main_v51) = L0.c1 m c :=
  (StableHlo.after_of_forall_not_mem (b := Proc.devRef .tc main_v51) _ _ (List.forall_iff_forall_mem.mp (by keep_host hostOps6))).trans (w12_v51 m ρ c)

theorem s14 (c : Dev nD) : Agrees m ρ c (W14 m ρ c) := (s13 m ρ c).step fun b hb => by
  by_cases h : b = main_arg7
  · subst h; exact (W14_arr m ρ c 1).trans (((dat6 (V13 m ρ) c).arrAt_in 1 rfl _).trans (A_eq6 (V13 m ρ) c 1))
  · exact W14_of_ne m ρ c b (by revert b; decide)

theorem w14_v64 (c : Dev nD) : W14 m ρ c (Proc.devRef .tc main_v64) = L0.c2 m c :=
  (W14_arr m ρ c 2).trans ((Region6.value (V13 m ρ) c).trans (congr2 (f := Cert.Spec.biasRelu) (w13_v63 m ρ c) (s13 m ρ c).arg7))
theorem w14_v38 (c : Dev nD) : W14 m ρ c (Proc.devRef .tc main_v38) = X0 m c :=
  (W14_of_ne m ρ c main_v38 (by decide)).trans (w13_v38 m ρ c)
theorem w14_v51 (c : Dev nD) : W14 m ρ c (Proc.devRef .tc main_v51) = L0.c1 m c :=
  (W14_of_ne m ρ c main_v51 (by decide)).trans (w13_v51 m ρ c)

theorem s15 (c : Dev nD) : Agrees m ρ c (W15 m ρ c) := (s14 m ρ c).host hostOps7 (by keep_host hostOps7)

theorem w15_v71 (c : Dev nD) : W15 m ρ c (Proc.devRef .tc main_v71) = L0.ps m c :=
  (HostL0.gatherSrc (W14 m ρ c)).trans (congr2 (f := gatherS) (s14 m ρ c).v1 (w14_v64 m ρ c))
theorem w15_v78 (c : Dev nD) : W15 m ρ c (Proc.devRef .tc main_v78) = L0.pd m c :=
  (HostL0.gatherDst (W14 m ρ c)).trans (congr2 (f := gatherS) (s14 m ρ c).v3 (w14_v64 m ρ c))
theorem w15_v38 (c : Dev nD) : W15 m ρ c (Proc.devRef .tc main_v38) = X0 m c :=
  (StableHlo.after_of_forall_not_mem (b := Proc.devRef .tc main_v38) _ _ (List.forall_iff_forall_mem.mp (by keep_host hostOps7))).trans (w14_v38 m ρ c)
theorem w15_v51 (c : Dev nD) : W15 m ρ c (Proc.devRef .tc main_v51) = L0.c1 m c :=
  (StableHlo.after_of_forall_not_mem (b := Proc.devRef .tc main_v51) _ _ (List.forall_iff_forall_mem.mp (by keep_host hostOps7))).trans (w14_v51 m ρ c)

theorem s16 (c : Dev nD) : Agrees m ρ c (W16 m ρ c) := (s15 m ρ c).step fun b hb =>
  W16_of_ne m ρ c b (by revert b; decide)

theorem w16_v79 (c : Dev nD) : W16 m ρ c (Proc.devRef .tc main_v79) = L0.dq m c :=
  (W16_arr m ρ c 2).trans ((Region7.value (V15 m ρ) c).trans (congr2 (f := Cert.Spec.diffSq) (w15_v71 m ρ c) (w15_v78 m ρ c)))
theorem w16_v38 (c : Dev nD) : W16 m ρ c (Proc.devRef .tc main_v38) = X0 m c :=
  (W16_of_ne m ρ c main_v38 (by decide)).trans (w15_v38 m ρ c)
theorem w16_v51 (c : Dev nD) : W16 m ρ c (Proc.devRef .tc main_v51) = L0.c1 m c :=
  (W16_of_ne m ρ c main_v51 (by decide)).trans (w15_v51 m ρ c)

theorem s17 (c : Dev nD) : Agrees m ρ c (W17 m ρ c) := (s16 m ρ c).host hostOps8 (by keep_host hostOps8)

theorem w17_v82 (c : Dev nD) : W17 m ρ c (Proc.devRef .tc main_v82) = L0.sm m c :=
  (HostL0.scatterSrc (W16 m ρ c)).trans (congr2 (f := scatterS) (s16 m ρ c).v1 (w16_v79 m ρ c))
theorem w17_v38 (c : Dev nD) : W17 m ρ c (Proc.devRef .tc main_v38) = X0 m c :=
  (StableHlo.after_of_forall_not_mem (b := Proc.devRef .tc main_v38) _ _ (List.forall_iff_forall_mem.mp (by keep_host hostOps8))).trans (w16_v38 m ρ c)
theorem w17_v51 (c : Dev nD) : W17 m ρ c (Proc.devRef .tc main_v51) = L0.c1 m c :=
  (StableHlo.after_of_forall_not_mem (b := Proc.devRef .tc main_v51) _ _ (List.forall_iff_forall_mem.mp (by keep_host hostOps8))).trans (w16_v51 m ρ c)

theorem s18 (c : Dev nD) : Agrees m ρ c (W18 m ρ c) := (s17 m ρ c).step fun b hb => by
  by_cases h : b = main_v37
  · subst h; exact (W18_arr m ρ c 1).trans (((dat8 (V17 m ρ) c).arrAt_in 1 rfl _).trans (A_eq8 (V17 m ρ) c 1))
  · exact W18_of_ne m ρ c b (by revert b; decide)

theorem w18_v83 (c : Dev nD) : W18 m ρ c (Proc.devRef .tc main_v83) = L0.Xout m c :=
  (W18_arr m ρ c 4).trans ((Region8.value (V17 m ρ) c).trans (congr4 (f := Cert.Spec.gate) (w17_v82 m ρ c) (s17 m ρ c).v37 (w17_v38 m ρ c) (w17_v51 m ρ c)))

end Cert.KernelIdeal.Chain.L0

end
-- ==== Proof.KChainL1.lean ====
import proofs.«402353_j91190745629151_3_alg».proof.Proof.Gen.KernelIdeal.Frame
import proofs.«402353_j91190745629151_3_alg».proof.Proof.KVals
import proofs.«402353_j91190745629151_3_alg».proof.Proof.KHostL1
import proofs.«402353_j91190745629151_3_alg».proof.Proof.Region9
import proofs.«402353_j91190745629151_3_alg».proof.Proof.Region10
import proofs.«402353_j91190745629151_3_alg».proof.Proof.Region11
import proofs.«402353_j91190745629151_3_alg».proof.Proof.Region12
import proofs.«402353_j91190745629151_3_alg».proof.Proof.Region13
import proofs.«402353_j91190745629151_3_alg».proof.Proof.Region14
import proofs.«402353_j91190745629151_3_alg».proof.Proof.Region15
import proofs.«402353_j91190745629151_3_alg».proof.Proof.Region16
import proofs.«402353_j91190745629151_3_alg».proof.Proof.KChainL0

set_option maxRecDepth 16384

noncomputable section

namespace Cert.KernelIdeal.Chain.L1

open Cert.KernelIdeal Cert.KernelIdeal.Gen Cert.KernelIdeal.Graph Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

theorem s19 (c : Dev nD) : Agrees m ρ c (W19 m ρ c) := (Cert.KernelIdeal.Chain.L0.s18 m ρ c).step fun b hb => by
  by_cases h : b = main_arg4
  · subst h; exact (W19_arr m ρ c 1).trans (((dat9 (V18 m ρ) c).arrAt_in 1 rfl _).trans (A_eq9 (V18 m ρ) c 1))
  · exact W19_of_ne m ρ c b (by revert b; decide)

theorem w19_v84 (c : Dev nD) : W19 m ρ c (Proc.devRef .tc main_v84) = L1.xw1 m c :=
  (W19_arr m ρ c 2).trans ((Region9.value (V18 m ρ) c).trans (congr2 (f := Cert.Spec.mm64) (Cert.KernelIdeal.Chain.L0.w18_v83 m ρ c) (Cert.KernelIdeal.Chain.L0.s18 m ρ c).arg4))
theorem w19_v83 (c : Dev nD) : W19 m ρ c (Proc.devRef .tc main_v83) = L0.Xout m c :=
  ((W19_arr m ρ c 0).trans (((dat9 (V18 m ρ) c).arrAt_in 0 rfl _).trans (A_eq9 (V18 m ρ) c 0))).trans (Cert.KernelIdeal.Chain.L0.w18_v83 m ρ c)

theorem s20 (c : Dev nD) : Agrees m ρ c (W20 m ρ c) := (s19 m ρ c).host hostOps10 (by keep_host hostOps10)

theorem w20_v91 (c : Dev nD) : W20 m ρ c (Proc.devRef .tc main_v91) = L1.g1 m c :=
  (HostL1.gatherConv (W19 m ρ c)).trans (congr2 (f := gatherE) (s19 m ρ c).v5 (w19_v84 m ρ c))
theorem w20_v83 (c : Dev nD) : W20 m ρ c (Proc.devRef .tc main_v83) = L0.Xout m c :=
  (StableHlo.after_of_forall_not_mem (b := Proc.devRef .tc main_v83) _ _ (List.forall_iff_forall_mem.mp (by keep_host hostOps10))).trans (w19_v83 m ρ c)

theorem s21 (c : Dev nD) : Agrees m ρ c (W21 m ρ c) := (s20 m ρ c).step fun b hb => by
  by_cases h : b = main_v32
  · subst h; exact (W21_arr m ρ c 1).trans (((dat10 (V20 m ρ) c).arrAt_in 1 rfl _).trans (A_eq10 (V20 m ρ) c 1))
  · exact W21_of_ne m ρ c b (by revert b; decide)

theorem w21_v92 (c : Dev nD) : W21 m ρ c (Proc.devRef .tc main_v92) = L1.sc1 m c :=
  (W21_arr m ρ c 2).trans ((Region10.value (V20 m ρ) c).trans (congr2 (f := Cert.Spec.scale) (w20_v91 m ρ c) (s20 m ρ c).v32))
theorem w21_v83 (c : Dev nD) : W21 m ρ c (Proc.devRef .tc main_v83) = L0.Xout m c :=
  (W21_of_ne m ρ c main_v83 (by decide)).trans (w20_v83 m ρ c)

theorem s22 (c : Dev nD) : Agrees m ρ c (W22 m ρ c) := (s21 m ρ c).host hostOps11 (by keep_host hostOps11)

theorem w22_v95 (c : Dev nD) : W22 m ρ c (Proc.devRef .tc main_v95) = L1.ag1 m c :=
  (HostL1.scatterConv (W21 m ρ c)).trans (congr2 (f := scatterE) (s21 m ρ c).v6 (w21_v92 m ρ c))
theorem w22_v83 (c : Dev nD) : W22 m ρ c (Proc.devRef .tc main_v83) = L0.Xout m c :=
  (StableHlo.after_of_forall_not_mem (b := Proc.devRef .tc main_v83) _ _ (List.forall_iff_forall_mem.mp (by keep_host hostOps11))).trans (w21_v83 m ρ c)

theorem s23 (c : Dev nD) : Agrees m ρ c (W23 m ρ c) := (s22 m ρ c).step fun b hb => by
  by_cases h : b = main_arg5
  · subst h; exact (W23_arr m ρ c 1).trans (((dat11 (V22 m ρ) c).arrAt_in 1 rfl _).trans (A_eq11 (V22 m ρ) c 1))
  · exact W23_of_ne m ρ c b (by revert b; decide)

theorem w23_v96 (c : Dev nD) : W23 m ρ c (Proc.devRef .tc main_v96) = L1.c1 m c :=
  (W23_arr m ρ c 2).trans ((Region11.value (V22 m ρ) c).trans (congr2 (f := Cert.Spec.biasRelu) (w22_v95 m ρ c) (s22 m ρ c).arg5))
theorem w23_v83 (c : Dev nD) : W23 m ρ c (Proc.devRef .tc main_v83) = L0.Xout m c :=
  (W23_of_ne m ρ c main_v83 (by decide)).trans (w22_v83 m ρ c)

theorem s24 (c : Dev nD) : Agrees m ρ c (W24 m ρ c) := (s23 m ρ c).step fun b hb => by
  by_cases h : b = main_arg6
  · subst h; exact (W24_arr m ρ c 1).trans (((dat12 (V23 m ρ) c).arrAt_in 1 rfl _).trans (A_eq12 (V23 m ρ) c 1))
  · exact W24_of_ne m ρ c b (by revert b; decide)

theorem w24_v97 (c : Dev nD) : W24 m ρ c (Proc.devRef .tc main_v97) = L1.xw2 m c :=
  (W24_arr m ρ c 2).trans ((Region12.value (V23 m ρ) c).trans (congr2 (f := Cert.Spec.mm64) (w23_v83 m ρ c) (s23 m ρ c).arg6))
theorem w24_v83 (c : Dev nD) : W24 m ρ c (Proc.devRef .tc main_v83) = L0.Xout m c :=
  ((W24_arr m ρ c 0).trans (((dat12 (V23 m ρ) c).arrAt_in 0 rfl _).trans (A_eq12 (V23 m ρ) c 0))).trans (w23_v83 m ρ c)
theorem w24_v96 (c : Dev nD) : W24 m ρ c (Proc.devRef .tc main_v96) = L1.c1 m c :=
  (W24_of_ne m ρ c main_v96 (by decide)).trans (w23_v96 m ρ c)

theorem s25 (c : Dev nD) : Agrees m ρ c (W25 m ρ c) := (s24 m ρ c).host hostOps13 (by keep_host hostOps13)

theorem w25_v104 (c : Dev nD) : W25 m ρ c (Proc.devRef .tc main_v104) = L1.g2 m c :=
  (HostL1.gatherGate (W24 m ρ c)).trans (congr2 (f := gatherE) (s24 m ρ c).v5 (w24_v97 m ρ c))
theorem w25_v83 (c : Dev nD) : W25 m ρ c (Proc.devRef .tc main_v83) = L0.Xout m c :=
  (StableHlo.after_of_forall_not_mem (b := Proc.devRef .tc main_v83) _ _ (List.forall_iff_forall_mem.mp (by keep_host hostOps13))).trans (w24_v83 m ρ c)
theorem w25_v96 (c : Dev nD) : W25 m ρ c (Proc.devRef .tc main_v96) = L1.c1 m c :=
  (StableHlo.after_of_forall_not_mem (b := Proc.devRef .tc main_v96) _ _ (List.forall_iff_forall_mem.mp (by keep_host hostOps13))).trans (w24_v96 m ρ c)

theorem s26 (c : Dev nD) : Agrees m ρ c (W26 m ρ c) := (s25 m ρ c).step fun b hb => by
  by_cases h : b = main_v32
  · subst h; exact (W26_arr m ρ c 1).trans (((dat13 (V25 m ρ) c).arrAt_in 1 rfl _).trans (A_eq13 (V25 m ρ) c 1))
  · exact W26_of_ne m ρ c b (by revert b; decide)

theorem w26_v105 (c : Dev nD) : W26 m ρ c (Proc.devRef .tc main_v105) = L1.sc2 m c :=
  (W26_arr m ρ c 2).trans ((Region13.value (V25 m ρ) c).trans (congr2 (f := Cert.Spec.scale) (w25_v104 m ρ c) (s25 m ρ c).v32))
theorem w26_v83 (c : Dev nD) : W26 m ρ c (Proc.devRef .tc main_v83) = L0.Xout m c :=
  (W26_of_ne m ρ c main_v83 (by decide)).trans (w25_v83 m ρ c)
theorem w26_v96 (c : Dev nD) : W26 m ρ c (Proc.devRef .tc main_v96) = L1.c1 m c :=
  (W26_of_ne m ρ c main_v96 (by decide)).trans (w25_v96 m ρ c)

theorem s27 (c : Dev nD) : Agrees m ρ c (W27 m ρ c) := (s26 m ρ c).host hostOps14 (by keep_host hostOps14)

theorem w27_v108 (c : Dev nD) : W27 m ρ c (Proc.devRef .tc main_v108) = L1.ag2 m c :=
  (HostL1.scatterGate (W26 m ρ c)).trans (congr2 (f := scatterE) (s26 m ρ c).v6 (w26_v105 m ρ c))
theorem w27_v83 (c : Dev nD) : W27 m ρ c (Proc.devRef .tc main_v83) = L0.Xout m c :=
  (StableHlo.after_of_forall_not_mem (b := Proc.devRef .tc main_v83) _ _ (List.forall_iff_forall_mem.mp (by keep_host hostOps14))).trans (w26_v83 m ρ c)
theorem w27_v96 (c : Dev nD) : W27 m ρ c (Proc.devRef .tc main_v96) = L1.c1 m c :=
  (StableHlo.after_of_forall_not_mem (b := Proc.devRef .tc main_v96) _ _ (List.forall_iff_forall_mem.mp (by keep_host hostOps14))).trans (w26_v96 m ρ c)

theorem s28 (c : Dev nD) : Agrees m ρ c (W28 m ρ c) := (s27 m ρ c).step fun b hb => by
  by_cases h : b = main_arg7
  · subst h; exact (W28_arr m ρ c 1).trans (((dat14 (V27 m ρ) c).arrAt_in 1 rfl _).trans (A_eq14 (V27 m ρ) c 1))
  · exact W28_of_ne m ρ c b (by revert b; decide)

theorem w28_v109 (c : Dev nD) : W28 m ρ c (Proc.devRef .tc main_v109) = L1.c2 m c :=
  (W28_arr m ρ c 2).trans ((Region14.value (V27 m ρ) c).trans (congr2 (f := Cert.Spec.biasRelu) (w27_v108 m ρ c) (s27 m ρ c).arg7))
theorem w28_v83 (c : Dev nD) : W28 m ρ c (Proc.devRef .tc main_v83) = L0.Xout m c :=
  (W28_of_ne m ρ c main_v83 (by decide)).trans (w27_v83 m ρ c)
theorem w28_v96 (c : Dev nD) : W28 m ρ c (Proc.devRef .tc main_v96) = L1.c1 m c :=
  (W28_of_ne m ρ c main_v96 (by decide)).trans (w27_v96 m ρ c)

theorem s29 (c : Dev nD) : Agrees m ρ c (W29 m ρ c) := (s28 m ρ c).host hostOps15 (by keep_host hostOps15)

theorem w29_v116 (c : Dev nD) : W29 m ρ c (Proc.devRef .tc main_v116) = L1.ps m c :=
  (HostL1.gatherSrc (W28 m ρ c)).trans (congr2 (f := gatherS) (s28 m ρ c).v1 (w28_v109 m ρ c))
theorem w29_v123 (c : Dev nD) : W29 m ρ c (Proc.devRef .tc main_v123) = L1.pd m c :=
  (HostL1.gatherDst (W28 m ρ c)).trans (congr2 (f := gatherS) (s28 m ρ c).v3 (w28_v109 m ρ c))
theorem w29_v83 (c : Dev nD) : W29 m ρ c (Proc.devRef .tc main_v83) = L0.Xout m c :=
  (StableHlo.after_of_forall_not_mem (b := Proc.devRef .tc main_v83) _ _ (List.forall_iff_forall_mem.mp (by keep_host hostOps15))).trans (w28_v83 m ρ c)
theorem w29_v96 (c : Dev nD) : W29 m ρ c (Proc.devRef .tc main_v96) = L1.c1 m c :=
  (StableHlo.after_of_forall_not_mem (b := Proc.devRef .tc main_v96) _ _ (List.forall_iff_forall_mem.mp (by keep_host hostOps15))).trans (w28_v96 m ρ c)

theorem s30 (c : Dev nD) : Agrees m ρ c (W30 m ρ c) := (s29 m ρ c).step fun b hb =>
  W30_of_ne m ρ c b (by revert b; decide)

theorem w30_v124 (c : Dev nD) : W30 m ρ c (Proc.devRef .tc main_v124) = L1.dq m c :=
  (W30_arr m ρ c 2).trans ((Region15.value (V29 m ρ) c).trans (congr2 (f := Cert.Spec.diffSq) (w29_v116 m ρ c) (w29_v123 m ρ c)))
theorem w30_v83 (c : Dev nD) : W30 m ρ c (Proc.devRef .tc main_v83) = L0.Xout m c :=
  (W30_of_ne m ρ c main_v83 (by decide)).trans (w29_v83 m ρ c)
theorem w30_v96 (c : Dev nD) : W30 m ρ c (Proc.devRef .tc main_v96) = L1.c1 m c :=
  (W30_of_ne m ρ c main_v96 (by decide)).trans (w29_v96 m ρ c)

theorem s31 (c : Dev nD) : Agrees m ρ c (W31 m ρ c) := (s30 m ρ c).host hostOps16 (by keep_host hostOps16)

theorem w31_v127 (c : Dev nD) : W31 m ρ c (Proc.devRef .tc main_v127) = L1.sm m c :=
  (HostL1.scatterSrc (W30 m ρ c)).trans (congr2 (f := scatterS) (s30 m ρ c).v1 (w30_v124 m ρ c))
theorem w31_v83 (c : Dev nD) : W31 m ρ c (Proc.devRef .tc main_v83) = L0.Xout m c :=
  (StableHlo.after_of_forall_not_mem (b := Proc.devRef .tc main_v83) _ _ (List.forall_iff_forall_mem.mp (by keep_host hostOps16))).trans (w30_v83 m ρ c)
theorem w31_v96 (c : Dev nD) : W31 m ρ c (Proc.devRef .tc main_v96) = L1.c1 m c :=
  (StableHlo.after_of_forall_not_mem (b := Proc.devRef .tc main_v96) _ _ (List.forall_iff_forall_mem.mp (by keep_host hostOps16))).trans (w30_v96 m ρ c)

theorem s32 (c : Dev nD) : Agrees m ρ c (W32 m ρ c) := (s31 m ρ c).step fun b hb => by
  by_cases h : b = main_v37
  · subst h; exact (W32_arr m ρ c 1).trans (((dat16 (V31 m ρ) c).arrAt_in 1 rfl _).trans (A_eq16 (V31 m ρ) c 1))
  · exact W32_of_ne m ρ c b (by revert b; decide)

theorem w32_v128 (c : Dev nD) : W32 m ρ c (Proc.devRef .tc main_v128) = L1.Xout m c :=
  (W32_arr m ρ c 4).trans ((Region16.value (V31 m ρ) c).trans (congr4 (f := Cert.Spec.gate) (w31_v127 m ρ c) (s31 m ρ c).v37 (w31_v83 m ρ c) (w31_v96 m ρ c)))

end Cert.KernelIdeal.Chain.L1

end
-- ==== Proof.KChainL2.lean ====
import proofs.«402353_j91190745629151_3_alg».proof.Proof.Gen.KernelIdeal.Frame
import proofs.«402353_j91190745629151_3_alg».proof.Proof.KVals
import proofs.«402353_j91190745629151_3_alg».proof.Proof.KHostL2
import proofs.«402353_j91190745629151_3_alg».proof.Proof.Region17
import proofs.«402353_j91190745629151_3_alg».proof.Proof.Region18
import proofs.«402353_j91190745629151_3_alg».proof.Proof.Region19
import proofs.«402353_j91190745629151_3_alg».proof.Proof.Region20
import proofs.«402353_j91190745629151_3_alg».proof.Proof.Region21
import proofs.«402353_j91190745629151_3_alg».proof.Proof.Region22
import proofs.«402353_j91190745629151_3_alg».proof.Proof.Region23
import proofs.«402353_j91190745629151_3_alg».proof.Proof.Region24
import proofs.«402353_j91190745629151_3_alg».proof.Proof.KChainL1

set_option maxRecDepth 16384

noncomputable section

namespace Cert.KernelIdeal.Chain.L2

open Cert.KernelIdeal Cert.KernelIdeal.Gen Cert.KernelIdeal.Graph Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

theorem s33 (c : Dev nD) : Agrees m ρ c (W33 m ρ c) := (Cert.KernelIdeal.Chain.L1.s32 m ρ c).step fun b hb => by
  by_cases h : b = main_arg4
  · subst h; exact (W33_arr m ρ c 1).trans (((dat17 (V32 m ρ) c).arrAt_in 1 rfl _).trans (A_eq17 (V32 m ρ) c 1))
  · exact W33_of_ne m ρ c b (by revert b; decide)

theorem w33_v129 (c : Dev nD) : W33 m ρ c (Proc.devRef .tc main_v129) = L2.xw1 m c :=
  (W33_arr m ρ c 2).trans ((Region17.value (V32 m ρ) c).trans (congr2 (f := Cert.Spec.mm64) (Cert.KernelIdeal.Chain.L1.w32_v128 m ρ c) (Cert.KernelIdeal.Chain.L1.s32 m ρ c).arg4))
theorem w33_v128 (c : Dev nD) : W33 m ρ c (Proc.devRef .tc main_v128) = L1.Xout m c :=
  ((W33_arr m ρ c 0).trans (((dat17 (V32 m ρ) c).arrAt_in 0 rfl _).trans (A_eq17 (V32 m ρ) c 0))).trans (Cert.KernelIdeal.Chain.L1.w32_v128 m ρ c)

theorem s34 (c : Dev nD) : Agrees m ρ c (W34 m ρ c) := (s33 m ρ c).host hostOps18 (by keep_host hostOps18)

theorem w34_v136 (c : Dev nD) : W34 m ρ c (Proc.devRef .tc main_v136) = L2.g1 m c :=
  (HostL2.gatherConv (W33 m ρ c)).trans (congr2 (f := gatherE) (s33 m ρ c).v5 (w33_v129 m ρ c))
theorem w34_v128 (c : Dev nD) : W34 m ρ c (Proc.devRef .tc main_v128) = L1.Xout m c :=
  (StableHlo.after_of_forall_not_mem (b := Proc.devRef .tc main_v128) _ _ (List.forall_iff_forall_mem.mp (by keep_host hostOps18))).trans (w33_v128 m ρ c)

theorem s35 (c : Dev nD) : Agrees m ρ c (W35 m ρ c) := (s34 m ρ c).step fun b hb => by
  by_cases h : b = main_v32
  · subst h; exact (W35_arr m ρ c 1).trans (((dat18 (V34 m ρ) c).arrAt_in 1 rfl _).trans (A_eq18 (V34 m ρ) c 1))
  · exact W35_of_ne m ρ c b (by revert b; decide)

theorem w35_v137 (c : Dev nD) : W35 m ρ c (Proc.devRef .tc main_v137) = L2.sc1 m c :=
  (W35_arr m ρ c 2).trans ((Region18.value (V34 m ρ) c).trans (congr2 (f := Cert.Spec.scale) (w34_v136 m ρ c) (s34 m ρ c).v32))
theorem w35_v128 (c : Dev nD) : W35 m ρ c (Proc.devRef .tc main_v128) = L1.Xout m c :=
  (W35_of_ne m ρ c main_v128 (by decide)).trans (w34_v128 m ρ c)

theorem s36 (c : Dev nD) : Agrees m ρ c (W36 m ρ c) := (s35 m ρ c).host hostOps19 (by keep_host hostOps19)

theorem w36_v140 (c : Dev nD) : W36 m ρ c (Proc.devRef .tc main_v140) = L2.ag1 m c :=
  (HostL2.scatterConv (W35 m ρ c)).trans (congr2 (f := scatterE) (s35 m ρ c).v6 (w35_v137 m ρ c))
theorem w36_v128 (c : Dev nD) : W36 m ρ c (Proc.devRef .tc main_v128) = L1.Xout m c :=
  (StableHlo.after_of_forall_not_mem (b := Proc.devRef .tc main_v128) _ _ (List.forall_iff_forall_mem.mp (by keep_host hostOps19))).trans (w35_v128 m ρ c)

theorem s37 (c : Dev nD) : Agrees m ρ c (W37 m ρ c) := (s36 m ρ c).step fun b hb => by
  by_cases h : b = main_arg5
  · subst h; exact (W37_arr m ρ c 1).trans (((dat19 (V36 m ρ) c).arrAt_in 1 rfl _).trans (A_eq19 (V36 m ρ) c 1))
  · exact W37_of_ne m ρ c b (by revert b; decide)

theorem w37_v141 (c : Dev nD) : W37 m ρ c (Proc.devRef .tc main_v141) = L2.c1 m c :=
  (W37_arr m ρ c 2).trans ((Region19.value (V36 m ρ) c).trans (congr2 (f := Cert.Spec.biasRelu) (w36_v140 m ρ c) (s36 m ρ c).arg5))
theorem w37_v128 (c : Dev nD) : W37 m ρ c (Proc.devRef .tc main_v128) = L1.Xout m c :=
  (W37_of_ne m ρ c main_v128 (by decide)).trans (w36_v128 m ρ c)

theorem s38 (c : Dev nD) : Agrees m ρ c (W38 m ρ c) := (s37 m ρ c).step fun b hb => by
  by_cases h : b = main_arg6
  · subst h; exact (W38_arr m ρ c 1).trans (((dat20 (V37 m ρ) c).arrAt_in 1 rfl _).trans (A_eq20 (V37 m ρ) c 1))
  · exact W38_of_ne m ρ c b (by revert b; decide)

theorem w38_v142 (c : Dev nD) : W38 m ρ c (Proc.devRef .tc main_v142) = L2.xw2 m c :=
  (W38_arr m ρ c 2).trans ((Region20.value (V37 m ρ) c).trans (congr2 (f := Cert.Spec.mm64) (w37_v128 m ρ c) (s37 m ρ c).arg6))
theorem w38_v128 (c : Dev nD) : W38 m ρ c (Proc.devRef .tc main_v128) = L1.Xout m c :=
  ((W38_arr m ρ c 0).trans (((dat20 (V37 m ρ) c).arrAt_in 0 rfl _).trans (A_eq20 (V37 m ρ) c 0))).trans (w37_v128 m ρ c)
theorem w38_v141 (c : Dev nD) : W38 m ρ c (Proc.devRef .tc main_v141) = L2.c1 m c :=
  (W38_of_ne m ρ c main_v141 (by decide)).trans (w37_v141 m ρ c)

theorem s39 (c : Dev nD) : Agrees m ρ c (W39 m ρ c) := (s38 m ρ c).host hostOps21 (by keep_host hostOps21)

theorem w39_v149 (c : Dev nD) : W39 m ρ c (Proc.devRef .tc main_v149) = L2.g2 m c :=
  (HostL2.gatherGate (W38 m ρ c)).trans (congr2 (f := gatherE) (s38 m ρ c).v5 (w38_v142 m ρ c))
theorem w39_v128 (c : Dev nD) : W39 m ρ c (Proc.devRef .tc main_v128) = L1.Xout m c :=
  (StableHlo.after_of_forall_not_mem (b := Proc.devRef .tc main_v128) _ _ (List.forall_iff_forall_mem.mp (by keep_host hostOps21))).trans (w38_v128 m ρ c)
theorem w39_v141 (c : Dev nD) : W39 m ρ c (Proc.devRef .tc main_v141) = L2.c1 m c :=
  (StableHlo.after_of_forall_not_mem (b := Proc.devRef .tc main_v141) _ _ (List.forall_iff_forall_mem.mp (by keep_host hostOps21))).trans (w38_v141 m ρ c)

theorem s40 (c : Dev nD) : Agrees m ρ c (W40 m ρ c) := (s39 m ρ c).step fun b hb => by
  by_cases h : b = main_v32
  · subst h; exact (W40_arr m ρ c 1).trans (((dat21 (V39 m ρ) c).arrAt_in 1 rfl _).trans (A_eq21 (V39 m ρ) c 1))
  · exact W40_of_ne m ρ c b (by revert b; decide)

theorem w40_v150 (c : Dev nD) : W40 m ρ c (Proc.devRef .tc main_v150) = L2.sc2 m c :=
  (W40_arr m ρ c 2).trans ((Region21.value (V39 m ρ) c).trans (congr2 (f := Cert.Spec.scale) (w39_v149 m ρ c) (s39 m ρ c).v32))
theorem w40_v128 (c : Dev nD) : W40 m ρ c (Proc.devRef .tc main_v128) = L1.Xout m c :=
  (W40_of_ne m ρ c main_v128 (by decide)).trans (w39_v128 m ρ c)
theorem w40_v141 (c : Dev nD) : W40 m ρ c (Proc.devRef .tc main_v141) = L2.c1 m c :=
  (W40_of_ne m ρ c main_v141 (by decide)).trans (w39_v141 m ρ c)

theorem s41 (c : Dev nD) : Agrees m ρ c (W41 m ρ c) := (s40 m ρ c).host hostOps22 (by keep_host hostOps22)

theorem w41_v153 (c : Dev nD) : W41 m ρ c (Proc.devRef .tc main_v153) = L2.ag2 m c :=
  (HostL2.scatterGate (W40 m ρ c)).trans (congr2 (f := scatterE) (s40 m ρ c).v6 (w40_v150 m ρ c))
theorem w41_v128 (c : Dev nD) : W41 m ρ c (Proc.devRef .tc main_v128) = L1.Xout m c :=
  (StableHlo.after_of_forall_not_mem (b := Proc.devRef .tc main_v128) _ _ (List.forall_iff_forall_mem.mp (by keep_host hostOps22))).trans (w40_v128 m ρ c)
theorem w41_v141 (c : Dev nD) : W41 m ρ c (Proc.devRef .tc main_v141) = L2.c1 m c :=
  (StableHlo.after_of_forall_not_mem (b := Proc.devRef .tc main_v141) _ _ (List.forall_iff_forall_mem.mp (by keep_host hostOps22))).trans (w40_v141 m ρ c)

theorem s42 (c : Dev nD) : Agrees m ρ c (W42 m ρ c) := (s41 m ρ c).step fun b hb => by
  by_cases h : b = main_arg7
  · subst h; exact (W42_arr m ρ c 1).trans (((dat22 (V41 m ρ) c).arrAt_in 1 rfl _).trans (A_eq22 (V41 m ρ) c 1))
  · exact W42_of_ne m ρ c b (by revert b; decide)

theorem w42_v154 (c : Dev nD) : W42 m ρ c (Proc.devRef .tc main_v154) = L2.c2 m c :=
  (W42_arr m ρ c 2).trans ((Region22.value (V41 m ρ) c).trans (congr2 (f := Cert.Spec.biasRelu) (w41_v153 m ρ c) (s41 m ρ c).arg7))
theorem w42_v128 (c : Dev nD) : W42 m ρ c (Proc.devRef .tc main_v128) = L1.Xout m c :=
  (W42_of_ne m ρ c main_v128 (by decide)).trans (w41_v128 m ρ c)
theorem w42_v141 (c : Dev nD) : W42 m ρ c (Proc.devRef .tc main_v141) = L2.c1 m c :=
  (W42_of_ne m ρ c main_v141 (by decide)).trans (w41_v141 m ρ c)

theorem s43 (c : Dev nD) : Agrees m ρ c (W43 m ρ c) := (s42 m ρ c).host hostOps23 (by keep_host hostOps23)

theorem w43_v161 (c : Dev nD) : W43 m ρ c (Proc.devRef .tc main_v161) = L2.ps m c :=
  (HostL2.gatherSrc (W42 m ρ c)).trans (congr2 (f := gatherS) (s42 m ρ c).v1 (w42_v154 m ρ c))
theorem w43_v168 (c : Dev nD) : W43 m ρ c (Proc.devRef .tc main_v168) = L2.pd m c :=
  (HostL2.gatherDst (W42 m ρ c)).trans (congr2 (f := gatherS) (s42 m ρ c).v3 (w42_v154 m ρ c))
theorem w43_v128 (c : Dev nD) : W43 m ρ c (Proc.devRef .tc main_v128) = L1.Xout m c :=
  (StableHlo.after_of_forall_not_mem (b := Proc.devRef .tc main_v128) _ _ (List.forall_iff_forall_mem.mp (by keep_host hostOps23))).trans (w42_v128 m ρ c)
theorem w43_v141 (c : Dev nD) : W43 m ρ c (Proc.devRef .tc main_v141) = L2.c1 m c :=
  (StableHlo.after_of_forall_not_mem (b := Proc.devRef .tc main_v141) _ _ (List.forall_iff_forall_mem.mp (by keep_host hostOps23))).trans (w42_v141 m ρ c)

theorem s44 (c : Dev nD) : Agrees m ρ c (W44 m ρ c) := (s43 m ρ c).step fun b hb =>
  W44_of_ne m ρ c b (by revert b; decide)

theorem w44_v169 (c : Dev nD) : W44 m ρ c (Proc.devRef .tc main_v169) = L2.dq m c :=
  (W44_arr m ρ c 2).trans ((Region23.value (V43 m ρ) c).trans (congr2 (f := Cert.Spec.diffSq) (w43_v161 m ρ c) (w43_v168 m ρ c)))
theorem w44_v128 (c : Dev nD) : W44 m ρ c (Proc.devRef .tc main_v128) = L1.Xout m c :=
  (W44_of_ne m ρ c main_v128 (by decide)).trans (w43_v128 m ρ c)
theorem w44_v141 (c : Dev nD) : W44 m ρ c (Proc.devRef .tc main_v141) = L2.c1 m c :=
  (W44_of_ne m ρ c main_v141 (by decide)).trans (w43_v141 m ρ c)

theorem s45 (c : Dev nD) : Agrees m ρ c (W45 m ρ c) := (s44 m ρ c).host hostOps24 (by keep_host hostOps24)

theorem w45_v172 (c : Dev nD) : W45 m ρ c (Proc.devRef .tc main_v172) = L2.sm m c :=
  (HostL2.scatterSrc (W44 m ρ c)).trans (congr2 (f := scatterS) (s44 m ρ c).v1 (w44_v169 m ρ c))
theorem w45_v128 (c : Dev nD) : W45 m ρ c (Proc.devRef .tc main_v128) = L1.Xout m c :=
  (StableHlo.after_of_forall_not_mem (b := Proc.devRef .tc main_v128) _ _ (List.forall_iff_forall_mem.mp (by keep_host hostOps24))).trans (w44_v128 m ρ c)
theorem w45_v141 (c : Dev nD) : W45 m ρ c (Proc.devRef .tc main_v141) = L2.c1 m c :=
  (StableHlo.after_of_forall_not_mem (b := Proc.devRef .tc main_v141) _ _ (List.forall_iff_forall_mem.mp (by keep_host hostOps24))).trans (w44_v141 m ρ c)

theorem s46 (c : Dev nD) : Agrees m ρ c (W46 m ρ c) := (s45 m ρ c).step fun b hb => by
  by_cases h : b = main_v37
  · subst h; exact (W46_arr m ρ c 1).trans (((dat24 (V45 m ρ) c).arrAt_in 1 rfl _).trans (A_eq24 (V45 m ρ) c 1))
  · exact W46_of_ne m ρ c b (by revert b; decide)

theorem w46_v173 (c : Dev nD) : W46 m ρ c (Proc.devRef .tc main_v173) = L2.Xout m c :=
  (W46_arr m ρ c 4).trans ((Region24.value (V45 m ρ) c).trans (congr4 (f := Cert.Spec.gate) (w45_v172 m ρ c) (s45 m ρ c).v37 (w45_v128 m ρ c) (w45_v141 m ρ c)))

end Cert.KernelIdeal.Chain.L2

end
-- ==== Proof.KChainL3.lean ====
import proofs.«402353_j91190745629151_3_alg».proof.Proof.Gen.KernelIdeal.Frame
import proofs.«402353_j91190745629151_3_alg».proof.Proof.KVals
import proofs.«402353_j91190745629151_3_alg».proof.Proof.KHostL3
import proofs.«402353_j91190745629151_3_alg».proof.Proof.Region25
import proofs.«402353_j91190745629151_3_alg».proof.Proof.Region26
import proofs.«402353_j91190745629151_3_alg».proof.Proof.Region27
import proofs.«402353_j91190745629151_3_alg».proof.Proof.Region28
import proofs.«402353_j91190745629151_3_alg».proof.Proof.Region29
import proofs.«402353_j91190745629151_3_alg».proof.Proof.Region30
import proofs.«402353_j91190745629151_3_alg».proof.Proof.Region31
import proofs.«402353_j91190745629151_3_alg».proof.Proof.Region32
import proofs.«402353_j91190745629151_3_alg».proof.Proof.KChainL2

set_option maxRecDepth 16384

noncomputable section

namespace Cert.KernelIdeal.Chain.L3

open Cert.KernelIdeal Cert.KernelIdeal.Gen Cert.KernelIdeal.Graph Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

theorem s47 (c : Dev nD) : Agrees m ρ c (W47 m ρ c) := (Cert.KernelIdeal.Chain.L2.s46 m ρ c).step fun b hb => by
  by_cases h : b = main_arg4
  · subst h; exact (W47_arr m ρ c 1).trans (((dat25 (V46 m ρ) c).arrAt_in 1 rfl _).trans (A_eq25 (V46 m ρ) c 1))
  · exact W47_of_ne m ρ c b (by revert b; decide)

theorem w47_v174 (c : Dev nD) : W47 m ρ c (Proc.devRef .tc main_v174) = L3.xw1 m c :=
  (W47_arr m ρ c 2).trans ((Region25.value (V46 m ρ) c).trans (congr2 (f := Cert.Spec.mm64) (Cert.KernelIdeal.Chain.L2.w46_v173 m ρ c) (Cert.KernelIdeal.Chain.L2.s46 m ρ c).arg4))
theorem w47_v173 (c : Dev nD) : W47 m ρ c (Proc.devRef .tc main_v173) = L2.Xout m c :=
  ((W47_arr m ρ c 0).trans (((dat25 (V46 m ρ) c).arrAt_in 0 rfl _).trans (A_eq25 (V46 m ρ) c 0))).trans (Cert.KernelIdeal.Chain.L2.w46_v173 m ρ c)

theorem s48 (c : Dev nD) : Agrees m ρ c (W48 m ρ c) := (s47 m ρ c).host hostOps26 (by keep_host hostOps26)

theorem w48_v181 (c : Dev nD) : W48 m ρ c (Proc.devRef .tc main_v181) = L3.g1 m c :=
  (HostL3.gatherConv (W47 m ρ c)).trans (congr2 (f := gatherE) (s47 m ρ c).v5 (w47_v174 m ρ c))
theorem w48_v173 (c : Dev nD) : W48 m ρ c (Proc.devRef .tc main_v173) = L2.Xout m c :=
  (StableHlo.after_of_forall_not_mem (b := Proc.devRef .tc main_v173) _ _ (List.forall_iff_forall_mem.mp (by keep_host hostOps26))).trans (w47_v173 m ρ c)

theorem s49 (c : Dev nD) : Agrees m ρ c (W49 m ρ c) := (s48 m ρ c).step fun b hb => by
  by_cases h : b = main_v32
  · subst h; exact (W49_arr m ρ c 1).trans (((dat26 (V48 m ρ) c).arrAt_in 1 rfl _).trans (A_eq26 (V48 m ρ) c 1))
  · exact W49_of_ne m ρ c b (by revert b; decide)

theorem w49_v182 (c : Dev nD) : W49 m ρ c (Proc.devRef .tc main_v182) = L3.sc1 m c :=
  (W49_arr m ρ c 2).trans ((Region26.value (V48 m ρ) c).trans (congr2 (f := Cert.Spec.scale) (w48_v181 m ρ c) (s48 m ρ c).v32))
theorem w49_v173 (c : Dev nD) : W49 m ρ c (Proc.devRef .tc main_v173) = L2.Xout m c :=
  (W49_of_ne m ρ c main_v173 (by decide)).trans (w48_v173 m ρ c)

theorem s50 (c : Dev nD) : Agrees m ρ c (W50 m ρ c) := (s49 m ρ c).host hostOps27 (by keep_host hostOps27)

theorem w50_v185 (c : Dev nD) : W50 m ρ c (Proc.devRef .tc main_v185) = L3.ag1 m c :=
  (HostL3.scatterConv (W49 m ρ c)).trans (congr2 (f := scatterE) (s49 m ρ c).v6 (w49_v182 m ρ c))
theorem w50_v173 (c : Dev nD) : W50 m ρ c (Proc.devRef .tc main_v173) = L2.Xout m c :=
  (StableHlo.after_of_forall_not_mem (b := Proc.devRef .tc main_v173) _ _ (List.forall_iff_forall_mem.mp (by keep_host hostOps27))).trans (w49_v173 m ρ c)

theorem s51 (c : Dev nD) : Agrees m ρ c (W51 m ρ c) := (s50 m ρ c).step fun b hb => by
  by_cases h : b = main_arg5
  · subst h; exact (W51_arr m ρ c 1).trans (((dat27 (V50 m ρ) c).arrAt_in 1 rfl _).trans (A_eq27 (V50 m ρ) c 1))
  · exact W51_of_ne m ρ c b (by revert b; decide)

theorem w51_v186 (c : Dev nD) : W51 m ρ c (Proc.devRef .tc main_v186) = L3.c1 m c :=
  (W51_arr m ρ c 2).trans ((Region27.value (V50 m ρ) c).trans (congr2 (f := Cert.Spec.biasRelu) (w50_v185 m ρ c) (s50 m ρ c).arg5))
theorem w51_v173 (c : Dev nD) : W51 m ρ c (Proc.devRef .tc main_v173) = L2.Xout m c :=
  (W51_of_ne m ρ c main_v173 (by decide)).trans (w50_v173 m ρ c)

theorem s52 (c : Dev nD) : Agrees m ρ c (W52 m ρ c) := (s51 m ρ c).step fun b hb => by
  by_cases h : b = main_arg6
  · subst h; exact (W52_arr m ρ c 1).trans (((dat28 (V51 m ρ) c).arrAt_in 1 rfl _).trans (A_eq28 (V51 m ρ) c 1))
  · exact W52_of_ne m ρ c b (by revert b; decide)

theorem w52_v187 (c : Dev nD) : W52 m ρ c (Proc.devRef .tc main_v187) = L3.xw2 m c :=
  (W52_arr m ρ c 2).trans ((Region28.value (V51 m ρ) c).trans (congr2 (f := Cert.Spec.mm64) (w51_v173 m ρ c) (s51 m ρ c).arg6))
theorem w52_v173 (c : Dev nD) : W52 m ρ c (Proc.devRef .tc main_v173) = L2.Xout m c :=
  ((W52_arr m ρ c 0).trans (((dat28 (V51 m ρ) c).arrAt_in 0 rfl _).trans (A_eq28 (V51 m ρ) c 0))).trans (w51_v173 m ρ c)
theorem w52_v186 (c : Dev nD) : W52 m ρ c (Proc.devRef .tc main_v186) = L3.c1 m c :=
  (W52_of_ne m ρ c main_v186 (by decide)).trans (w51_v186 m ρ c)

theorem s53 (c : Dev nD) : Agrees m ρ c (W53 m ρ c) := (s52 m ρ c).host hostOps29 (by keep_host hostOps29)

theorem w53_v194 (c : Dev nD) : W53 m ρ c (Proc.devRef .tc main_v194) = L3.g2 m c :=
  (HostL3.gatherGate (W52 m ρ c)).trans (congr2 (f := gatherE) (s52 m ρ c).v5 (w52_v187 m ρ c))
theorem w53_v173 (c : Dev nD) : W53 m ρ c (Proc.devRef .tc main_v173) = L2.Xout m c :=
  (StableHlo.after_of_forall_not_mem (b := Proc.devRef .tc main_v173) _ _ (List.forall_iff_forall_mem.mp (by keep_host hostOps29))).trans (w52_v173 m ρ c)
theorem w53_v186 (c : Dev nD) : W53 m ρ c (Proc.devRef .tc main_v186) = L3.c1 m c :=
  (StableHlo.after_of_forall_not_mem (b := Proc.devRef .tc main_v186) _ _ (List.forall_iff_forall_mem.mp (by keep_host hostOps29))).trans (w52_v186 m ρ c)

theorem s54 (c : Dev nD) : Agrees m ρ c (W54 m ρ c) := (s53 m ρ c).step fun b hb => by
  by_cases h : b = main_v32
  · subst h; exact (W54_arr m ρ c 1).trans (((dat29 (V53 m ρ) c).arrAt_in 1 rfl _).trans (A_eq29 (V53 m ρ) c 1))
  · exact W54_of_ne m ρ c b (by revert b; decide)

theorem w54_v195 (c : Dev nD) : W54 m ρ c (Proc.devRef .tc main_v195) = L3.sc2 m c :=
  (W54_arr m ρ c 2).trans ((Region29.value (V53 m ρ) c).trans (congr2 (f := Cert.Spec.scale) (w53_v194 m ρ c) (s53 m ρ c).v32))
theorem w54_v173 (c : Dev nD) : W54 m ρ c (Proc.devRef .tc main_v173) = L2.Xout m c :=
  (W54_of_ne m ρ c main_v173 (by decide)).trans (w53_v173 m ρ c)
theorem w54_v186 (c : Dev nD) : W54 m ρ c (Proc.devRef .tc main_v186) = L3.c1 m c :=
  (W54_of_ne m ρ c main_v186 (by decide)).trans (w53_v186 m ρ c)

theorem s55 (c : Dev nD) : Agrees m ρ c (W55 m ρ c) := (s54 m ρ c).host hostOps30 (by keep_host hostOps30)

theorem w55_v198 (c : Dev nD) : W55 m ρ c (Proc.devRef .tc main_v198) = L3.ag2 m c :=
  (HostL3.scatterGate (W54 m ρ c)).trans (congr2 (f := scatterE) (s54 m ρ c).v6 (w54_v195 m ρ c))
theorem w55_v173 (c : Dev nD) : W55 m ρ c (Proc.devRef .tc main_v173) = L2.Xout m c :=
  (StableHlo.after_of_forall_not_mem (b := Proc.devRef .tc main_v173) _ _ (List.forall_iff_forall_mem.mp (by keep_host hostOps30))).trans (w54_v173 m ρ c)
theorem w55_v186 (c : Dev nD) : W55 m ρ c (Proc.devRef .tc main_v186) = L3.c1 m c :=
  (StableHlo.after_of_forall_not_mem (b := Proc.devRef .tc main_v186) _ _ (List.forall_iff_forall_mem.mp (by keep_host hostOps30))).trans (w54_v186 m ρ c)

theorem s56 (c : Dev nD) : Agrees m ρ c (W56 m ρ c) := (s55 m ρ c).step fun b hb => by
  by_cases h : b = main_arg7
  · subst h; exact (W56_arr m ρ c 1).trans (((dat30 (V55 m ρ) c).arrAt_in 1 rfl _).trans (A_eq30 (V55 m ρ) c 1))
  · exact W56_of_ne m ρ c b (by revert b; decide)

theorem w56_v199 (c : Dev nD) : W56 m ρ c (Proc.devRef .tc main_v199) = L3.c2 m c :=
  (W56_arr m ρ c 2).trans ((Region30.value (V55 m ρ) c).trans (congr2 (f := Cert.Spec.biasRelu) (w55_v198 m ρ c) (s55 m ρ c).arg7))
theorem w56_v173 (c : Dev nD) : W56 m ρ c (Proc.devRef .tc main_v173) = L2.Xout m c :=
  (W56_of_ne m ρ c main_v173 (by decide)).trans (w55_v173 m ρ c)
theorem w56_v186 (c : Dev nD) : W56 m ρ c (Proc.devRef .tc main_v186) = L3.c1 m c :=
  (W56_of_ne m ρ c main_v186 (by decide)).trans (w55_v186 m ρ c)

theorem s57 (c : Dev nD) : Agrees m ρ c (W57 m ρ c) := (s56 m ρ c).host hostOps31 (by keep_host hostOps31)

theorem w57_v206 (c : Dev nD) : W57 m ρ c (Proc.devRef .tc main_v206) = L3.ps m c :=
  (HostL3.gatherSrc (W56 m ρ c)).trans (congr2 (f := gatherS) (s56 m ρ c).v1 (w56_v199 m ρ c))
theorem w57_v213 (c : Dev nD) : W57 m ρ c (Proc.devRef .tc main_v213) = L3.pd m c :=
  (HostL3.gatherDst (W56 m ρ c)).trans (congr2 (f := gatherS) (s56 m ρ c).v3 (w56_v199 m ρ c))
theorem w57_v173 (c : Dev nD) : W57 m ρ c (Proc.devRef .tc main_v173) = L2.Xout m c :=
  (StableHlo.after_of_forall_not_mem (b := Proc.devRef .tc main_v173) _ _ (List.forall_iff_forall_mem.mp (by keep_host hostOps31))).trans (w56_v173 m ρ c)
theorem w57_v186 (c : Dev nD) : W57 m ρ c (Proc.devRef .tc main_v186) = L3.c1 m c :=
  (StableHlo.after_of_forall_not_mem (b := Proc.devRef .tc main_v186) _ _ (List.forall_iff_forall_mem.mp (by keep_host hostOps31))).trans (w56_v186 m ρ c)

theorem s58 (c : Dev nD) : Agrees m ρ c (W58 m ρ c) := (s57 m ρ c).step fun b hb =>
  W58_of_ne m ρ c b (by revert b; decide)

theorem w58_v214 (c : Dev nD) : W58 m ρ c (Proc.devRef .tc main_v214) = L3.dq m c :=
  (W58_arr m ρ c 2).trans ((Region31.value (V57 m ρ) c).trans (congr2 (f := Cert.Spec.diffSq) (w57_v206 m ρ c) (w57_v213 m ρ c)))
theorem w58_v173 (c : Dev nD) : W58 m ρ c (Proc.devRef .tc main_v173) = L2.Xout m c :=
  (W58_of_ne m ρ c main_v173 (by decide)).trans (w57_v173 m ρ c)
theorem w58_v186 (c : Dev nD) : W58 m ρ c (Proc.devRef .tc main_v186) = L3.c1 m c :=
  (W58_of_ne m ρ c main_v186 (by decide)).trans (w57_v186 m ρ c)

theorem s59 (c : Dev nD) : Agrees m ρ c (W59 m ρ c) := (s58 m ρ c).host hostOps32 (by keep_host hostOps32)

theorem w59_v217 (c : Dev nD) : W59 m ρ c (Proc.devRef .tc main_v217) = L3.sm m c :=
  (HostL3.scatterSrc (W58 m ρ c)).trans (congr2 (f := scatterS) (s58 m ρ c).v1 (w58_v214 m ρ c))
theorem w59_v173 (c : Dev nD) : W59 m ρ c (Proc.devRef .tc main_v173) = L2.Xout m c :=
  (StableHlo.after_of_forall_not_mem (b := Proc.devRef .tc main_v173) _ _ (List.forall_iff_forall_mem.mp (by keep_host hostOps32))).trans (w58_v173 m ρ c)
theorem w59_v186 (c : Dev nD) : W59 m ρ c (Proc.devRef .tc main_v186) = L3.c1 m c :=
  (StableHlo.after_of_forall_not_mem (b := Proc.devRef .tc main_v186) _ _ (List.forall_iff_forall_mem.mp (by keep_host hostOps32))).trans (w58_v186 m ρ c)

theorem s60 (c : Dev nD) : Agrees m ρ c (W60 m ρ c) := (s59 m ρ c).step fun b hb => by
  by_cases h : b = main_v37
  · subst h; exact (W60_arr m ρ c 1).trans (((dat32 (V59 m ρ) c).arrAt_in 1 rfl _).trans (A_eq32 (V59 m ρ) c 1))
  · exact W60_of_ne m ρ c b (by revert b; decide)

theorem w60_v218 (c : Dev nD) : W60 m ρ c (Proc.devRef .tc main_v218) = L3.Xout m c :=
  (W60_arr m ρ c 4).trans ((Region32.value (V59 m ρ) c).trans (congr4 (f := Cert.Spec.gate) (w59_v217 m ρ c) (s59 m ρ c).v37 (w59_v173 m ρ c) (w59_v186 m ρ c)))

end Cert.KernelIdeal.Chain.L3

end
-- ==== Proof.KChainPost.lean ====
import proofs.«402353_j91190745629151_3_alg».proof.Proof.Gen.KernelIdeal.Frame
import proofs.«402353_j91190745629151_3_alg».proof.Proof.KVals
import proofs.«402353_j91190745629151_3_alg».proof.Proof.Region33
import proofs.«402353_j91190745629151_3_alg».proof.Proof.KChainL3

set_option maxRecDepth 16384

noncomputable section

namespace Cert.KernelIdeal.Chain.Post

open Cert.KernelIdeal Cert.KernelIdeal.Gen Cert.KernelIdeal.Graph Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

theorem w61_v219 (c : Dev nD) : W61 m ρ c (Proc.devRef .tc main_v219) = OUT m c :=
  (W61_arr m ρ c 3).trans ((Region33.value (V60 m ρ) c).trans (congr3 (f := Cert.Spec.decode) (Cert.KernelIdeal.Chain.L3.w60_v218 m ρ c) (Cert.KernelIdeal.Chain.L3.s60 m ρ c).arg8 (Cert.KernelIdeal.Chain.L3.s60 m ρ c).arg9))

end Cert.KernelIdeal.Chain.Post

end
-- ==== Proof.ROps.lean ====
import proofs.«402353_j91190745629151_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    binary main_arg0 main_arg2 main_v4 (fun l r => Host.dotGeneral dot_S50000x256_S256x64_S50000x64_1_0_0_1_n_n none l r),
    unary main_arg3 main_v5 (broadcastInDim S1x64 ![1] bcast_S64_S1x64_1),
    unary main_v5 main_v6 (broadcastInDim S50000x64 ![0, 1] bcast_S1x64_S50000x64_0_1),
    binary main_v4 main_v6 main_v7 (addf),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v7) (TRef.of (T := ⟨S50000x64, .f32⟩) main_call0_v0) (TRef.of (T := ⟨S50000x64, .f32⟩) main_v8) maximumf ]
set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub ..⟩
set_option maxRecDepth 8192 in
theorem ops0_fresh : ∀ op ∈ (ops0 : List (HloOp τ sig (Elt F))), op.fresh = ∅ := by
  intro _ h; (repeat (cases h with | head => rfl | tail _ h => ?_)); exact nomatch h

abbrev ops1 : List (HloOp τ sig (Elt F)) :=
  [ binary main_v8 main_arg4 main_v9 (fun l r => Host.dotGeneral dot_S50000x64_S64x64_S50000x64_1_0_0_1_n_n none l r),
    nullary main_v10 (iotaInDim S50000 32 0),
    binary main_v1 main_v10 main_v11 (fun a b => concatenate S850000 0 [⟨S800000, a⟩, ⟨S50000, b⟩] concatenates_S800000_S50000_S850000_d0),
    binary main_v3 main_v10 main_v12 (fun a b => concatenate S850000 0 [⟨S800000, a⟩, ⟨S50000, b⟩] concatenates_S800000_S50000_S850000_d0),
    nullary main_cst (constant S_ .f32 0x3F800000#32),
    unary main_cst main_v13 (broadcastInDim S850000 ![] bcast_S_S850000),
    nullary main_cst_0 (constant S_ .f32 0x00000000#32),
    unary main_cst_0 main_v14 (broadcastInDim S50000 ![] bcast_S_S50000),
    unary main_v12 main_v15 (broadcastInDim S850000x1 ![0] bcast_S850000_S850000x1_0),
    ternary main_v14 main_v15 main_v13 main_v16 (fun x i u => Host.scatterAdd scatter_S50000_S850000x1_S850000_n_0_0_1 x i u),
    nullary main_cst_1 (constant S_ .f32 0x00000000#32),
    unary main_cst_1 main_v17 (broadcastInDim S50000 ![] bcast_S_S50000),
    binary main_v16 main_v17 main_v18 (cmpf .ogt),
    nullary main_cst_2 (constant S_ .f32 0x3F800000#32),
    unary main_cst_2 main_v19 (broadcastInDim S50000 ![] bcast_S_S50000),
    binary main_v16 main_v19 main_v20 (maximumf),
    unary main_v20 main_v21 (Host.rsqrt),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v18) (TRef.of (T := ⟨S50000, .f32⟩) main_v21) (TRef.of (T := ⟨S50000, .f32⟩) main_call1_v1) (TRef.of (T := ⟨S50000, .f32⟩) main_v22) select,
    nullary main_c (constantI S_ 32 0#32),
    unary main_c main_v23 (broadcastInDim S850000 ![] bcast_S_S850000),
    binary main_v11 main_v23 main_v24 (cmpi .slt),
    nullary main_c_4 (constantI S_ 32 50000#32),
    unary main_c_4 main_v25 (broadcastInDim S850000 ![] bcast_S_S850000),
    binary main_v11 main_v25 main_v26 (addi),
    ternary main_v24 main_v26 main_v11 main_v27 (select),
    unary main_v27 main_v28 (broadcastInDim S850000x1 ![0] bcast_S850000_S850000x1_0),
    binary main_v22 main_v28 main_v29 (fun x i => Host.gather gather_S50000_S850000x1_S850000_n_0_n_n_0_1_1 x i),
    nullary main_c_5 (constantI S_ 32 0#32),
    unary main_c_5 main_v30 (broadcastInDim S850000 ![] bcast_S_S850000),
    binary main_v12 main_v30 main_v31 (cmpi .slt),
    nullary main_c_6 (constantI S_ 32 50000#32),
    unary main_c_6 main_v32 (broadcastInDim S850000 ![] bcast_S_S850000),
    binary main_v12 main_v32 main_v33 (addi),
    ternary main_v31 main_v33 main_v12 main_v34 (select),
    unary main_v34 main_v35 (broadcastInDim S850000x1 ![0] bcast_S850000_S850000x1_0),
    binary main_v22 main_v35 main_v36 (fun x i => Host.gather gather_S50000_S850000x1_S850000_n_0_n_n_0_1_1 x i),
    binary main_v29 main_v36 main_v37 (mulf),
    unary main_v37 main_v38 (broadcastInDim S850000x1 ![0] bcast_S850000_S850000x1_0),
    nullary main_c_7 (constantI S_ 32 0#32),
    unary main_c_7 main_v39 (broadcastInDim S850000 ![] bcast_S_S850000),
    binary main_v11 main_v39 main_v40 (cmpi .slt),
    nullary main_c_8 (constantI S_ 32 50000#32),
    unary main_c_8 main_v41 (broadcastInDim S850000 ![] bcast_S_S850000),
    binary main_v11 main_v41 main_v42 (addi),
    ternary main_v40 main_v42 main_v11 main_v43 (select),
    unary main_v43 main_v44 (broadcastInDim S850000x1 ![0] bcast_S850000_S850000x1_0),
    binary main_v9 main_v44 main_v45 (fun x i => Host.gather gather_S50000x64_S850000x1_S850000x64_1_0_n_n_0_1_164 x i),
    unary main_v38 main_v46 (broadcastInDim S850000x64 ![0, 1] bcast_S850000x1_S850000x64_0_1),
    binary main_v46 main_v45 main_v47 (mulf),
    nullary main_cst_9 (constant S_ .f32 0x00000000#32),
    unary main_cst_9 main_v48 (broadcastInDim S50000x64 ![] bcast_S_S50000x64),
    unary main_v12 main_v49 (broadcastInDim S850000x1 ![0] bcast_S850000_S850000x1_0),
    ternary main_v48 main_v49 main_v47 main_v50 (fun x i u => Host.scatterAdd scatter_S50000x64_S850000x1_S850000x64_1_0_0_1 x i u),
    unary main_arg5 main_v51 (broadcastInDim S1x64 ![1] bcast_S64_S1x64_1),
    unary main_v51 main_v52 (broadcastInDim S50000x64 ![0, 1] bcast_S1x64_S50000x64_0_1),
    binary main_v50 main_v52 main_v53 (addf),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v53) (TRef.of (T := ⟨S50000x64, .f32⟩) main_call2_v0) (TRef.of (T := ⟨S50000x64, .f32⟩) main_v54) maximumf ]
set_option maxRecDepth 8192 in
theorem ops1_sub : (ops1 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops1_fresh : ∀ op ∈ (ops1 : List (HloOp τ sig (Elt F))), op.fresh = ∅ := by
  intro _ h; (repeat (cases h with | head => rfl | tail _ h => ?_)); exact nomatch h

abbrev ops2 : List (HloOp τ sig (Elt F)) :=
  [ binary main_v8 main_arg6 main_v55 (fun l r => Host.dotGeneral dot_S50000x64_S64x64_S50000x64_1_0_0_1_n_n none l r),
    nullary main_v56 (iotaInDim S50000 32 0),
    binary main_v1 main_v56 main_v57 (fun a b => concatenate S850000 0 [⟨S800000, a⟩, ⟨S50000, b⟩] concatenates_S800000_S50000_S850000_d0),
    binary main_v3 main_v56 main_v58 (fun a b => concatenate S850000 0 [⟨S800000, a⟩, ⟨S50000, b⟩] concatenates_S800000_S50000_S850000_d0),
    nullary main_cst_10 (constant S_ .f32 0x3F800000#32),
    unary main_cst_10 main_v59 (broadcastInDim S850000 ![] bcast_S_S850000),
    nullary main_cst_11 (constant S_ .f32 0x00000000#32),
    unary main_cst_11 main_v60 (broadcastInDim S50000 ![] bcast_S_S50000),
    unary main_v58 main_v61 (broadcastInDim S850000x1 ![0] bcast_S850000_S850000x1_0),
    ternary main_v60 main_v61 main_v59 main_v62 (fun x i u => Host.scatterAdd scatter_S50000_S850000x1_S850000_n_0_0_1 x i u),
    nullary main_cst_12 (constant S_ .f32 0x00000000#32),
    unary main_cst_12 main_v63 (broadcastInDim S50000 ![] bcast_S_S50000),
    binary main_v62 main_v63 main_v64 (cmpf .ogt),
    nullary main_cst_13 (constant S_ .f32 0x3F800000#32),
    unary main_cst_13 main_v65 (broadcastInDim S50000 ![] bcast_S_S50000),
    binary main_v62 main_v65 main_v66 (maximumf),
    unary main_v66 main_v67 (Host.rsqrt),
    nullary main_cst_14 (constant S_ .f32 0x00000000#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v64) (TRef.of (T := ⟨S50000, .f32⟩) main_v67) (TRef.of (T := ⟨S50000, .f32⟩) main_call3_v1) (TRef.of (T := ⟨S50000, .f32⟩) main_v68) select,
    nullary main_c_15 (constantI S_ 32 0#32),
    unary main_c_15 main_v69 (broadcastInDim S850000 ![] bcast_S_S850000),
    binary main_v57 main_v69 main_v70 (cmpi .slt),
    nullary main_c_16 (constantI S_ 32 50000#32),
    unary main_c_16 main_v71 (broadcastInDim S850000 ![] bcast_S_S850000),
    binary main_v57 main_v71 main_v72 (addi),
    ternary main_v70 main_v72 main_v57 main_v73 (select),
    unary main_v73 main_v74 (broadcastInDim S850000x1 ![0] bcast_S850000_S850000x1_0),
    binary main_v68 main_v74 main_v75 (fun x i => Host.gather gather_S50000_S850000x1_S850000_n_0_n_n_0_1_1 x i),
    nullary main_c_17 (constantI S_ 32 0#32),
    unary main_c_17 main_v76 (broadcastInDim S850000 ![] bcast_S_S850000),
    binary main_v58 main_v76 main_v77 (cmpi .slt),
    nullary main_c_18 (constantI S_ 32 50000#32),
    unary main_c_18 main_v78 (broadcastInDim S850000 ![] bcast_S_S850000),
    binary main_v58 main_v78 main_v79 (addi),
    ternary main_v77 main_v79 main_v58 main_v80 (select),
    unary main_v80 main_v81 (broadcastInDim S850000x1 ![0] bcast_S850000_S850000x1_0),
    binary main_v68 main_v81 main_v82 (fun x i => Host.gather gather_S50000_S850000x1_S850000_n_0_n_n_0_1_1 x i),
    binary main_v75 main_v82 main_v83 (mulf),
    unary main_v83 main_v84 (broadcastInDim S850000x1 ![0] bcast_S850000_S850000x1_0),
    nullary main_c_19 (constantI S_ 32 0#32),
    unary main_c_19 main_v85 (broadcastInDim S850000 ![] bcast_S_S850000),
    binary main_v57 main_v85 main_v86 (cmpi .slt),
    nullary main_c_20 (constantI S_ 32 50000#32),
    unary main_c_20 main_v87 (broadcastInDim S850000 ![] bcast_S_S850000),
    binary main_v57 main_v87 main_v88 (addi),
    ternary main_v86 main_v88 main_v57 main_v89 (select),
    unary main_v89 main_v90 (broadcastInDim S850000x1 ![0] bcast_S850000_S850000x1_0),
    binary main_v55 main_v90 main_v91 (fun x i => Host.gather gather_S50000x64_S850000x1_S850000x64_1_0_n_n_0_1_164 x i),
    unary main_v84 main_v92 (broadcastInDim S850000x64 ![0, 1] bcast_S850000x1_S850000x64_0_1),
    binary main_v92 main_v91 main_v93 (mulf),
    nullary main_cst_21 (constant S_ .f32 0x00000000#32),
    unary main_cst_21 main_v94 (broadcastInDim S50000x64 ![] bcast_S_S50000x64),
    unary main_v58 main_v95 (broadcastInDim S850000x1 ![0] bcast_S850000_S850000x1_0),
    ternary main_v94 main_v95 main_v93 main_v96 (fun x i u => Host.scatterAdd scatter_S50000x64_S850000x1_S850000x64_1_0_0_1 x i u),
    unary main_arg7 main_v97 (broadcastInDim S1x64 ![1] bcast_S64_S1x64_1),
    unary main_v97 main_v98 (broadcastInDim S50000x64 ![0, 1] bcast_S1x64_S50000x64_0_1),
    binary main_v96 main_v98 main_v99 (addf),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v99) (TRef.of (T := ⟨S50000x64, .f32⟩) main_call4_v0) (TRef.of (T := ⟨S50000x64, .f32⟩) main_v100) maximumf ]
set_option maxRecDepth 8192 in
theorem ops2_sub : (ops2 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops2_fresh : ∀ op ∈ (ops2 : List (HloOp τ sig (Elt F))), op.fresh = ∅ := by
  intro _ h; (repeat (cases h with | head => rfl | tail _ h => ?_)); exact nomatch h

abbrev ops3 : List (HloOp τ sig (Elt F)) :=
  [ nullary main_c_22 (constantI S_ 32 0#32),
    unary main_c_22 main_v101 (broadcastInDim S800000 ![] bcast_S_S800000),
    binary main_v1 main_v101 main_v102 (cmpi .slt),
    nullary main_c_23 (constantI S_ 32 50000#32),
    unary main_c_23 main_v103 (broadcastInDim S800000 ![] bcast_S_S800000),
    binary main_v1 main_v103 main_v104 (addi),
    ternary main_v102 main_v104 main_v1 main_v105 (select),
    unary main_v105 main_v106 (broadcastInDim S800000x1 ![0] bcast_S800000_S800000x1_0),
    binary main_v100 main_v106 main_v107 (fun x i => Host.gather gather_S50000x64_S800000x1_S800000x64_1_0_n_n_0_1_164 x i),
    nullary main_c_24 (constantI S_ 32 0#32),
    unary main_c_24 main_v108 (broadcastInDim S800000 ![] bcast_S_S800000),
    binary main_v3 main_v108 main_v109 (cmpi .slt),
    nullary main_c_25 (constantI S_ 32 50000#32),
    unary main_c_25 main_v110 (broadcastInDim S800000 ![] bcast_S_S800000),
    binary main_v3 main_v110 main_v111 (addi),
    ternary main_v109 main_v111 main_v3 main_v112 (select),
    unary main_v112 main_v113 (broadcastInDim S800000x1 ![0] bcast_S800000_S800000x1_0),
    binary main_v100 main_v113 main_v114 (fun x i => Host.gather gather_S50000x64_S800000x1_S800000x64_1_0_n_n_0_1_164 x i),
    binary main_v107 main_v114 main_v115 (subf),
    unary main_v115 main_v116 (Host.absf),
    nullary main_cst_26 (constant S_ .f32 0x40000000#32),
    unary main_cst_26 main_v117 (broadcastInDim S800000x64 ![] bcast_S_S800000x64),
    binary main_v116 main_v117 main_v118 (Host.powf),
    nullary main_cst_27 (constant S_ .f32 0x00000000#32),
    unary main_cst_27 main_v119 (broadcastInDim S50000x64 ![] bcast_S_S50000x64),
    unary main_v1 main_v120 (broadcastInDim S800000x1 ![0] bcast_S800000_S800000x1_0),
    ternary main_v119 main_v120 main_v118 main_v121 (fun x i u => Host.scatterAdd scatter_S50000x64_S800000x1_S800000x64_1_0_0_1 x i u),
    nullary main_cst_28 (constant S_ .f32 0x3F800000#32),
    unary main_cst_28 main_v122 (broadcastInDim S800000 ![] bcast_S_S800000),
    nullary main_cst_29 (constant S_ .f32 0x00000000#32),
    unary main_cst_29 main_v123 (broadcastInDim S50000 ![] bcast_S_S50000),
    unary main_v1 main_v124 (broadcastInDim S800000x1 ![0] bcast_S800000_S800000x1_0),
    ternary main_v123 main_v124 main_v122 main_v125 (fun x i u => Host.scatterAdd scatter_S50000_S800000x1_S800000_n_0_0_1 x i u),
    nullary main_cst_30 (constant S_ .f32 0x3F800000#32),
    unary main_cst_30 main_v126 (broadcastInDim S50000 ![] bcast_S_S50000),
    binary main_v125 main_v126 main_v127 (maximumf),
    unary main_v127 main_v128 (broadcastInDim S50000x1 ![0] bcast_S50000_S50000x1_0),
    unary main_v128 main_v129 (broadcastInDim S50000x64 ![0, 1] bcast_S50000x1_S50000x64_0_1),
    binary main_v121 main_v129 main_v130 (Host.divf),
    unary main_v130 main_v131 (Host.tanh),
    nullary main_cst_31 (constant S_ .f32 0x3F800000#32),
    unary main_cst_31 main_v132 (broadcastInDim S50000x64 ![] bcast_S_S50000x64),
    binary main_v132 main_v131 main_v133 (subf),
    binary main_v133 main_v8 main_v134 (mulf),
    binary main_v131 main_v54 main_v135 (mulf),
    binary main_v134 main_v135 main_v136 (addf) ]
set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., binary_bufs_sub .., binary_bufs_sub .., binary_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h

abbrev ops4 : List (HloOp τ sig (Elt F)) :=
  [ binary main_v136 main_arg4 main_v137 (fun l r => Host.dotGeneral dot_S50000x64_S64x64_S50000x64_1_0_0_1_n_n none l r),
    nullary main_v138 (iotaInDim S50000 32 0),
    binary main_v1 main_v138 main_v139 (fun a b => concatenate S850000 0 [⟨S800000, a⟩, ⟨S50000, b⟩] concatenates_S800000_S50000_S850000_d0),
    binary main_v3 main_v138 main_v140 (fun a b => concatenate S850000 0 [⟨S800000, a⟩, ⟨S50000, b⟩] concatenates_S800000_S50000_S850000_d0),
    nullary main_cst_32 (constant S_ .f32 0x3F800000#32),
    unary main_cst_32 main_v141 (broadcastInDim S850000 ![] bcast_S_S850000),
    nullary main_cst_33 (constant S_ .f32 0x00000000#32),
    unary main_cst_33 main_v142 (broadcastInDim S50000 ![] bcast_S_S50000),
    unary main_v140 main_v143 (broadcastInDim S850000x1 ![0] bcast_S850000_S850000x1_0),
    ternary main_v142 main_v143 main_v141 main_v144 (fun x i u => Host.scatterAdd scatter_S50000_S850000x1_S850000_n_0_0_1 x i u),
    nullary main_cst_34 (constant S_ .f32 0x00000000#32),
    unary main_cst_34 main_v145 (broadcastInDim S50000 ![] bcast_S_S50000),
    binary main_v144 main_v145 main_v146 (cmpf .ogt),
    nullary main_cst_35 (constant S_ .f32 0x3F800000#32),
    unary main_cst_35 main_v147 (broadcastInDim S50000 ![] bcast_S_S50000),
    binary main_v144 main_v147 main_v148 (maximumf),
    unary main_v148 main_v149 (Host.rsqrt),
    nullary main_cst_36 (constant S_ .f32 0x00000000#32),
    TRef.unary (TRef.of (T := ⟨S_, .f32⟩) main_cst_36) (TRef.of (T := ⟨S_, .f32⟩) main_call5_v0) id,
    TRef.unary (TRef.of (T := ⟨S_, .f32⟩) main_call5_v0) (TRef.of (T := ⟨S50000, .f32⟩) main_call5_v1) (broadcastInDim S50000 ![] bcast_S_S50000),
    TRef.ternary (TRef.of (T := ⟨S50000, .i1⟩) main_v146) (TRef.of (T := ⟨S50000, .f32⟩) main_v149) (TRef.of (T := ⟨S50000, .f32⟩) main_call5_v1) (TRef.of (T := ⟨S50000, .f32⟩) main_v150) select,
    nullary main_c_37 (constantI S_ 32 0#32),
    unary main_c_37 main_v151 (broadcastInDim S850000 ![] bcast_S_S850000),
    binary main_v139 main_v151 main_v152 (cmpi .slt),
    nullary main_c_38 (constantI S_ 32 50000#32),
    unary main_c_38 main_v153 (broadcastInDim S850000 ![] bcast_S_S850000),
    binary main_v139 main_v153 main_v154 (addi),
    ternary main_v152 main_v154 main_v139 main_v155 (select),
    unary main_v155 main_v156 (broadcastInDim S850000x1 ![0] bcast_S850000_S850000x1_0),
    binary main_v150 main_v156 main_v157 (fun x i => Host.gather gather_S50000_S850000x1_S850000_n_0_n_n_0_1_1 x i),
    nullary main_c_39 (constantI S_ 32 0#32),
    unary main_c_39 main_v158 (broadcastInDim S850000 ![] bcast_S_S850000),
    binary main_v140 main_v158 main_v159 (cmpi .slt),
    nullary main_c_40 (constantI S_ 32 50000#32),
    unary main_c_40 main_v160 (broadcastInDim S850000 ![] bcast_S_S850000),
    binary main_v140 main_v160 main_v161 (addi),
    ternary main_v159 main_v161 main_v140 main_v162 (select),
    unary main_v162 main_v163 (broadcastInDim S850000x1 ![0] bcast_S850000_S850000x1_0),
    binary main_v150 main_v163 main_v164 (fun x i => Host.gather gather_S50000_S850000x1_S850000_n_0_n_n_0_1_1 x i),
    binary main_v157 main_v164 main_v165 (mulf),
    unary main_v165 main_v166 (broadcastInDim S850000x1 ![0] bcast_S850000_S850000x1_0),
    nullary main_c_41 (constantI S_ 32 0#32),
    unary main_c_41 main_v167 (broadcastInDim S850000 ![] bcast_S_S850000),
    binary main_v139 main_v167 main_v168 (cmpi .slt),
    nullary main_c_42 (constantI S_ 32 50000#32),
    unary main_c_42 main_v169 (broadcastInDim S850000 ![] bcast_S_S850000),
    binary main_v139 main_v169 main_v170 (addi),
    ternary main_v168 main_v170 main_v139 main_v171 (select),
    unary main_v171 main_v172 (broadcastInDim S850000x1 ![0] bcast_S850000_S850000x1_0),
    binary main_v137 main_v172 main_v173 (fun x i => Host.gather gather_S50000x64_S850000x1_S850000x64_1_0_n_n_0_1_164 x i),
    unary main_v166 main_v174 (broadcastInDim S850000x64 ![0, 1] bcast_S850000x1_S850000x64_0_1),
    binary main_v174 main_v173 main_v175 (mulf),
    nullary main_cst_43 (constant S_ .f32 0x00000000#32),
    unary main_cst_43 main_v176 (broadcastInDim S50000x64 ![] bcast_S_S50000x64),
    unary main_v140 main_v177 (broadcastInDim S850000x1 ![0] bcast_S850000_S850000x1_0),
    ternary main_v176 main_v177 main_v175 main_v178 (fun x i u => Host.scatterAdd scatter_S50000x64_S850000x1_S850000x64_1_0_0_1 x i u),
    unary main_arg5 main_v179 (broadcastInDim S1x64 ![1] bcast_S64_S1x64_1),
    unary main_v179 main_v180 (broadcastInDim S50000x64 ![0, 1] bcast_S1x64_S50000x64_0_1),
    binary main_v178 main_v180 main_v181 (addf),
    TRef.nullary (TRef.of (T := ⟨S_, .f32⟩) main_call6_cst) (constant S_ .f32 0x00000000#32),
    TRef.unary (TRef.of (T := ⟨S_, .f32⟩) main_call6_cst) (TRef.of (T := ⟨S50000x64, .f32⟩) main_call6_v0) (broadcastInDim S50000x64 ![] bcast_S_S50000x64),
    TRef.binary (TRef.of (T := ⟨S50000x64, .f32⟩) main_v181) (TRef.of (T := ⟨S50000x64, .f32⟩) main_call6_v0) (TRef.of (T := ⟨S50000x64, .f32⟩) main_v182) maximumf ]
set_option maxRecDepth 8192 in
theorem ops4_sub : (ops4 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops4_fresh : ∀ op ∈ (ops4 : List (HloOp τ sig (Elt F))), op.fresh = ∅ := by
  intro _ h; (repeat (cases h with | head => rfl | tail _ h => ?_)); exact nomatch h

abbrev ops5 : List (HloOp τ sig (Elt F)) :=
  [ binary main_v136 main_arg6 main_v183 (fun l r => Host.dotGeneral dot_S50000x64_S64x64_S50000x64_1_0_0_1_n_n none l r),
    nullary main_v184 (iotaInDim S50000 32 0),
    binary main_v1 main_v184 main_v185 (fun a b => concatenate S850000 0 [⟨S800000, a⟩, ⟨S50000, b⟩] concatenates_S800000_S50000_S850000_d0),
    binary main_v3 main_v184 main_v186 (fun a b => concatenate S850000 0 [⟨S800000, a⟩, ⟨S50000, b⟩] concatenates_S800000_S50000_S850000_d0),
    nullary main_cst_44 (constant S_ .f32 0x3F800000#32),
    unary main_cst_44 main_v187 (broadcastInDim S850000 ![] bcast_S_S850000),
    nullary main_cst_45 (constant S_ .f32 0x00000000#32),
    unary main_cst_45 main_v188 (broadcastInDim S50000 ![] bcast_S_S50000),
    unary main_v186 main_v189 (broadcastInDim S850000x1 ![0] bcast_S850000_S850000x1_0),
    ternary main_v188 main_v189 main_v187 main_v190 (fun x i u => Host.scatterAdd scatter_S50000_S850000x1_S850000_n_0_0_1 x i u),
    nullary main_cst_46 (constant S_ .f32 0x00000000#32),
    unary main_cst_46 main_v191 (broadcastInDim S50000 ![] bcast_S_S50000),
    binary main_v190 main_v191 main_v192 (cmpf .ogt),
    nullary main_cst_47 (constant S_ .f32 0x3F800000#32),
    unary main_cst_47 main_v193 (broadcastInDim S50000 ![] bcast_S_S50000),
    binary main_v190 main_v193 main_v194 (maximumf),
    unary main_v194 main_v195 (Host.rsqrt),
    nullary main_cst_48 (constant S_ .f32 0x00000000#32),
    TRef.unary (TRef.of (T := ⟨S_, .f32⟩) main_cst_48) (TRef.of (T := ⟨S_, .f32⟩) main_call7_v0) id,
    TRef.unary (TRef.of (T := ⟨S_, .f32⟩) main_call7_v0) (TRef.of (T := ⟨S50000, .f32⟩) main_call7_v1) (broadcastInDim S50000 ![] bcast_S_S50000),
    TRef.ternary (TRef.of (T := ⟨S50000, .i1⟩) main_v192) (TRef.of (T := ⟨S50000, .f32⟩) main_v195) (TRef.of (T := ⟨S50000, .f32⟩) main_call7_v1) (TRef.of (T := ⟨S50000, .f32⟩) main_v196) select,
    nullary main_c_49 (constantI S_ 32 0#32),
    unary main_c_49 main_v197 (broadcastInDim S850000 ![] bcast_S_S850000),
    binary main_v185 main_v197 main_v198 (cmpi .slt),
    nullary main_c_50 (constantI S_ 32 50000#32),
    unary main_c_50 main_v199 (broadcastInDim S850000 ![] bcast_S_S850000),
    binary main_v185 main_v199 main_v200 (addi),
    ternary main_v198 main_v200 main_v185 main_v201 (select),
    unary main_v201 main_v202 (broadcastInDim S850000x1 ![0] bcast_S850000_S850000x1_0),
    binary main_v196 main_v202 main_v203 (fun x i => Host.gather gather_S50000_S850000x1_S850000_n_0_n_n_0_1_1 x i),
    nullary main_c_51 (constantI S_ 32 0#32),
    unary main_c_51 main_v204 (broadcastInDim S850000 ![] bcast_S_S850000),
    binary main_v186 main_v204 main_v205 (cmpi .slt),
    nullary main_c_52 (constantI S_ 32 50000#32),
    unary main_c_52 main_v206 (broadcastInDim S850000 ![] bcast_S_S850000),
    binary main_v186 main_v206 main_v207 (addi),
    ternary main_v205 main_v207 main_v186 main_v208 (select),
    unary main_v208 main_v209 (broadcastInDim S850000x1 ![0] bcast_S850000_S850000x1_0),
    binary main_v196 main_v209 main_v210 (fun x i => Host.gather gather_S50000_S850000x1_S850000_n_0_n_n_0_1_1 x i),
    binary main_v203 main_v210 main_v211 (mulf),
    unary main_v211 main_v212 (broadcastInDim S850000x1 ![0] bcast_S850000_S850000x1_0),
    nullary main_c_53 (constantI S_ 32 0#32),
    unary main_c_53 main_v213 (broadcastInDim S850000 ![] bcast_S_S850000),
    binary main_v185 main_v213 main_v214 (cmpi .slt),
    nullary main_c_54 (constantI S_ 32 50000#32),
    unary main_c_54 main_v215 (broadcastInDim S850000 ![] bcast_S_S850000),
    binary main_v185 main_v215 main_v216 (addi),
    ternary main_v214 main_v216 main_v185 main_v217 (select),
    unary main_v217 main_v218 (broadcastInDim S850000x1 ![0] bcast_S850000_S850000x1_0),
    binary main_v183 main_v218 main_v219 (fun x i => Host.gather gather_S50000x64_S850000x1_S850000x64_1_0_n_n_0_1_164 x i),
    unary main_v212 main_v220 (broadcastInDim S850000x64 ![0, 1] bcast_S850000x1_S850000x64_0_1),
    binary main_v220 main_v219 main_v221 (mulf),
    nullary main_cst_55 (constant S_ .f32 0x00000000#32),
    unary main_cst_55 main_v222 (broadcastInDim S50000x64 ![] bcast_S_S50000x64),
    unary main_v186 main_v223 (broadcastInDim S850000x1 ![0] bcast_S850000_S850000x1_0),
    ternary main_v222 main_v223 main_v221 main_v224 (fun x i u => Host.scatterAdd scatter_S50000x64_S850000x1_S850000x64_1_0_0_1 x i u),
    unary main_arg7 main_v225 (broadcastInDim S1x64 ![1] bcast_S64_S1x64_1),
    unary main_v225 main_v226 (broadcastInDim S50000x64 ![0, 1] bcast_S1x64_S50000x64_0_1),
    binary main_v224 main_v226 main_v227 (addf),
    TRef.nullary (TRef.of (T := ⟨S_, .f32⟩) main_call8_cst) (constant S_ .f32 0x00000000#32),
    TRef.unary (TRef.of (T := ⟨S_, .f32⟩) main_call8_cst) (TRef.of (T := ⟨S50000x64, .f32⟩) main_call8_v0) (broadcastInDim S50000x64 ![] bcast_S_S50000x64),
    TRef.binary (TRef.of (T := ⟨S50000x64, .f32⟩) main_v227) (TRef.of (T := ⟨S50000x64, .f32⟩) main_call8_v0) (TRef.of (T := ⟨S50000x64, .f32⟩) main_v228) maximumf ]
set_option maxRecDepth 8192 in
theorem ops5_sub : (ops5 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops5_fresh : ∀ op ∈ (ops5 : List (HloOp τ sig (Elt F))), op.fresh = ∅ := by
  intro _ h; (repeat (cases h with | head => rfl | tail _ h => ?_)); exact nomatch h

abbrev ops6 : List (HloOp τ sig (Elt F)) :=
  [ nullary main_c_56 (constantI S_ 32 0#32),
    unary main_c_56 main_v229 (broadcastInDim S800000 ![] bcast_S_S800000),
    binary main_v1 main_v229 main_v230 (cmpi .slt),
    nullary main_c_57 (constantI S_ 32 50000#32),
    unary main_c_57 main_v231 (broadcastInDim S800000 ![] bcast_S_S800000),
    binary main_v1 main_v231 main_v232 (addi),
    ternary main_v230 main_v232 main_v1 main_v233 (select),
    unary main_v233 main_v234 (broadcastInDim S800000x1 ![0] bcast_S800000_S800000x1_0),
    binary main_v228 main_v234 main_v235 (fun x i => Host.gather gather_S50000x64_S800000x1_S800000x64_1_0_n_n_0_1_164 x i),
    nullary main_c_58 (constantI S_ 32 0#32),
    unary main_c_58 main_v236 (broadcastInDim S800000 ![] bcast_S_S800000),
    binary main_v3 main_v236 main_v237 (cmpi .slt),
    nullary main_c_59 (constantI S_ 32 50000#32),
    unary main_c_59 main_v238 (broadcastInDim S800000 ![] bcast_S_S800000),
    binary main_v3 main_v238 main_v239 (addi),
    ternary main_v237 main_v239 main_v3 main_v240 (select),
    unary main_v240 main_v241 (broadcastInDim S800000x1 ![0] bcast_S800000_S800000x1_0),
    binary main_v228 main_v241 main_v242 (fun x i => Host.gather gather_S50000x64_S800000x1_S800000x64_1_0_n_n_0_1_164 x i),
    binary main_v235 main_v242 main_v243 (subf),
    unary main_v243 main_v244 (Host.absf),
    nullary main_cst_60 (constant S_ .f32 0x40000000#32),
    unary main_cst_60 main_v245 (broadcastInDim S800000x64 ![] bcast_S_S800000x64),
    binary main_v244 main_v245 main_v246 (Host.powf),
    nullary main_cst_61 (constant S_ .f32 0x00000000#32),
    unary main_cst_61 main_v247 (broadcastInDim S50000x64 ![] bcast_S_S50000x64),
    unary main_v1 main_v248 (broadcastInDim S800000x1 ![0] bcast_S800000_S800000x1_0),
    ternary main_v247 main_v248 main_v246 main_v249 (fun x i u => Host.scatterAdd scatter_S50000x64_S800000x1_S800000x64_1_0_0_1 x i u),
    nullary main_cst_62 (constant S_ .f32 0x3F800000#32),
    unary main_cst_62 main_v250 (broadcastInDim S800000 ![] bcast_S_S800000),
    nullary main_cst_63 (constant S_ .f32 0x00000000#32),
    unary main_cst_63 main_v251 (broadcastInDim S50000 ![] bcast_S_S50000),
    unary main_v1 main_v252 (broadcastInDim S800000x1 ![0] bcast_S800000_S800000x1_0),
    ternary main_v251 main_v252 main_v250 main_v253 (fun x i u => Host.scatterAdd scatter_S50000_S800000x1_S800000_n_0_0_1 x i u),
    nullary main_cst_64 (constant S_ .f32 0x3F800000#32),
    unary main_cst_64 main_v254 (broadcastInDim S50000 ![] bcast_S_S50000),
    binary main_v253 main_v254 main_v255 (maximumf),
    unary main_v255 main_v256 (broadcastInDim S50000x1 ![0] bcast_S50000_S50000x1_0),
    unary main_v256 main_v257 (broadcastInDim S50000x64 ![0, 1] bcast_S50000x1_S50000x64_0_1),
    binary main_v249 main_v257 main_v258 (Host.divf),
    unary main_v258 main_v259 (Host.tanh),
    nullary main_cst_65 (constant S_ .f32 0x3F800000#32),
    unary main_cst_65 main_v260 (broadcastInDim S50000x64 ![] bcast_S_S50000x64),
    binary main_v260 main_v259 main_v261 (subf),
    binary main_v261 main_v136 main_v262 (mulf),
    binary main_v259 main_v182 main_v263 (mulf),
    binary main_v262 main_v263 main_v264 (addf) ]
set_option maxRecDepth 8192 in
theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., binary_bufs_sub .., binary_bufs_sub .., binary_bufs_sub ..⟩
set_option maxRecDepth 8192 in
theorem ops6_fresh : ∀ op ∈ (ops6 : List (HloOp τ sig (Elt F))), op.fresh = ∅ := by
  intro _ h; (repeat (cases h with | head => rfl | tail _ h => ?_)); exact nomatch h

abbrev ops7 : List (HloOp τ sig (Elt F)) :=
  [ binary main_v264 main_arg4 main_v265 (fun l r => Host.dotGeneral dot_S50000x64_S64x64_S50000x64_1_0_0_1_n_n none l r),
    nullary main_v266 (iotaInDim S50000 32 0),
    binary main_v1 main_v266 main_v267 (fun a b => concatenate S850000 0 [⟨S800000, a⟩, ⟨S50000, b⟩] concatenates_S800000_S50000_S850000_d0),
    binary main_v3 main_v266 main_v268 (fun a b => concatenate S850000 0 [⟨S800000, a⟩, ⟨S50000, b⟩] concatenates_S800000_S50000_S850000_d0),
    nullary main_cst_66 (constant S_ .f32 0x3F800000#32),
    unary main_cst_66 main_v269 (broadcastInDim S850000 ![] bcast_S_S850000),
    nullary main_cst_67 (constant S_ .f32 0x00000000#32),
    unary main_cst_67 main_v270 (broadcastInDim S50000 ![] bcast_S_S50000),
    unary main_v268 main_v271 (broadcastInDim S850000x1 ![0] bcast_S850000_S850000x1_0),
    ternary main_v270 main_v271 main_v269 main_v272 (fun x i u => Host.scatterAdd scatter_S50000_S850000x1_S850000_n_0_0_1 x i u),
    nullary main_cst_68 (constant S_ .f32 0x00000000#32),
    unary main_cst_68 main_v273 (broadcastInDim S50000 ![] bcast_S_S50000),
    binary main_v272 main_v273 main_v274 (cmpf .ogt),
    nullary main_cst_69 (constant S_ .f32 0x3F800000#32),
    unary main_cst_69 main_v275 (broadcastInDim S50000 ![] bcast_S_S50000),
    binary main_v272 main_v275 main_v276 (maximumf),
    unary main_v276 main_v277 (Host.rsqrt),
    nullary main_cst_70 (constant S_ .f32 0x00000000#32),
    TRef.unary (TRef.of (T := ⟨S_, .f32⟩) main_cst_70) (TRef.of (T := ⟨S_, .f32⟩) main_call9_v0) id,
    TRef.unary (TRef.of (T := ⟨S_, .f32⟩) main_call9_v0) (TRef.of (T := ⟨S50000, .f32⟩) main_call9_v1) (broadcastInDim S50000 ![] bcast_S_S50000),
    TRef.ternary (TRef.of (T := ⟨S50000, .i1⟩) main_v274) (TRef.of (T := ⟨S50000, .f32⟩) main_v277) (TRef.of (T := ⟨S50000, .f32⟩) main_call9_v1) (TRef.of (T := ⟨S50000, .f32⟩) main_v278) select,
    nullary main_c_71 (constantI S_ 32 0#32),
    unary main_c_71 main_v279 (broadcastInDim S850000 ![] bcast_S_S850000),
    binary main_v267 main_v279 main_v280 (cmpi .slt),
    nullary main_c_72 (constantI S_ 32 50000#32),
    unary main_c_72 main_v281 (broadcastInDim S850000 ![] bcast_S_S850000),
    binary main_v267 main_v281 main_v282 (addi),
    ternary main_v280 main_v282 main_v267 main_v283 (select),
    unary main_v283 main_v284 (broadcastInDim S850000x1 ![0] bcast_S850000_S850000x1_0),
    binary main_v278 main_v284 main_v285 (fun x i => Host.gather gather_S50000_S850000x1_S850000_n_0_n_n_0_1_1 x i),
    nullary main_c_73 (constantI S_ 32 0#32),
    unary main_c_73 main_v286 (broadcastInDim S850000 ![] bcast_S_S850000),
    binary main_v268 main_v286 main_v287 (cmpi .slt),
    nullary main_c_74 (constantI S_ 32 50000#32),
    unary main_c_74 main_v288 (broadcastInDim S850000 ![] bcast_S_S850000),
    binary main_v268 main_v288 main_v289 (addi),
    ternary main_v287 main_v289 main_v268 main_v290 (select),
    unary main_v290 main_v291 (broadcastInDim S850000x1 ![0] bcast_S850000_S850000x1_0),
    binary main_v278 main_v291 main_v292 (fun x i => Host.gather gather_S50000_S850000x1_S850000_n_0_n_n_0_1_1 x i),
    binary main_v285 main_v292 main_v293 (mulf),
    unary main_v293 main_v294 (broadcastInDim S850000x1 ![0] bcast_S850000_S850000x1_0),
    nullary main_c_75 (constantI S_ 32 0#32),
    unary main_c_75 main_v295 (broadcastInDim S850000 ![] bcast_S_S850000),
    binary main_v267 main_v295 main_v296 (cmpi .slt),
    nullary main_c_76 (constantI S_ 32 50000#32),
    unary main_c_76 main_v297 (broadcastInDim S850000 ![] bcast_S_S850000),
    binary main_v267 main_v297 main_v298 (addi),
    ternary main_v296 main_v298 main_v267 main_v299 (select),
    unary main_v299 main_v300 (broadcastInDim S850000x1 ![0] bcast_S850000_S850000x1_0),
    binary main_v265 main_v300 main_v301 (fun x i => Host.gather gather_S50000x64_S850000x1_S850000x64_1_0_n_n_0_1_164 x i),
    unary main_v294 main_v302 (broadcastInDim S850000x64 ![0, 1] bcast_S850000x1_S850000x64_0_1),
    binary main_v302 main_v301 main_v303 (mulf),
    nullary main_cst_77 (constant S_ .f32 0x00000000#32),
    unary main_cst_77 main_v304 (broadcastInDim S50000x64 ![] bcast_S_S50000x64),
    unary main_v268 main_v305 (broadcastInDim S850000x1 ![0] bcast_S850000_S850000x1_0),
    ternary main_v304 main_v305 main_v303 main_v306 (fun x i u => Host.scatterAdd scatter_S50000x64_S850000x1_S850000x64_1_0_0_1 x i u),
    unary main_arg5 main_v307 (broadcastInDim S1x64 ![1] bcast_S64_S1x64_1),
    unary main_v307 main_v308 (broadcastInDim S50000x64 ![0, 1] bcast_S1x64_S50000x64_0_1),
    binary main_v306 main_v308 main_v309 (addf),
    TRef.nullary (TRef.of (T := ⟨S_, .f32⟩) main_call10_cst) (constant S_ .f32 0x00000000#32),
    TRef.unary (TRef.of (T := ⟨S_, .f32⟩) main_call10_cst) (TRef.of (T := ⟨S50000x64, .f32⟩) main_call10_v0) (broadcastInDim S50000x64 ![] bcast_S_S50000x64),
    TRef.binary (TRef.of (T := ⟨S50000x64, .f32⟩) main_v309) (TRef.of (T := ⟨S50000x64, .f32⟩) main_call10_v0) (TRef.of (T := ⟨S50000x64, .f32⟩) main_v310) maximumf ]
set_option maxRecDepth 8192 in
theorem ops7_sub : (ops7 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops7_fresh : ∀ op ∈ (ops7 : List (HloOp τ sig (Elt F))), op.fresh = ∅ := by
  intro _ h; (repeat (cases h with | head => rfl | tail _ h => ?_)); exact nomatch h

abbrev ops8 : List (HloOp τ sig (Elt F)) :=
  [ binary main_v264 main_arg6 main_v311 (fun l r => Host.dotGeneral dot_S50000x64_S64x64_S50000x64_1_0_0_1_n_n none l r),
    nullary main_v312 (iotaInDim S50000 32 0),
    binary main_v1 main_v312 main_v313 (fun a b => concatenate S850000 0 [⟨S800000, a⟩, ⟨S50000, b⟩] concatenates_S800000_S50000_S850000_d0),
    binary main_v3 main_v312 main_v314 (fun a b => concatenate S850000 0 [⟨S800000, a⟩, ⟨S50000, b⟩] concatenates_S800000_S50000_S850000_d0),
    nullary main_cst_78 (constant S_ .f32 0x3F800000#32),
    unary main_cst_78 main_v315 (broadcastInDim S850000 ![] bcast_S_S850000),
    nullary main_cst_79 (constant S_ .f32 0x00000000#32),
    unary main_cst_79 main_v316 (broadcastInDim S50000 ![] bcast_S_S50000),
    unary main_v314 main_v317 (broadcastInDim S850000x1 ![0] bcast_S850000_S850000x1_0),
    ternary main_v316 main_v317 main_v315 main_v318 (fun x i u => Host.scatterAdd scatter_S50000_S850000x1_S850000_n_0_0_1 x i u),
    nullary main_cst_80 (constant S_ .f32 0x00000000#32),
    unary main_cst_80 main_v319 (broadcastInDim S50000 ![] bcast_S_S50000),
    binary main_v318 main_v319 main_v320 (cmpf .ogt),
    nullary main_cst_81 (constant S_ .f32 0x3F800000#32),
    unary main_cst_81 main_v321 (broadcastInDim S50000 ![] bcast_S_S50000),
    binary main_v318 main_v321 main_v322 (maximumf),
    unary main_v322 main_v323 (Host.rsqrt),
    nullary main_cst_82 (constant S_ .f32 0x00000000#32),
    TRef.unary (TRef.of (T := ⟨S_, .f32⟩) main_cst_82) (TRef.of (T := ⟨S_, .f32⟩) main_call11_v0) id,
    TRef.unary (TRef.of (T := ⟨S_, .f32⟩) main_call11_v0) (TRef.of (T := ⟨S50000, .f32⟩) main_call11_v1) (broadcastInDim S50000 ![] bcast_S_S50000),
    TRef.ternary (TRef.of (T := ⟨S50000, .i1⟩) main_v320) (TRef.of (T := ⟨S50000, .f32⟩) main_v323) (TRef.of (T := ⟨S50000, .f32⟩) main_call11_v1) (TRef.of (T := ⟨S50000, .f32⟩) main_v324) select,
    nullary main_c_83 (constantI S_ 32 0#32),
    unary main_c_83 main_v325 (broadcastInDim S850000 ![] bcast_S_S850000),
    binary main_v313 main_v325 main_v326 (cmpi .slt),
    nullary main_c_84 (constantI S_ 32 50000#32),
    unary main_c_84 main_v327 (broadcastInDim S850000 ![] bcast_S_S850000),
    binary main_v313 main_v327 main_v328 (addi),
    ternary main_v326 main_v328 main_v313 main_v329 (select),
    unary main_v329 main_v330 (broadcastInDim S850000x1 ![0] bcast_S850000_S850000x1_0),
    binary main_v324 main_v330 main_v331 (fun x i => Host.gather gather_S50000_S850000x1_S850000_n_0_n_n_0_1_1 x i),
    nullary main_c_85 (constantI S_ 32 0#32),
    unary main_c_85 main_v332 (broadcastInDim S850000 ![] bcast_S_S850000),
    binary main_v314 main_v332 main_v333 (cmpi .slt),
    nullary main_c_86 (constantI S_ 32 50000#32),
    unary main_c_86 main_v334 (broadcastInDim S850000 ![] bcast_S_S850000),
    binary main_v314 main_v334 main_v335 (addi),
    ternary main_v333 main_v335 main_v314 main_v336 (select),
    unary main_v336 main_v337 (broadcastInDim S850000x1 ![0] bcast_S850000_S850000x1_0),
    binary main_v324 main_v337 main_v338 (fun x i => Host.gather gather_S50000_S850000x1_S850000_n_0_n_n_0_1_1 x i),
    binary main_v331 main_v338 main_v339 (mulf),
    unary main_v339 main_v340 (broadcastInDim S850000x1 ![0] bcast_S850000_S850000x1_0),
    nullary main_c_87 (constantI S_ 32 0#32),
    unary main_c_87 main_v341 (broadcastInDim S850000 ![] bcast_S_S850000),
    binary main_v313 main_v341 main_v342 (cmpi .slt),
    nullary main_c_88 (constantI S_ 32 50000#32),
    unary main_c_88 main_v343 (broadcastInDim S850000 ![] bcast_S_S850000),
    binary main_v313 main_v343 main_v344 (addi),
    ternary main_v342 main_v344 main_v313 main_v345 (select),
    unary main_v345 main_v346 (broadcastInDim S850000x1 ![0] bcast_S850000_S850000x1_0),
    binary main_v311 main_v346 main_v347 (fun x i => Host.gather gather_S50000x64_S850000x1_S850000x64_1_0_n_n_0_1_164 x i),
    unary main_v340 main_v348 (broadcastInDim S850000x64 ![0, 1] bcast_S850000x1_S850000x64_0_1),
    binary main_v348 main_v347 main_v349 (mulf),
    nullary main_cst_89 (constant S_ .f32 0x00000000#32),
    unary main_cst_89 main_v350 (broadcastInDim S50000x64 ![] bcast_S_S50000x64),
    unary main_v314 main_v351 (broadcastInDim S850000x1 ![0] bcast_S850000_S850000x1_0),
    ternary main_v350 main_v351 main_v349 main_v352 (fun x i u => Host.scatterAdd scatter_S50000x64_S850000x1_S850000x64_1_0_0_1 x i u),
    unary main_arg7 main_v353 (broadcastInDim S1x64 ![1] bcast_S64_S1x64_1),
    unary main_v353 main_v354 (broadcastInDim S50000x64 ![0, 1] bcast_S1x64_S50000x64_0_1),
    binary main_v352 main_v354 main_v355 (addf),
    TRef.nullary (TRef.of (T := ⟨S_, .f32⟩) main_call12_cst) (constant S_ .f32 0x00000000#32),
    TRef.unary (TRef.of (T := ⟨S_, .f32⟩) main_call12_cst) (TRef.of (T := ⟨S50000x64, .f32⟩) main_call12_v0) (broadcastInDim S50000x64 ![] bcast_S_S50000x64),
    TRef.binary (TRef.of (T := ⟨S50000x64, .f32⟩) main_v355) (TRef.of (T := ⟨S50000x64, .f32⟩) main_call12_v0) (TRef.of (T := ⟨S50000x64, .f32⟩) main_v356) maximumf ]
set_option maxRecDepth 8192 in
theorem ops8_sub : (ops8 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops8_fresh : ∀ op ∈ (ops8 : List (HloOp τ sig (Elt F))), op.fresh = ∅ := by
  intro _ h; (repeat (cases h with | head => rfl | tail _ h => ?_)); exact nomatch h

abbrev ops9 : List (HloOp τ sig (Elt F)) :=
  [ nullary main_c_90 (constantI S_ 32 0#32),
    unary main_c_90 main_v357 (broadcastInDim S800000 ![] bcast_S_S800000),
    binary main_v1 main_v357 main_v358 (cmpi .slt),
    nullary main_c_91 (constantI S_ 32 50000#32),
    unary main_c_91 main_v359 (broadcastInDim S800000 ![] bcast_S_S800000),
    binary main_v1 main_v359 main_v360 (addi),
    ternary main_v358 main_v360 main_v1 main_v361 (select),
    unary main_v361 main_v362 (broadcastInDim S800000x1 ![0] bcast_S800000_S800000x1_0),
    binary main_v356 main_v362 main_v363 (fun x i => Host.gather gather_S50000x64_S800000x1_S800000x64_1_0_n_n_0_1_164 x i),
    nullary main_c_92 (constantI S_ 32 0#32),
    unary main_c_92 main_v364 (broadcastInDim S800000 ![] bcast_S_S800000),
    binary main_v3 main_v364 main_v365 (cmpi .slt),
    nullary main_c_93 (constantI S_ 32 50000#32),
    unary main_c_93 main_v366 (broadcastInDim S800000 ![] bcast_S_S800000),
    binary main_v3 main_v366 main_v367 (addi),
    ternary main_v365 main_v367 main_v3 main_v368 (select),
    unary main_v368 main_v369 (broadcastInDim S800000x1 ![0] bcast_S800000_S800000x1_0),
    binary main_v356 main_v369 main_v370 (fun x i => Host.gather gather_S50000x64_S800000x1_S800000x64_1_0_n_n_0_1_164 x i),
    binary main_v363 main_v370 main_v371 (subf),
    unary main_v371 main_v372 (Host.absf),
    nullary main_cst_94 (constant S_ .f32 0x40000000#32),
    unary main_cst_94 main_v373 (broadcastInDim S800000x64 ![] bcast_S_S800000x64),
    binary main_v372 main_v373 main_v374 (Host.powf),
    nullary main_cst_95 (constant S_ .f32 0x00000000#32),
    unary main_cst_95 main_v375 (broadcastInDim S50000x64 ![] bcast_S_S50000x64),
    unary main_v1 main_v376 (broadcastInDim S800000x1 ![0] bcast_S800000_S800000x1_0),
    ternary main_v375 main_v376 main_v374 main_v377 (fun x i u => Host.scatterAdd scatter_S50000x64_S800000x1_S800000x64_1_0_0_1 x i u),
    nullary main_cst_96 (constant S_ .f32 0x3F800000#32),
    unary main_cst_96 main_v378 (broadcastInDim S800000 ![] bcast_S_S800000),
    nullary main_cst_97 (constant S_ .f32 0x00000000#32),
    unary main_cst_97 main_v379 (broadcastInDim S50000 ![] bcast_S_S50000),
    unary main_v1 main_v380 (broadcastInDim S800000x1 ![0] bcast_S800000_S800000x1_0),
    ternary main_v379 main_v380 main_v378 main_v381 (fun x i u => Host.scatterAdd scatter_S50000_S800000x1_S800000_n_0_0_1 x i u),
    nullary main_cst_98 (constant S_ .f32 0x3F800000#32),
    unary main_cst_98 main_v382 (broadcastInDim S50000 ![] bcast_S_S50000),
    binary main_v381 main_v382 main_v383 (maximumf),
    unary main_v383 main_v384 (broadcastInDim S50000x1 ![0] bcast_S50000_S50000x1_0),
    unary main_v384 main_v385 (broadcastInDim S50000x64 ![0, 1] bcast_S50000x1_S50000x64_0_1),
    binary main_v377 main_v385 main_v386 (Host.divf),
    unary main_v386 main_v387 (Host.tanh),
    nullary main_cst_99 (constant S_ .f32 0x3F800000#32),
    unary main_cst_99 main_v388 (broadcastInDim S50000x64 ![] bcast_S_S50000x64),
    binary main_v388 main_v387 main_v389 (subf),
    binary main_v389 main_v264 main_v390 (mulf),
    binary main_v387 main_v310 main_v391 (mulf),
    binary main_v390 main_v391 main_v392 (addf) ]
set_option maxRecDepth 8192 in
theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., binary_bufs_sub .., binary_bufs_sub .., binary_bufs_sub ..⟩
set_option maxRecDepth 8192 in
theorem ops9_fresh : ∀ op ∈ (ops9 : List (HloOp τ sig (Elt F))), op.fresh = ∅ := by
  intro _ h; (repeat (cases h with | head => rfl | tail _ h => ?_)); exact nomatch h

abbrev ops10 : List (HloOp τ sig (Elt F)) :=
  [ binary main_v392 main_arg4 main_v393 (fun l r => Host.dotGeneral dot_S50000x64_S64x64_S50000x64_1_0_0_1_n_n none l r),
    nullary main_v394 (iotaInDim S50000 32 0),
    binary main_v1 main_v394 main_v395 (fun a b => concatenate S850000 0 [⟨S800000, a⟩, ⟨S50000, b⟩] concatenates_S800000_S50000_S850000_d0),
    binary main_v3 main_v394 main_v396 (fun a b => concatenate S850000 0 [⟨S800000, a⟩, ⟨S50000, b⟩] concatenates_S800000_S50000_S850000_d0),
    nullary main_cst_100 (constant S_ .f32 0x3F800000#32),
    unary main_cst_100 main_v397 (broadcastInDim S850000 ![] bcast_S_S850000),
    nullary main_cst_101 (constant S_ .f32 0x00000000#32),
    unary main_cst_101 main_v398 (broadcastInDim S50000 ![] bcast_S_S50000),
    unary main_v396 main_v399 (broadcastInDim S850000x1 ![0] bcast_S850000_S850000x1_0),
    ternary main_v398 main_v399 main_v397 main_v400 (fun x i u => Host.scatterAdd scatter_S50000_S850000x1_S850000_n_0_0_1 x i u),
    nullary main_cst_102 (constant S_ .f32 0x00000000#32),
    unary main_cst_102 main_v401 (broadcastInDim S50000 ![] bcast_S_S50000),
    binary main_v400 main_v401 main_v402 (cmpf .ogt),
    nullary main_cst_103 (constant S_ .f32 0x3F800000#32),
    unary main_cst_103 main_v403 (broadcastInDim S50000 ![] bcast_S_S50000),
    binary main_v400 main_v403 main_v404 (maximumf),
    unary main_v404 main_v405 (Host.rsqrt),
    nullary main_cst_104 (constant S_ .f32 0x00000000#32),
    TRef.unary (TRef.of (T := ⟨S_, .f32⟩) main_cst_104) (TRef.of (T := ⟨S_, .f32⟩) main_call13_v0) id,
    TRef.unary (TRef.of (T := ⟨S_, .f32⟩) main_call13_v0) (TRef.of (T := ⟨S50000, .f32⟩) main_call13_v1) (broadcastInDim S50000 ![] bcast_S_S50000),
    TRef.ternary (TRef.of (T := ⟨S50000, .i1⟩) main_v402) (TRef.of (T := ⟨S50000, .f32⟩) main_v405) (TRef.of (T := ⟨S50000, .f32⟩) main_call13_v1) (TRef.of (T := ⟨S50000, .f32⟩) main_v406) select,
    nullary main_c_105 (constantI S_ 32 0#32),
    unary main_c_105 main_v407 (broadcastInDim S850000 ![] bcast_S_S850000),
    binary main_v395 main_v407 main_v408 (cmpi .slt),
    nullary main_c_106 (constantI S_ 32 50000#32),
    unary main_c_106 main_v409 (broadcastInDim S850000 ![] bcast_S_S850000),
    binary main_v395 main_v409 main_v410 (addi),
    ternary main_v408 main_v410 main_v395 main_v411 (select),
    unary main_v411 main_v412 (broadcastInDim S850000x1 ![0] bcast_S850000_S850000x1_0),
    binary main_v406 main_v412 main_v413 (fun x i => Host.gather gather_S50000_S850000x1_S850000_n_0_n_n_0_1_1 x i),
    nullary main_c_107 (constantI S_ 32 0#32),
    unary main_c_107 main_v414 (broadcastInDim S850000 ![] bcast_S_S850000),
    binary main_v396 main_v414 main_v415 (cmpi .slt),
    nullary main_c_108 (constantI S_ 32 50000#32),
    unary main_c_108 main_v416 (broadcastInDim S850000 ![] bcast_S_S850000),
    binary main_v396 main_v416 main_v417 (addi),
    ternary main_v415 main_v417 main_v396 main_v418 (select),
    unary main_v418 main_v419 (broadcastInDim S850000x1 ![0] bcast_S850000_S850000x1_0),
    binary main_v406 main_v419 main_v420 (fun x i => Host.gather gather_S50000_S850000x1_S850000_n_0_n_n_0_1_1 x i),
    binary main_v413 main_v420 main_v421 (mulf),
    unary main_v421 main_v422 (broadcastInDim S850000x1 ![0] bcast_S850000_S850000x1_0),
    nullary main_c_109 (constantI S_ 32 0#32),
    unary main_c_109 main_v423 (broadcastInDim S850000 ![] bcast_S_S850000),
    binary main_v395 main_v423 main_v424 (cmpi .slt),
    nullary main_c_110 (constantI S_ 32 50000#32),
    unary main_c_110 main_v425 (broadcastInDim S850000 ![] bcast_S_S850000),
    binary main_v395 main_v425 main_v426 (addi),
    ternary main_v424 main_v426 main_v395 main_v427 (select),
    unary main_v427 main_v428 (broadcastInDim S850000x1 ![0] bcast_S850000_S850000x1_0),
    binary main_v393 main_v428 main_v429 (fun x i => Host.gather gather_S50000x64_S850000x1_S850000x64_1_0_n_n_0_1_164 x i),
    unary main_v422 main_v430 (broadcastInDim S850000x64 ![0, 1] bcast_S850000x1_S850000x64_0_1),
    binary main_v430 main_v429 main_v431 (mulf),
    nullary main_cst_111 (constant S_ .f32 0x00000000#32),
    unary main_cst_111 main_v432 (broadcastInDim S50000x64 ![] bcast_S_S50000x64),
    unary main_v396 main_v433 (broadcastInDim S850000x1 ![0] bcast_S850000_S850000x1_0),
    ternary main_v432 main_v433 main_v431 main_v434 (fun x i u => Host.scatterAdd scatter_S50000x64_S850000x1_S850000x64_1_0_0_1 x i u),
    unary main_arg5 main_v435 (broadcastInDim S1x64 ![1] bcast_S64_S1x64_1),
    unary main_v435 main_v436 (broadcastInDim S50000x64 ![0, 1] bcast_S1x64_S50000x64_0_1),
    binary main_v434 main_v436 main_v437 (addf),
    TRef.nullary (TRef.of (T := ⟨S_, .f32⟩) main_call14_cst) (constant S_ .f32 0x00000000#32),
    TRef.unary (TRef.of (T := ⟨S_, .f32⟩) main_call14_cst) (TRef.of (T := ⟨S50000x64, .f32⟩) main_call14_v0) (broadcastInDim S50000x64 ![] bcast_S_S50000x64),
    TRef.binary (TRef.of (T := ⟨S50000x64, .f32⟩) main_v437) (TRef.of (T := ⟨S50000x64, .f32⟩) main_call14_v0) (TRef.of (T := ⟨S50000x64, .f32⟩) main_v438) maximumf ]
set_option maxRecDepth 8192 in
theorem ops10_sub : (ops10 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops10_fresh : ∀ op ∈ (ops10 : List (HloOp τ sig (Elt F))), op.fresh = ∅ := by
  intro _ h; (repeat (cases h with | head => rfl | tail _ h => ?_)); exact nomatch h

abbrev ops11 : List (HloOp τ sig (Elt F)) :=
  [ binary main_v392 main_arg6 main_v439 (fun l r => Host.dotGeneral dot_S50000x64_S64x64_S50000x64_1_0_0_1_n_n none l r),
    nullary main_v440 (iotaInDim S50000 32 0),
    binary main_v1 main_v440 main_v441 (fun a b => concatenate S850000 0 [⟨S800000, a⟩, ⟨S50000, b⟩] concatenates_S800000_S50000_S850000_d0),
    binary main_v3 main_v440 main_v442 (fun a b => concatenate S850000 0 [⟨S800000, a⟩, ⟨S50000, b⟩] concatenates_S800000_S50000_S850000_d0),
    nullary main_cst_112 (constant S_ .f32 0x3F800000#32),
    unary main_cst_112 main_v443 (broadcastInDim S850000 ![] bcast_S_S850000),
    nullary main_cst_113 (constant S_ .f32 0x00000000#32),
    unary main_cst_113 main_v444 (broadcastInDim S50000 ![] bcast_S_S50000),
    unary main_v442 main_v445 (broadcastInDim S850000x1 ![0] bcast_S850000_S850000x1_0),
    ternary main_v444 main_v445 main_v443 main_v446 (fun x i u => Host.scatterAdd scatter_S50000_S850000x1_S850000_n_0_0_1 x i u),
    nullary main_cst_114 (constant S_ .f32 0x00000000#32),
    unary main_cst_114 main_v447 (broadcastInDim S50000 ![] bcast_S_S50000),
    binary main_v446 main_v447 main_v448 (cmpf .ogt),
    nullary main_cst_115 (constant S_ .f32 0x3F800000#32),
    unary main_cst_115 main_v449 (broadcastInDim S50000 ![] bcast_S_S50000),
    binary main_v446 main_v449 main_v450 (maximumf),
    unary main_v450 main_v451 (Host.rsqrt),
    nullary main_cst_116 (constant S_ .f32 0x00000000#32),
    TRef.unary (TRef.of (T := ⟨S_, .f32⟩) main_cst_116) (TRef.of (T := ⟨S_, .f32⟩) main_call15_v0) id,
    TRef.unary (TRef.of (T := ⟨S_, .f32⟩) main_call15_v0) (TRef.of (T := ⟨S50000, .f32⟩) main_call15_v1) (broadcastInDim S50000 ![] bcast_S_S50000),
    TRef.ternary (TRef.of (T := ⟨S50000, .i1⟩) main_v448) (TRef.of (T := ⟨S50000, .f32⟩) main_v451) (TRef.of (T := ⟨S50000, .f32⟩) main_call15_v1) (TRef.of (T := ⟨S50000, .f32⟩) main_v452) select,
    nullary main_c_117 (constantI S_ 32 0#32),
    unary main_c_117 main_v453 (broadcastInDim S850000 ![] bcast_S_S850000),
    binary main_v441 main_v453 main_v454 (cmpi .slt),
    nullary main_c_118 (constantI S_ 32 50000#32),
    unary main_c_118 main_v455 (broadcastInDim S850000 ![] bcast_S_S850000),
    binary main_v441 main_v455 main_v456 (addi),
    ternary main_v454 main_v456 main_v441 main_v457 (select),
    unary main_v457 main_v458 (broadcastInDim S850000x1 ![0] bcast_S850000_S850000x1_0),
    binary main_v452 main_v458 main_v459 (fun x i => Host.gather gather_S50000_S850000x1_S850000_n_0_n_n_0_1_1 x i),
    nullary main_c_119 (constantI S_ 32 0#32),
    unary main_c_119 main_v460 (broadcastInDim S850000 ![] bcast_S_S850000),
    binary main_v442 main_v460 main_v461 (cmpi .slt),
    nullary main_c_120 (constantI S_ 32 50000#32),
    unary main_c_120 main_v462 (broadcastInDim S850000 ![] bcast_S_S850000),
    binary main_v442 main_v462 main_v463 (addi),
    ternary main_v461 main_v463 main_v442 main_v464 (select),
    unary main_v464 main_v465 (broadcastInDim S850000x1 ![0] bcast_S850000_S850000x1_0),
    binary main_v452 main_v465 main_v466 (fun x i => Host.gather gather_S50000_S850000x1_S850000_n_0_n_n_0_1_1 x i),
    binary main_v459 main_v466 main_v467 (mulf),
    unary main_v467 main_v468 (broadcastInDim S850000x1 ![0] bcast_S850000_S850000x1_0),
    nullary main_c_121 (constantI S_ 32 0#32),
    unary main_c_121 main_v469 (broadcastInDim S850000 ![] bcast_S_S850000),
    binary main_v441 main_v469 main_v470 (cmpi .slt),
    nullary main_c_122 (constantI S_ 32 50000#32),
    unary main_c_122 main_v471 (broadcastInDim S850000 ![] bcast_S_S850000),
    binary main_v441 main_v471 main_v472 (addi),
    ternary main_v470 main_v472 main_v441 main_v473 (select),
    unary main_v473 main_v474 (broadcastInDim S850000x1 ![0] bcast_S850000_S850000x1_0),
    binary main_v439 main_v474 main_v475 (fun x i => Host.gather gather_S50000x64_S850000x1_S850000x64_1_0_n_n_0_1_164 x i),
    unary main_v468 main_v476 (broadcastInDim S850000x64 ![0, 1] bcast_S850000x1_S850000x64_0_1),
    binary main_v476 main_v475 main_v477 (mulf),
    nullary main_cst_123 (constant S_ .f32 0x00000000#32),
    unary main_cst_123 main_v478 (broadcastInDim S50000x64 ![] bcast_S_S50000x64),
    unary main_v442 main_v479 (broadcastInDim S850000x1 ![0] bcast_S850000_S850000x1_0),
    ternary main_v478 main_v479 main_v477 main_v480 (fun x i u => Host.scatterAdd scatter_S50000x64_S850000x1_S850000x64_1_0_0_1 x i u),
    unary main_arg7 main_v481 (broadcastInDim S1x64 ![1] bcast_S64_S1x64_1),
    unary main_v481 main_v482 (broadcastInDim S50000x64 ![0, 1] bcast_S1x64_S50000x64_0_1),
    binary main_v480 main_v482 main_v483 (addf),
    TRef.nullary (TRef.of (T := ⟨S_, .f32⟩) main_call16_cst) (constant S_ .f32 0x00000000#32),
    TRef.unary (TRef.of (T := ⟨S_, .f32⟩) main_call16_cst) (TRef.of (T := ⟨S50000x64, .f32⟩) main_call16_v0) (broadcastInDim S50000x64 ![] bcast_S_S50000x64),
    TRef.binary (TRef.of (T := ⟨S50000x64, .f32⟩) main_v483) (TRef.of (T := ⟨S50000x64, .f32⟩) main_call16_v0) (TRef.of (T := ⟨S50000x64, .f32⟩) main_v484) maximumf ]
set_option maxRecDepth 8192 in
theorem ops11_sub : (ops11 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem ops11_fresh : ∀ op ∈ (ops11 : List (HloOp τ sig (Elt F))), op.fresh = ∅ := by
  intro _ h; (repeat (cases h with | head => rfl | tail _ h => ?_)); exact nomatch h

abbrev ops12 : List (HloOp τ sig (Elt F)) :=
  [ nullary main_c_124 (constantI S_ 32 0#32),
    unary main_c_124 main_v485 (broadcastInDim S800000 ![] bcast_S_S800000),
    binary main_v1 main_v485 main_v486 (cmpi .slt),
    nullary main_c_125 (constantI S_ 32 50000#32),
    unary main_c_125 main_v487 (broadcastInDim S800000 ![] bcast_S_S800000),
    binary main_v1 main_v487 main_v488 (addi),
    ternary main_v486 main_v488 main_v1 main_v489 (select),
    unary main_v489 main_v490 (broadcastInDim S800000x1 ![0] bcast_S800000_S800000x1_0),
    binary main_v484 main_v490 main_v491 (fun x i => Host.gather gather_S50000x64_S800000x1_S800000x64_1_0_n_n_0_1_164 x i),
    nullary main_c_126 (constantI S_ 32 0#32),
    unary main_c_126 main_v492 (broadcastInDim S800000 ![] bcast_S_S800000),
    binary main_v3 main_v492 main_v493 (cmpi .slt),
    nullary main_c_127 (constantI S_ 32 50000#32),
    unary main_c_127 main_v494 (broadcastInDim S800000 ![] bcast_S_S800000),
    binary main_v3 main_v494 main_v495 (addi),
    ternary main_v493 main_v495 main_v3 main_v496 (select),
    unary main_v496 main_v497 (broadcastInDim S800000x1 ![0] bcast_S800000_S800000x1_0),
    binary main_v484 main_v497 main_v498 (fun x i => Host.gather gather_S50000x64_S800000x1_S800000x64_1_0_n_n_0_1_164 x i),
    binary main_v491 main_v498 main_v499 (subf),
    unary main_v499 main_v500 (Host.absf),
    nullary main_cst_128 (constant S_ .f32 0x40000000#32),
    unary main_cst_128 main_v501 (broadcastInDim S800000x64 ![] bcast_S_S800000x64),
    binary main_v500 main_v501 main_v502 (Host.powf),
    nullary main_cst_129 (constant S_ .f32 0x00000000#32),
    unary main_cst_129 main_v503 (broadcastInDim S50000x64 ![] bcast_S_S50000x64),
    unary main_v1 main_v504 (broadcastInDim S800000x1 ![0] bcast_S800000_S800000x1_0),
    ternary main_v503 main_v504 main_v502 main_v505 (fun x i u => Host.scatterAdd scatter_S50000x64_S800000x1_S800000x64_1_0_0_1 x i u),
    nullary main_cst_130 (constant S_ .f32 0x3F800000#32),
    unary main_cst_130 main_v506 (broadcastInDim S800000 ![] bcast_S_S800000),
    nullary main_cst_131 (constant S_ .f32 0x00000000#32),
    unary main_cst_131 main_v507 (broadcastInDim S50000 ![] bcast_S_S50000),
    unary main_v1 main_v508 (broadcastInDim S800000x1 ![0] bcast_S800000_S800000x1_0),
    ternary main_v507 main_v508 main_v506 main_v509 (fun x i u => Host.scatterAdd scatter_S50000_S800000x1_S800000_n_0_0_1 x i u),
    nullary main_cst_132 (constant S_ .f32 0x3F800000#32),
    unary main_cst_132 main_v510 (broadcastInDim S50000 ![] bcast_S_S50000),
    binary main_v509 main_v510 main_v511 (maximumf),
    unary main_v511 main_v512 (broadcastInDim S50000x1 ![0] bcast_S50000_S50000x1_0),
    unary main_v512 main_v513 (broadcastInDim S50000x64 ![0, 1] bcast_S50000x1_S50000x64_0_1),
    binary main_v505 main_v513 main_v514 (Host.divf),
    unary main_v514 main_v515 (Host.tanh),
    nullary main_cst_133 (constant S_ .f32 0x3F800000#32),
    unary main_cst_133 main_v516 (broadcastInDim S50000x64 ![] bcast_S_S50000x64),
    binary main_v516 main_v515 main_v517 (subf),
    binary main_v517 main_v392 main_v518 (mulf),
    binary main_v515 main_v438 main_v519 (mulf),
    binary main_v518 main_v519 main_v520 (addf) ]
set_option maxRecDepth 8192 in
theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., binary_bufs_sub .., binary_bufs_sub .., binary_bufs_sub ..⟩
set_option maxRecDepth 8192 in
theorem ops12_fresh : ∀ op ∈ (ops12 : List (HloOp τ sig (Elt F))), op.fresh = ∅ := by
  intro _ h; (repeat (cases h with | head => rfl | tail _ h => ?_)); exact nomatch h

abbrev ops13 : List (HloOp τ sig (Elt F)) :=
  [ binary main_v520 main_arg8 main_v521 (fun l r => Host.dotGeneral dot_S50000x64_S64x64_S50000x64_1_0_0_1_n_n none l r),
    unary main_arg9 main_v522 (broadcastInDim S1x64 ![1] bcast_S64_S1x64_1),
    unary main_v522 main_v523 (broadcastInDim S50000x64 ![0, 1] bcast_S1x64_S50000x64_0_1),
    binary main_v521 main_v523 main_v524 (addf),
    TRef.nullary (TRef.of (T := ⟨S_, .f32⟩) main_call17_cst) (constant S_ .f32 0x00000000#32),
    TRef.unary (TRef.of (T := ⟨S_, .f32⟩) main_call17_cst) (TRef.of (T := ⟨S50000x64, .f32⟩) main_call17_v0) (broadcastInDim S50000x64 ![] bcast_S_S50000x64),
    TRef.binary (TRef.of (T := ⟨S50000x64, .f32⟩) main_v524) (TRef.of (T := ⟨S50000x64, .f32⟩) main_call17_v0) (TRef.of (T := ⟨S50000x64, .f32⟩) main_v525) maximumf ]
set_option maxRecDepth 8192 in
theorem ops13_sub : (ops13 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
set_option maxRecDepth 8192 in
theorem ops13_fresh : ∀ op ∈ (ops13 : List (HloOp τ sig (Elt F))), op.fresh = ∅ := by
  intro _ h; (repeat (cases h with | head => rfl | tail _ h => ?_)); exact nomatch h

abbrev ops : List (HloOp τ sig (Elt F)) :=
  ops0 ++ ops1 ++ ops2 ++ ops3 ++ ops4 ++ ops5 ++ ops6 ++ ops7 ++ ops8 ++ ops9 ++ ops10 ++ ops11 ++ ops12 ++ ops13

set_option maxRecDepth 16384 in
set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  refine List.forall_iff_forall_mem.mpr fun op h => ?_
  simp only [ops, List.mem_append] at h
  rcases h with ((((((((((((h | h) | h) | h) | h) | h) | h) | h) | h) | h) | h) | h) | h) | h
  · exact (List.forall_iff_forall_mem.mp ops0_sub) op h
  · exact (List.forall_iff_forall_mem.mp ops1_sub) op h
  · exact (List.forall_iff_forall_mem.mp ops2_sub) op h
  · exact (List.forall_iff_forall_mem.mp ops3_sub) op h
  · exact (List.forall_iff_forall_mem.mp ops4_sub) op h
  · exact (List.forall_iff_forall_mem.mp ops5_sub) op h
  · exact (List.forall_iff_forall_mem.mp ops6_sub) op h
  · exact (List.forall_iff_forall_mem.mp ops7_sub) op h
  · exact (List.forall_iff_forall_mem.mp ops8_sub) op h
  · exact (List.forall_iff_forall_mem.mp ops9_sub) op h
  · exact (List.forall_iff_forall_mem.mp ops10_sub) op h
  · exact (List.forall_iff_forall_mem.mp ops11_sub) op h
  · exact (List.forall_iff_forall_mem.mp ops12_sub) op h
  · exact (List.forall_iff_forall_mem.mp ops13_sub) op h
theorem ops_fresh : ∀ op ∈ (ops : List (HloOp τ sig (Elt F))), op.fresh = ∅ := by
  intro op h
  simp only [ops, List.mem_append] at h
  rcases h with ((((((((((((h | h) | h) | h) | h) | h) | h) | h) | h) | h) | h) | h) | h) | h
  · exact ops0_fresh op h
  · exact ops1_fresh op h
  · exact ops2_fresh op h
  · exact ops3_fresh op h
  · exact ops4_fresh op h
  · exact ops5_fresh op h
  · exact ops6_fresh op h
  · exact ops7_fresh op h
  · exact ops8_fresh op h
  · exact ops9_fresh op h
  · exact ops10_fresh op h
  · exact ops11_fresh op h
  · exact ops12_fresh op h
  · exact ops13_fresh op h

theorem fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.ReferenceIdeal.Run

end
-- ==== Proof.RGraph.lean ====
import proofs.«402353_j91190745629151_3_alg».proof.Proof.Gen.ReferenceIdeal
import proofs.«402353_j91190745629151_3_alg».proof.Proof.Spec
import Idealize.ShloMosaic.PureOps.Ideal

noncomputable section

namespace Cert.ReferenceIdeal.Graph

open Cert.ReferenceIdeal Idealize.ShloMosaic
open Facts₀

def srcOf (e : IVec S2x800000 32) : IVec S800000 32 :=
  shapeCast S800000 (extractStridedSlice S1x800000 ![0, 0] e slices_S2x800000_S1x800000_0_0) shapeCasts_S1x800000_S800000

def dstOf (e : IVec S2x800000 32) : IVec S800000 32 :=
  shapeCast S800000 (extractStridedSlice S1x800000 ![1, 0] e slices_S2x800000_S1x800000_1_0) shapeCasts_S1x800000_S800000

def selfLoops (v : IVec S800000 32) : IVec S850000 32 :=
  concatenate S850000 0 [⟨S800000, v⟩, ⟨S50000, iotaInDim S50000 32 0⟩] concatenates_S800000_S50000_S850000_d0

def wrapE (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

def wrapS (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def gatherE (s : IVec S850000 32) (x : FVec Ideal S50000x64 .f32) : FVec Ideal S850000x64 .f32 :=
  Host.gather gather_S50000x64_S850000x1_S850000x64_1_0_n_n_0_1_164 x (wrapE s)

def scatterE (d : IVec S850000 32) (u : FVec Ideal S850000x64 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 d) u

def gatherS (s : IVec S800000 32) (x : FVec Ideal S50000x64 .f32) : FVec Ideal S800000x64 .f32 :=
  Host.gather gather_S50000x64_S800000x1_S800000x64_1_0_n_n_0_1_164 x (wrapS s)

def scatterS (s : IVec S800000 32) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 s) u

def degOf (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

def degPos (deg : FVec Ideal S50000 .f32) : IVec S50000 1 :=
  cmpf .ogt deg (broadcastInDim S50000 ![] bcast_S_S50000 (constant (F := Ideal) S_ .f32 0x00000000#32))

def degRsqrt (deg : FVec Ideal S50000 .f32) : FVec Ideal S50000 .f32 :=
  Host.rsqrt (maximumf deg (broadcastInDim S50000 ![] bcast_S_S50000 (constant (F := Ideal) S_ .f32 0x3F800000#32)))

def disOf (deg : FVec Ideal S50000 .f32) : FVec Ideal S50000 .f32 :=
  select (degPos deg) (degRsqrt deg) (broadcastInDim S50000 ![] bcast_S_S50000 (constant (F := Ideal) S_ .f32 0x00000000#32))

def wedgeFrom (dis : FVec Ideal S50000 .f32) (s d : IVec S850000 32) : FVec Ideal S850000x1 .f32 :=
  broadcastInDim S850000x1 ![0] bcast_S850000_S850000x1_0
    (mulf (Host.gather gather_S50000_S850000x1_S850000_n_0_n_n_0_1_1 dis (wrapE s))
      (Host.gather gather_S50000_S850000x1_S850000_n_0_n_n_0_1_1 dis (wrapE d)))

def cntOf (src : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 src)
    (broadcastInDim S800000 ![] bcast_S_S800000 (constant (F := Ideal) S_ .f32 0x3F800000#32))

def cntCol (src : IVec S800000 32) : FVec Ideal S50000x1 .f32 :=
  broadcastInDim S50000x1 ![0] bcast_S50000_S50000x1_0 (cntOf src)

def graphOf (src dst : IVec S800000 32) : Cert.Spec.Graph where
  gatherE := gatherE (selfLoops src)
  scatterE := scatterE (selfLoops dst)
  gatherS := gatherS src
  gatherD := gatherS dst
  scatterS := scatterS src
  wedge := wedgeFrom (disOf (degOf (selfLoops dst))) (selfLoops src) (selfLoops dst)
  cnt := cntCol src

def graph (e : IVec S2x800000 32) : Cert.Spec.Graph := graphOf (srcOf e) (dstOf e)

end Cert.ReferenceIdeal.Graph

end
-- ==== Proof.RVals.lean ====
import proofs.«402353_j91190745629151_3_alg».proof.Proof.ROps
import proofs.«402353_j91190745629151_3_alg».proof.Proof.RGraph
import proofs.«402353_j91190745629151_3_alg».proof.Proof.Spec
import Idealize.ShloMosaic.Lib.Pipeline.Frame

set_option maxRecDepth 16384

noncomputable section

namespace Cert.ReferenceIdeal.Chain

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem congr1 {α β : Sort _} {f : α → β} {a a' : α} (h : a = a') : f a = f a' := h ▸ rfl
theorem congr3 {α β γ δ : Sort _} {f : α → β → γ → δ} {a a' : α} {b b' : β} {c c' : γ} (ha : a = a') (hb : b = b') (hc : c = c') :
    f a b c = f a' b' c' := ha ▸ hb ▸ hc ▸ rfl
theorem congr5 {α β γ δ ε ζ : Sort _} {f : α → β → γ → δ → ε → ζ} {a a' : α} {b b' : β} {c c' : γ} {d d' : δ} {e e' : ε}
    (ha : a = a') (hb : b = b') (hc : c = c') (hd : d = d') (he : e = e') : f a b c d e = f a' b' c' d' e' := ha ▸ hb ▸ hc ▸ hd ▸ he ▸ rfl

/-- The buffers no stretch after the first writes: the arguments and the edge list's two rows. -/
noncomputable def stable : List (Ref sig .tc) :=
  [main_arg0, main_arg1, main_arg2, main_arg3, main_arg4, main_arg5, main_arg6, main_arg7, main_arg8, main_arg9, main_v1, main_v3]

macro "keep_ops " ops:ident : tactic =>
  `(tactic| ((simp only [$ops:ident, stable, List.Forall, StableHlo.nullary_writes, StableHlo.unary_writes, StableHlo.binary_writes,
      StableHlo.ternary_writes, StableHlo.quaternary_writes, StableHlo.reshape_writes, StableHlo.binaryIndexed_writes,
      Finset.mem_singleton]); (repeat' apply And.intro); all_goals exact StableHlo.devRef_ne_of_ne (by decide)))

variable (c : Dev nD)

def A0 : FVec Ideal S50000x256 .f32 := m ((c.tc : Thread nD τ).loc main_arg0)
def E : IVec S2x800000 32 := m ((c.tc : Thread nD τ).loc main_arg1)
def A2 : FVec Ideal S256x64 .f32 := m ((c.tc : Thread nD τ).loc main_arg2)
def A3 : FVec Ideal S64 .f32 := m ((c.tc : Thread nD τ).loc main_arg3)
def A4 : FVec Ideal S64x64 .f32 := m ((c.tc : Thread nD τ).loc main_arg4)
def A5 : FVec Ideal S64 .f32 := m ((c.tc : Thread nD τ).loc main_arg5)
def A6 : FVec Ideal S64x64 .f32 := m ((c.tc : Thread nD τ).loc main_arg6)
def A7 : FVec Ideal S64 .f32 := m ((c.tc : Thread nD τ).loc main_arg7)
def A8 : FVec Ideal S64x64 .f32 := m ((c.tc : Thread nD τ).loc main_arg8)
def A9 : FVec Ideal S64 .f32 := m ((c.tc : Thread nD τ).loc main_arg9)

def SRC : IVec S800000 32 := srcOf (E m c)
def DST : IVec S800000 32 := dstOf (E m c)
def X0 : FVec Ideal S50000x64 .f32 := Cert.Spec.encode (A0 m c) (A2 m c) (A3 m c)

namespace L0
def c1 : FVec Ideal S50000x64 .f32 := (fun s t x w b => Cert.Spec.conv (graphOf s t) x w b) (SRC m c) (DST m c) (X0 m c) (A4 m c) (A5 m c)
def c2 : FVec Ideal S50000x64 .f32 := (fun s t x w b => Cert.Spec.conv (graphOf s t) x w b) (SRC m c) (DST m c) (X0 m c) (A6 m c) (A7 m c)
def Xout : FVec Ideal S50000x64 .f32 :=
  (fun s t g x y => Cert.Spec.gate ((graphOf s t).scatterS (Cert.Spec.diffSq ((graphOf s t).gatherS g) ((graphOf s t).gatherD g))) (graphOf s t).cnt x y) (SRC m c) (DST m c) (c2 m c) (X0 m c) (c1 m c)
theorem Xout_eq : Xout m c = Cert.Spec.layer (graph (E m c)) (A4 m c) (A5 m c) (A6 m c) (A7 m c) (X0 m c) := rfl
end L0

namespace L1
def c1 : FVec Ideal S50000x64 .f32 := (fun s t x w b => Cert.Spec.conv (graphOf s t) x w b) (SRC m c) (DST m c) (L0.Xout m c) (A4 m c) (A5 m c)
def c2 : FVec Ideal S50000x64 .f32 := (fun s t x w b => Cert.Spec.conv (graphOf s t) x w b) (SRC m c) (DST m c) (L0.Xout m c) (A6 m c) (A7 m c)
def Xout : FVec Ideal S50000x64 .f32 :=
  (fun s t g x y => Cert.Spec.gate ((graphOf s t).scatterS (Cert.Spec.diffSq ((graphOf s t).gatherS g) ((graphOf s t).gatherD g))) (graphOf s t).cnt x y) (SRC m c) (DST m c) (c2 m c) (L0.Xout m c) (c1 m c)
theorem Xout_eq : Xout m c = Cert.Spec.layer (graph (E m c)) (A4 m c) (A5 m c) (A6 m c) (A7 m c) (L0.Xout m c) := rfl
end L1

namespace L2
def c1 : FVec Ideal S50000x64 .f32 := (fun s t x w b => Cert.Spec.conv (graphOf s t) x w b) (SRC m c) (DST m c) (L1.Xout m c) (A4 m c) (A5 m c)
def c2 : FVec Ideal S50000x64 .f32 := (fun s t x w b => Cert.Spec.conv (graphOf s t) x w b) (SRC m c) (DST m c) (L1.Xout m c) (A6 m c) (A7 m c)
def Xout : FVec Ideal S50000x64 .f32 :=
  (fun s t g x y => Cert.Spec.gate ((graphOf s t).scatterS (Cert.Spec.diffSq ((graphOf s t).gatherS g) ((graphOf s t).gatherD g))) (graphOf s t).cnt x y) (SRC m c) (DST m c) (c2 m c) (L1.Xout m c) (c1 m c)
theorem Xout_eq : Xout m c = Cert.Spec.layer (graph (E m c)) (A4 m c) (A5 m c) (A6 m c) (A7 m c) (L1.Xout m c) := rfl
end L2

namespace L3
def c1 : FVec Ideal S50000x64 .f32 := (fun s t x w b => Cert.Spec.conv (graphOf s t) x w b) (SRC m c) (DST m c) (L2.Xout m c) (A4 m c) (A5 m c)
def c2 : FVec Ideal S50000x64 .f32 := (fun s t x w b => Cert.Spec.conv (graphOf s t) x w b) (SRC m c) (DST m c) (L2.Xout m c) (A6 m c) (A7 m c)
def Xout : FVec Ideal S50000x64 .f32 :=
  (fun s t g x y => Cert.Spec.gate ((graphOf s t).scatterS (Cert.Spec.diffSq ((graphOf s t).gatherS g) ((graphOf s t).gatherD g))) (graphOf s t).cnt x y) (SRC m c) (DST m c) (c2 m c) (L2.Xout m c) (c1 m c)
theorem Xout_eq : Xout m c = Cert.Spec.layer (graph (E m c)) (A4 m c) (A5 m c) (A6 m c) (A7 m c) (L2.Xout m c) := rfl
end L3

def OUT : FVec Ideal S50000x64 .f32 := Cert.Spec.decode (L3.Xout m c) (A8 m c) (A9 m c)

theorem OUT_eq : OUT m c = Cert.Spec.forward (graph (E m c)) (A0 m c) (A2 m c) (A3 m c) (A4 m c) (A5 m c) (A6 m c) (A7 m c) (A8 m c) (A9 m c) := by
  unfold OUT Cert.Spec.forward
  rw [L3.Xout_eq, L2.Xout_eq, L1.Xout_eq, L0.Xout_eq]
  rfl

def R0 : Valuation τ sig (Elt Ideal) := launchContents m c
def R1 : Valuation τ sig (Elt Ideal) := after ops0 (R0 m c)
def R2 : Valuation τ sig (Elt Ideal) := after ops1 (R1 m c)
def R3 : Valuation τ sig (Elt Ideal) := after ops2 (R2 m c)
def R4 : Valuation τ sig (Elt Ideal) := after ops3 (R3 m c)
def R5 : Valuation τ sig (Elt Ideal) := after ops4 (R4 m c)
def R6 : Valuation τ sig (Elt Ideal) := after ops5 (R5 m c)
def R7 : Valuation τ sig (Elt Ideal) := after ops6 (R6 m c)
def R8 : Valuation τ sig (Elt Ideal) := after ops7 (R7 m c)
def R9 : Valuation τ sig (Elt Ideal) := after ops8 (R8 m c)
def R10 : Valuation τ sig (Elt Ideal) := after ops9 (R9 m c)
def R11 : Valuation τ sig (Elt Ideal) := after ops10 (R10 m c)
def R12 : Valuation τ sig (Elt Ideal) := after ops11 (R11 m c)
def R13 : Valuation τ sig (Elt Ideal) := after ops12 (R12 m c)
def R14 : Valuation τ sig (Elt Ideal) := after ops13 (R13 m c)

theorem fold_eq : after (ops (F := Ideal)) (launchContents m c) = R14 m c := by
  simp only [ops, after_append]
  rfl

end Cert.ReferenceIdeal.Chain

end
-- ==== Proof.RefKinds.lean ====
import proofs.«402353_j91190745629151_3_alg».proof.Proof.Spec
import proofs.«402353_j91190745629151_3_alg».proof.ReferenceIdeal
import Idealize.ShloMosaic.PureOps.Ideal
import Idealize.ShloMosaic.PureOps.Ideal.Laws
import Idealize.ShloMosaic.PureOps.Dims
import Idealize.ShloMosaic.Lib.ValueIdx
import Idealize.ShloMosaic.Lib.Pipeline.Value
import Idealize.ShloMosaic.Lib.IdealHost

noncomputable section

namespace Cert.ReferenceIdeal.Kinds

open Cert.ReferenceIdeal Cert.ReferenceIdeal.Facts₀ Idealize.ShloMosaic Idealize.ShloMosaic.ValueIdx
open scoped BigOperators

variable [Facts₀]

theorem lhs64_0 (j : S50000x64.Idx) (k : dot_S50000x64_S64x64_S50000x64_1_0_0_1_n_n.contr.Idx) :
    (dot_S50000x64_S64x64_S50000x64_1_0_0_1_n_n.lhsIdx j k 0 : ℕ) = j 0 := by
  simp [DotDims.lhsIdx, dot_S50000x64_S64x64_S50000x64_1_0_0_1_n_n]; rfl
theorem lhs64_1 (j : S50000x64.Idx) (k : dot_S50000x64_S64x64_S50000x64_1_0_0_1_n_n.contr.Idx) :
    (dot_S50000x64_S64x64_S50000x64_1_0_0_1_n_n.lhsIdx j k 1 : ℕ) = k ⟨0, Nat.one_pos⟩ := by
  simp [DotDims.lhsIdx, dot_S50000x64_S64x64_S50000x64_1_0_0_1_n_n]; rfl
theorem rhs64_0 (j : S50000x64.Idx) (k : dot_S50000x64_S64x64_S50000x64_1_0_0_1_n_n.contr.Idx) :
    (dot_S50000x64_S64x64_S50000x64_1_0_0_1_n_n.rhsIdx j k 0 : ℕ) = k ⟨0, Nat.one_pos⟩ := by
  simp [DotDims.rhsIdx, dot_S50000x64_S64x64_S50000x64_1_0_0_1_n_n]; rfl
theorem rhs64_1 (j : S50000x64.Idx) (k : dot_S50000x64_S64x64_S50000x64_1_0_0_1_n_n.contr.Idx) :
    (dot_S50000x64_S64x64_S50000x64_1_0_0_1_n_n.rhsIdx j k 1 : ℕ) = j 1 := by
  simp [DotDims.rhsIdx, dot_S50000x64_S64x64_S50000x64_1_0_0_1_n_n]; rfl

abbrev ce64 : dot_S50000x64_S64x64_S50000x64_1_0_0_1_n_n.contr.Idx ≃ Fin 64 :=
  contrEquiv1 dot_S50000x64_S64x64_S50000x64_1_0_0_1_n_n 64 rfl rfl

theorem dot64_apply (x : FVec Ideal S50000x64 .f32) (w : FVec Ideal S64x64 .f32) (p : Fin 50000) (q : Fin 64) :
    Host.dotGeneral dot_S50000x64_S64x64_S50000x64_1_0_0_1_n_n none x w (ix2 p q)
      = ∑ k : Fin 64, x (ix2 p k) * w (ix2 k q) := by
  simp only [Host.dotGeneral]
  refine (Ideal.dotGeneral_apply _ _ _ _ _ _).trans ?_
  rw [← Equiv.sum_comp ce64.symm]
  refine Finset.sum_congr rfl fun k _ => ?_
  congr 2
  · funext a
    match a with
    | ⟨0, _⟩ => exact Fin.ext (lhs64_0 _ _)
    | ⟨1, _⟩ => exact Fin.ext ((lhs64_1 _ _).trans (contrEquiv1_symm_val _ 64 rfl rfl k))
  · funext a
    match a with
    | ⟨0, _⟩ => exact Fin.ext ((rhs64_0 _ _).trans (contrEquiv1_symm_val _ 64 rfl rfl k))
    | ⟨1, _⟩ => exact Fin.ext (rhs64_1 _ _)

theorem mm64 (x : FVec Ideal S50000x64 .f32) (w : FVec Ideal S64x64 .f32) :
    Host.dotGeneral dot_S50000x64_S64x64_S50000x64_1_0_0_1_n_n none x w = Cert.Spec.mm64 x w := by
  funext i
  obtain ⟨p, q, rfl⟩ : ∃ (p : Fin 50000) (q : Fin 64), i = ix2 p q := ⟨i 0, i 1, eq_ix2 i⟩
  exact dot64_apply x w p q

theorem bcastCol_apply {α : Type} {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

theorem bcastRow_apply {α : Type} {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

theorem bcastVecRow_apply {α : Type} {b : ℕ} (v : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

theorem bcastVecCol_apply {α : Type} {a : ℕ} (v : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

theorem scale (wcol : FVec Ideal S850000x1 .f32) (g : FVec Ideal S850000x64 .f32) :
    mulf (broadcastInDim S850000x64 ![0, 1] bcast_S850000x1_S850000x64_0_1 wcol) g = Cert.Spec.scale g wcol := by
  funext i
  obtain ⟨p, q, rfl⟩ : ∃ (p : Fin 850000) (q : Fin 64), i = ix2 p q := ⟨i 0, i 1, eq_ix2 i⟩
  show broadcastInDim S850000x64 ![0, 1] bcast_S850000x1_S850000x64_0_1 wcol (ix2 p q) * g (ix2 p q)
    = g (ix2 p q) * wcol (ix2 p (0 : Fin 1))
  rw [mul_comm]
  exact congrArg (g (ix2 p q) * ·) (bcastCol_apply wcol _ p q)

theorem biasRows_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) :=
  (bcastRow_apply _ _ p q).trans (bcastVecRow_apply b _ 0 q)

theorem splat_apply (c : BitVec 32) (i : S50000x64.Idx) :
    broadcastInDim S50000x64 ![] bcast_S_S50000x64 (constant (F := Ideal) S_ .f32 c) i = Ideal.ofBits .f32 c :=
  broadcastInDim_scalar_apply _ _ i

theorem biasRelu (a : FVec Ideal S50000x64 .f32) (b : FVec Ideal S64 .f32) :
    maximumf (addf a (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32)) = Cert.Spec.biasRelu a b := by
  funext i
  obtain ⟨p, q, rfl⟩ : ∃ (p : Fin 50000) (q : Fin 64), i = ix2 p q := ⟨i 0, i 1, eq_ix2 i⟩
  show max (a (ix2 p q) + broadcastInDim S50000x64 ![0, 1] bcast_S1x64_S50000x64_0_1 (broadcastInDim S1x64 ![1] bcast_S64_S1x64_1 b) (ix2 p q))
      (broadcastInDim S50000x64 ![] bcast_S_S50000x64 (constant (F := Ideal) S_ .f32 0x00000000#32) (ix2 p q))
    = max (a (ix2 p q) + b (ix1 q)) (Ideal.ofBits .f32 0x00000000#32)
  rw [biasRows_apply, splat_apply]

theorem two_word : Ideal.ofBits .f32 0x40000000#32 = ((2 : ℝ) : EReal) := by
  simp [Ideal.ofBits, Ideal.ieee, -EReal.coe_mul]; norm_num

theorem max_neg_coe (r : ℝ) : max (r : EReal) (-(r : EReal)) = ((max r (-r) : ℝ) : EReal) := by
  rw [← EReal.coe_neg]
  exact (EReal.coe_strictMono.monotone.map_max).symm

theorem pow_two_abs (x : EReal) :
    Ideal.pow (max x (-x)) (Ideal.ofBits .f32 0x40000000#32) = max x (-x) * max x (-x) := by
  rw [two_word]
  induction x using EReal.rec with
  | bot =>
    rw [EReal.neg_bot, max_eq_right bot_le, Ideal.pow_top,
      if_pos (EReal.coe_pos.mpr (two_pos : (0 : ℝ) < 2)), EReal.top_mul_top]
  | top =>
    rw [EReal.neg_top, max_eq_left bot_le, Ideal.pow_top,
      if_pos (EReal.coe_pos.mpr (two_pos : (0 : ℝ) < 2)), EReal.top_mul_top]
  | coe r =>
    rw [max_neg_coe, Ideal.pow_coe_coe, ← EReal.coe_mul]
    refine congrArg Real.toEReal ?_
    show (max r (-r)) ^ (2 : ℝ) = max r (-r) * max r (-r)
    rw [Real.rpow_two, sq]

theorem diffSq (p q : FVec Ideal S800000x64 .f32) :
    Host.powf (Host.absf (subf p q)) (broadcastInDim S800000x64 ![] bcast_S_S800000x64 (constant (F := Ideal) S_ .f32 0x40000000#32)) = Cert.Spec.diffSq p q := by
  funext i
  show Ideal.pow (max (p i - q i) (-(p i - q i)))
      (broadcastInDim S800000x64 ![] bcast_S_S800000x64 (constant (F := Ideal) S_ .f32 0x40000000#32) i)
    = max (p i - q i) (-(p i - q i)) * max (p i - q i) (-(p i - q i))
  rw [broadcastInDim_scalar_apply]
  exact pow_two_abs (p i - q i)

theorem denom_apply (cnt : FVec Ideal S50000 .f32) (p : Fin 50000) (q : Fin 64) :
    broadcastInDim S50000x64 ![0, 1] bcast_S50000x1_S50000x64_0_1 (broadcastInDim S50000x1 ![0] bcast_S50000_S50000x1_0
        (maximumf cnt (broadcastInDim S50000 ![] bcast_S_S50000 (constant (F := Ideal) S_ .f32 0x3F800000#32)))) (ix2 p q)
      = max (broadcastInDim S50000x1 ![0] bcast_S50000_S50000x1_0 cnt (ix2 p (0 : Fin 1))) (Ideal.ofBits .f32 0x3F800000#32) := by
  refine (bcastCol_apply _ _ p q).trans ((bcastVecCol_apply _ _ p 0).trans ?_)
  show max (cnt (ix1 p)) (broadcastInDim S50000 ![] bcast_S_S50000 (constant (F := Ideal) S_ .f32 0x3F800000#32) (ix1 p))
    = max (broadcastInDim S50000x1 ![0] bcast_S50000_S50000x1_0 cnt (ix2 p (0 : Fin 1))) (Ideal.ofBits .f32 0x3F800000#32)
  rw [bcastVecCol_apply cnt _ p 0, broadcastInDim_scalar_apply]
  rfl

theorem tau_apply (sums : FVec Ideal S50000x64 .f32) (cnt : FVec Ideal S50000 .f32) (p : Fin 50000) (q : Fin 64) :
    Host.tanh (Host.divf sums (broadcastInDim S50000x64 ![0, 1] bcast_S50000x1_S50000x64_0_1 (broadcastInDim S50000x1 ![0] bcast_S50000_S50000x1_0
        (maximumf cnt (broadcastInDim S50000 ![] bcast_S_S50000 (constant (F := Ideal) S_ .f32 0x3F800000#32)))))) (ix2 p q)
      = Cert.Spec.tau sums (broadcastInDim S50000x1 ![0] bcast_S50000_S50000x1_0 cnt) (ix2 p q) := by
  show Ideal.tanh (Ideal.div (sums (ix2 p q)) (broadcastInDim S50000x64 ![0, 1] bcast_S50000x1_S50000x64_0_1 (broadcastInDim S50000x1 ![0] bcast_S50000_S50000x1_0
        (maximumf cnt (broadcastInDim S50000 ![] bcast_S_S50000 (constant (F := Ideal) S_ .f32 0x3F800000#32)))) (ix2 p q)))
    = Ideal.tanh (Ideal.div (sums (ix2 p q)) (max (broadcastInDim S50000x1 ![0] bcast_S50000_S50000x1_0 cnt (ix2 p (0 : Fin 1))) (Ideal.ofBits .f32 0x3F800000#32)))
  rw [denom_apply]

theorem gate (sums : FVec Ideal S50000x64 .f32) (cnt : FVec Ideal S50000 .f32) (x xn : FVec Ideal S50000x64 .f32) :
    addf (mulf (subf (broadcastInDim S50000x64 ![] bcast_S_S50000x64 (constant (F := Ideal) S_ .f32 0x3F800000#32)) (Host.tanh (Host.divf sums (broadcastInDim S50000x64 ![0, 1] bcast_S50000x1_S50000x64_0_1 (broadcastInDim S50000x1 ![0] bcast_S50000_S50000x1_0 (maximumf cnt (broadcastInDim S50000 ![] bcast_S_S50000 (constant (F := Ideal) S_ .f32 0x3F800000#32)))))))) x) (mulf (Host.tanh (Host.divf sums (broadcastInDim S50000x64 ![0, 1] bcast_S50000x1_S50000x64_0_1 (broadcastInDim S50000x1 ![0] bcast_S50000_S50000x1_0 (maximumf cnt (broadcastInDim S50000 ![] bcast_S_S50000 (constant (F := Ideal) S_ .f32 0x3F800000#32))))))) xn)
        = Cert.Spec.gate sums (broadcastInDim S50000x1 ![0] bcast_S50000_S50000x1_0 cnt) x xn := by
  funext i
  obtain ⟨p, q, rfl⟩ : ∃ (p : Fin 50000) (q : Fin 64), i = ix2 p q := ⟨i 0, i 1, eq_ix2 i⟩
  have hT := tau_apply sums cnt p q
  have h1 := splat_apply 0x3F800000#32 (ix2 p q)
  show (_ - _) * x (ix2 p q) + _ * xn (ix2 p q)
    = (Ideal.ofBits .f32 0x3F800000#32 - Cert.Spec.tau sums _ (ix2 p q)) * x (ix2 p q) + Cert.Spec.tau sums _ (ix2 p q) * xn (ix2 p q)
  rw [h1, hT]

theorem decode (x : FVec Ideal S50000x64 .f32) (w : FVec Ideal S64x64 .f32) (b : FVec Ideal S64 .f32) :
    maximumf (addf (Host.dotGeneral dot_S50000x64_S64x64_S50000x64_1_0_0_1_n_n none x w) (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32)) = Cert.Spec.decode x w b := by
  funext i
  obtain ⟨p, q, rfl⟩ : ∃ (p : Fin 50000) (q : Fin 64), i = ix2 p q := ⟨i 0, i 1, eq_ix2 i⟩
  show max (Host.dotGeneral dot_S50000x64_S64x64_S50000x64_1_0_0_1_n_n none x w (ix2 p q)
        + broadcastInDim S50000x64 ![0, 1] bcast_S1x64_S50000x64_0_1 (broadcastInDim S1x64 ![1] bcast_S64_S1x64_1 b) (ix2 p q))
      (broadcastInDim S50000x64 ![] bcast_S_S50000x64 (constant (F := Ideal) S_ .f32 0x00000000#32) (ix2 p q))
    = max ((∑ k : Fin 64, x (ix2 p k) * w (ix2 k q)) + b (ix1 q)) (Ideal.ofBits .f32 0x00000000#32)
  rw [dot64_apply, biasRows_apply, splat_apply]

theorem lhs256_0 (j : S50000x64.Idx) (k : dot_S50000x256_S256x64_S50000x64_1_0_0_1_n_n.contr.Idx) :
    (dot_S50000x256_S256x64_S50000x64_1_0_0_1_n_n.lhsIdx j k 0 : ℕ) = j 0 := by
  simp [DotDims.lhsIdx, dot_S50000x256_S256x64_S50000x64_1_0_0_1_n_n]; rfl
theorem lhs256_1 (j : S50000x64.Idx) (k : dot_S50000x256_S256x64_S50000x64_1_0_0_1_n_n.contr.Idx) :
    (dot_S50000x256_S256x64_S50000x64_1_0_0_1_n_n.lhsIdx j k 1 : ℕ) = k ⟨0, Nat.one_pos⟩ := by
  simp [DotDims.lhsIdx, dot_S50000x256_S256x64_S50000x64_1_0_0_1_n_n]; rfl
theorem rhs256_0 (j : S50000x64.Idx) (k : dot_S50000x256_S256x64_S50000x64_1_0_0_1_n_n.contr.Idx) :
    (dot_S50000x256_S256x64_S50000x64_1_0_0_1_n_n.rhsIdx j k 0 : ℕ) = k ⟨0, Nat.one_pos⟩ := by
  simp [DotDims.rhsIdx, dot_S50000x256_S256x64_S50000x64_1_0_0_1_n_n]; rfl
theorem rhs256_1 (j : S50000x64.Idx) (k : dot_S50000x256_S256x64_S50000x64_1_0_0_1_n_n.contr.Idx) :
    (dot_S50000x256_S256x64_S50000x64_1_0_0_1_n_n.rhsIdx j k 1 : ℕ) = j 1 := by
  simp [DotDims.rhsIdx, dot_S50000x256_S256x64_S50000x64_1_0_0_1_n_n]; rfl

abbrev ce256 : dot_S50000x256_S256x64_S50000x64_1_0_0_1_n_n.contr.Idx ≃ Fin 256 :=
  contrEquiv1 dot_S50000x256_S256x64_S50000x64_1_0_0_1_n_n 256 rfl rfl

theorem dot256_apply (x : FVec Ideal S50000x256 .f32) (w : FVec Ideal S256x64 .f32) (p : Fin 50000) (q : Fin 64) :
    Host.dotGeneral dot_S50000x256_S256x64_S50000x64_1_0_0_1_n_n none x w (ix2 p q)
      = ∑ k : Fin 256, x (ix2 p k) * w (ix2 k q) := by
  simp only [Host.dotGeneral]
  refine (Ideal.dotGeneral_apply _ _ _ _ _ _).trans ?_
  rw [← Equiv.sum_comp ce256.symm]
  refine Finset.sum_congr rfl fun k _ => ?_
  congr 2
  · funext a
    match a with
    | ⟨0, _⟩ => exact Fin.ext (lhs256_0 _ _)
    | ⟨1, _⟩ => exact Fin.ext ((lhs256_1 _ _).trans (contrEquiv1_symm_val _ 256 rfl rfl k))
  · funext a
    match a with
    | ⟨0, _⟩ => exact Fin.ext ((rhs256_0 _ _).trans (contrEquiv1_symm_val _ 256 rfl rfl k))
    | ⟨1, _⟩ => exact Fin.ext (rhs256_1 _ _)

theorem encode (x : FVec Ideal S50000x256 .f32) (w : FVec Ideal S256x64 .f32) (b : FVec Ideal S64 .f32) :
    maximumf (addf (Host.dotGeneral dot_S50000x256_S256x64_S50000x64_1_0_0_1_n_n none x w) (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32)) = Cert.Spec.encode x w b := by
  funext i
  obtain ⟨p, q, rfl⟩ : ∃ (p : Fin 50000) (q : Fin 64), i = ix2 p q := ⟨i 0, i 1, eq_ix2 i⟩
  show max (Host.dotGeneral dot_S50000x256_S256x64_S50000x64_1_0_0_1_n_n none x w (ix2 p q)
        + broadcastInDim S50000x64 ![0, 1] bcast_S1x64_S50000x64_0_1 (broadcastInDim S1x64 ![1] bcast_S64_S1x64_1 b) (ix2 p q))
      (broadcastInDim S50000x64 ![] bcast_S_S50000x64 (constant (F := Ideal) S_ .f32 0x00000000#32) (ix2 p q))
    = max ((∑ k : Fin 256, x (ix2 p k) * w (ix2 k q)) + b (ix1 q)) (Ideal.ofBits .f32 0x00000000#32)
  rw [dot256_apply, biasRows_apply, splat_apply]

end Cert.ReferenceIdeal.Kinds

end
-- ==== Proof.RStageEnds.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.Stage

open Cert.ReferenceIdeal Cert.ReferenceIdeal.Run Cert.ReferenceIdeal.Graph Idealize.ShloMosaic Idealize.ShloMosaic.TcCoe Idealize.ShloMosaic.StableHlo
open Idealize.SL.Sem

theorem dec (W : Valuation τ sig (Elt Ideal)) :
    after ops13 W (Proc.devRef .tc main_v525)
      = Cert.Spec.decode (W (Proc.devRef .tc main_v520)) (W (Proc.devRef .tc main_arg8)) (W (Proc.devRef .tc main_arg9)) := by
  after_results
  exact Kinds.decode _ _ _

theorem enc (W : Valuation τ sig (Elt Ideal)) :
    after ops0 W (Proc.devRef .tc main_v8)
      = Cert.Spec.encode (W (Proc.devRef .tc main_arg0)) (W (Proc.devRef .tc main_arg2)) (W (Proc.devRef .tc main_arg3)) := by
  after_results
  exact Kinds.encode _ _ _

theorem src (W : Valuation τ sig (Elt Ideal)) :
    after ops0 W (Proc.devRef .tc main_v1) = srcOf (W (Proc.devRef .tc main_arg1)) := by
  after_results
  rfl

theorem dst (W : Valuation τ sig (Elt Ideal)) :
    after ops0 W (Proc.devRef .tc main_v3) = dstOf (W (Proc.devRef .tc main_arg1)) := by
  after_results
  rfl

end Cert.ReferenceIdeal.Stage

end
-- ==== Proof.RStageConvL3.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.StageL3

open Cert.ReferenceIdeal Cert.ReferenceIdeal.Run Cert.ReferenceIdeal.Graph Idealize.ShloMosaic Idealize.ShloMosaic.StableHlo
open Idealize.SL.Sem

theorem after_cut (k : ℕ) (ops : List (HloOp τ sig (Elt Ideal))) (V : Valuation τ sig (Elt Ideal)) :
    after ops V = after (ops.drop k) (after (ops.take k) V) := by
  rw [← after_append, List.take_append_drop]

theorem conv1_dot (W : Valuation τ sig (Elt Ideal)) :
    after (ops10.take 4) W (Proc.devRef .tc main_v393)
      = Cert.Spec.mm64 (W (Proc.devRef .tc main_v392)) (W (Proc.devRef .tc main_arg4)) := by
  simp only [ops10, List.take_succ_cons, List.take_zero]
  after_results
  exact Kinds.mm64 _ _

theorem conv1_src (W : Valuation τ sig (Elt Ideal)) :
    after (ops10.take 4) W (Proc.devRef .tc main_v395) = selfLoops (W (Proc.devRef .tc main_v1)) := by
  simp only [ops10, List.take_succ_cons, List.take_zero]
  after_results
  rfl

theorem conv1_dst (W : Valuation τ sig (Elt Ideal)) :
    after (ops10.take 4) W (Proc.devRef .tc main_v396) = selfLoops (W (Proc.devRef .tc main_v3)) := by
  simp only [ops10, List.take_succ_cons, List.take_zero]
  after_results
  rfl

theorem conv1_bias (W : Valuation τ sig (Elt Ideal)) :
    after (ops10.take 4) W (Proc.devRef .tc main_arg5) = W (Proc.devRef .tc main_arg5) := by
  simp only [ops10, List.take_succ_cons, List.take_zero]
  after_results

set_option maxRecDepth 8192 in
set_option maxHeartbeats 4000000 in
theorem conv1_rest (W : Valuation τ sig (Elt Ideal)) :
    after (ops10.drop 4) W (Proc.devRef .tc main_v438)
      = Cert.Spec.biasRelu
          (scatterE (W (Proc.devRef .tc main_v396))
            (Cert.Spec.scale (gatherE (W (Proc.devRef .tc main_v395)) (W (Proc.devRef .tc main_v393)))
              (wedgeFrom (disOf (degOf (W (Proc.devRef .tc main_v396)))) (W (Proc.devRef .tc main_v395)) (W (Proc.devRef .tc main_v396)))))
          (W (Proc.devRef .tc main_arg5)) := by
  simp only [ops10, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv1 (W : Valuation τ sig (Elt Ideal)) :
    after ops10 W (Proc.devRef .tc main_v438)
      = Cert.Spec.conv (graphOf (W (Proc.devRef .tc main_v1)) (W (Proc.devRef .tc main_v3)))
          (W (Proc.devRef .tc main_v392)) (W (Proc.devRef .tc main_arg4)) (W (Proc.devRef .tc main_arg5)) := by
  rw [after_cut 4 ops10 W, conv1_rest, conv1_dst, conv1_src, conv1_dot, conv1_bias]
  rfl

theorem conv2_dot (W : Valuation τ sig (Elt Ideal)) :
    after (ops11.take 4) W (Proc.devRef .tc main_v439)
      = Cert.Spec.mm64 (W (Proc.devRef .tc main_v392)) (W (Proc.devRef .tc main_arg6)) := by
  simp only [ops11, List.take_succ_cons, List.take_zero]
  after_results
  exact Kinds.mm64 _ _

theorem conv2_src (W : Valuation τ sig (Elt Ideal)) :
    after (ops11.take 4) W (Proc.devRef .tc main_v441) = selfLoops (W (Proc.devRef .tc main_v1)) := by
  simp only [ops11, List.take_succ_cons, List.take_zero]
  after_results
  rfl

theorem conv2_dst (W : Valuation τ sig (Elt Ideal)) :
    after (ops11.take 4) W (Proc.devRef .tc main_v442) = selfLoops (W (Proc.devRef .tc main_v3)) := by
  simp only [ops11, List.take_succ_cons, List.take_zero]
  after_results
  rfl

theorem conv2_bias (W : Valuation τ sig (Elt Ideal)) :
    after (ops11.take 4) W (Proc.devRef .tc main_arg7) = W (Proc.devRef .tc main_arg7) := by
  simp only [ops11, List.take_succ_cons, List.take_zero]
  after_results

set_option maxRecDepth 8192 in
set_option maxHeartbeats 4000000 in
theorem conv2_rest (W : Valuation τ sig (Elt Ideal)) :
    after (ops11.drop 4) W (Proc.devRef .tc main_v484)
      = Cert.Spec.biasRelu
          (scatterE (W (Proc.devRef .tc main_v442))
            (Cert.Spec.scale (gatherE (W (Proc.devRef .tc main_v441)) (W (Proc.devRef .tc main_v439)))
              (wedgeFrom (disOf (degOf (W (Proc.devRef .tc main_v442)))) (W (Proc.devRef .tc main_v441)) (W (Proc.devRef .tc main_v442)))))
          (W (Proc.devRef .tc main_arg7)) := by
  simp only [ops11, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv2 (W : Valuation τ sig (Elt Ideal)) :
    after ops11 W (Proc.devRef .tc main_v484)
      = Cert.Spec.conv (graphOf (W (Proc.devRef .tc main_v1)) (W (Proc.devRef .tc main_v3)))
          (W (Proc.devRef .tc main_v392)) (W (Proc.devRef .tc main_arg6)) (W (Proc.devRef .tc main_arg7)) := by
  rw [after_cut 4 ops11 W, conv2_rest, conv2_dst, conv2_src, conv2_dot, conv2_bias]
  rfl

end Cert.ReferenceIdeal.StageL3

end
-- ==== Proof.RStageGateL3.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.StageL3

open Cert.ReferenceIdeal Cert.ReferenceIdeal.Run Cert.ReferenceIdeal.Graph Idealize.ShloMosaic Idealize.ShloMosaic.TcCoe Idealize.ShloMosaic.StableHlo
open Idealize.SL.Sem

set_option maxRecDepth 8192 in
theorem gate (W : Valuation τ sig (Elt Ideal)) :
    after ops12 W (Proc.devRef .tc main_v520)
      = Cert.Spec.gate
          ((graphOf (W (Proc.devRef .tc main_v1)) (W (Proc.devRef .tc main_v3))).scatterS
            (Cert.Spec.diffSq
              ((graphOf (W (Proc.devRef .tc main_v1)) (W (Proc.devRef .tc main_v3))).gatherS (W (Proc.devRef .tc main_v484)))
              ((graphOf (W (Proc.devRef .tc main_v1)) (W (Proc.devRef .tc main_v3))).gatherD (W (Proc.devRef .tc main_v484)))))
          (graphOf (W (Proc.devRef .tc main_v1)) (W (Proc.devRef .tc main_v3))).cnt
          (W (Proc.devRef .tc main_v392)) (W (Proc.devRef .tc main_v438)) := by
  after_results_simp
  have hd := Kinds.diffSq (gatherS (W (Proc.devRef .tc main_v1)) (W (Proc.devRef .tc main_v484)))
    (gatherS (W (Proc.devRef .tc main_v3)) (W (Proc.devRef .tc main_v484)))
  have hg := Kinds.gate
    (scatterS (W (Proc.devRef .tc main_v1))
      (Cert.Spec.diffSq (gatherS (W (Proc.devRef .tc main_v1)) (W (Proc.devRef .tc main_v484)))
        (gatherS (W (Proc.devRef .tc main_v3)) (W (Proc.devRef .tc main_v484)))))
    (cntOf (W (Proc.devRef .tc main_v1))) (W (Proc.devRef .tc main_v392)) (W (Proc.devRef .tc main_v438))
  refine Eq.trans ?_ hg
  rw [← hd]
  rfl

end Cert.ReferenceIdeal.StageL3

end
-- ==== Proof.RStageConvL2.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.StageL2

open Cert.ReferenceIdeal Cert.ReferenceIdeal.Run Cert.ReferenceIdeal.Graph Idealize.ShloMosaic Idealize.ShloMosaic.StableHlo
open Idealize.SL.Sem

theorem after_cut (k : ℕ) (ops : List (HloOp τ sig (Elt Ideal))) (V : Valuation τ sig (Elt Ideal)) :
    after ops V = after (ops.drop k) (after (ops.take k) V) := by
  rw [← after_append, List.take_append_drop]

theorem conv1_dot (W : Valuation τ sig (Elt Ideal)) :
    after (ops7.take 4) W (Proc.devRef .tc main_v265)
      = Cert.Spec.mm64 (W (Proc.devRef .tc main_v264)) (W (Proc.devRef .tc main_arg4)) := by
  simp only [ops7, List.take_succ_cons, List.take_zero]
  after_results
  exact Kinds.mm64 _ _

theorem conv1_src (W : Valuation τ sig (Elt Ideal)) :
    after (ops7.take 4) W (Proc.devRef .tc main_v267) = selfLoops (W (Proc.devRef .tc main_v1)) := by
  simp only [ops7, List.take_succ_cons, List.take_zero]
  after_results
  rfl

theorem conv1_dst (W : Valuation τ sig (Elt Ideal)) :
    after (ops7.take 4) W (Proc.devRef .tc main_v268) = selfLoops (W (Proc.devRef .tc main_v3)) := by
  simp only [ops7, List.take_succ_cons, List.take_zero]
  after_results
  rfl

theorem conv1_bias (W : Valuation τ sig (Elt Ideal)) :
    after (ops7.take 4) W (Proc.devRef .tc main_arg5) = W (Proc.devRef .tc main_arg5) := by
  simp only [ops7, List.take_succ_cons, List.take_zero]
  after_results

set_option maxRecDepth 8192 in
set_option maxHeartbeats 4000000 in
theorem conv1_rest (W : Valuation τ sig (Elt Ideal)) :
    after (ops7.drop 4) W (Proc.devRef .tc main_v310)
      = Cert.Spec.biasRelu
          (scatterE (W (Proc.devRef .tc main_v268))
            (Cert.Spec.scale (gatherE (W (Proc.devRef .tc main_v267)) (W (Proc.devRef .tc main_v265)))
              (wedgeFrom (disOf (degOf (W (Proc.devRef .tc main_v268)))) (W (Proc.devRef .tc main_v267)) (W (Proc.devRef .tc main_v268)))))
          (W (Proc.devRef .tc main_arg5)) := by
  simp only [ops7, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv1 (W : Valuation τ sig (Elt Ideal)) :
    after ops7 W (Proc.devRef .tc main_v310)
      = Cert.Spec.conv (graphOf (W (Proc.devRef .tc main_v1)) (W (Proc.devRef .tc main_v3)))
          (W (Proc.devRef .tc main_v264)) (W (Proc.devRef .tc main_arg4)) (W (Proc.devRef .tc main_arg5)) := by
  rw [after_cut 4 ops7 W, conv1_rest, conv1_dst, conv1_src, conv1_dot, conv1_bias]
  rfl

theorem conv2_dot (W : Valuation τ sig (Elt Ideal)) :
    after (ops8.take 4) W (Proc.devRef .tc main_v311)
      = Cert.Spec.mm64 (W (Proc.devRef .tc main_v264)) (W (Proc.devRef .tc main_arg6)) := by
  simp only [ops8, List.take_succ_cons, List.take_zero]
  after_results
  exact Kinds.mm64 _ _

theorem conv2_src (W : Valuation τ sig (Elt Ideal)) :
    after (ops8.take 4) W (Proc.devRef .tc main_v313) = selfLoops (W (Proc.devRef .tc main_v1)) := by
  simp only [ops8, List.take_succ_cons, List.take_zero]
  after_results
  rfl

theorem conv2_dst (W : Valuation τ sig (Elt Ideal)) :
    after (ops8.take 4) W (Proc.devRef .tc main_v314) = selfLoops (W (Proc.devRef .tc main_v3)) := by
  simp only [ops8, List.take_succ_cons, List.take_zero]
  after_results
  rfl

theorem conv2_bias (W : Valuation τ sig (Elt Ideal)) :
    after (ops8.take 4) W (Proc.devRef .tc main_arg7) = W (Proc.devRef .tc main_arg7) := by
  simp only [ops8, List.take_succ_cons, List.take_zero]
  after_results

set_option maxRecDepth 8192 in
set_option maxHeartbeats 4000000 in
theorem conv2_rest (W : Valuation τ sig (Elt Ideal)) :
    after (ops8.drop 4) W (Proc.devRef .tc main_v356)
      = Cert.Spec.biasRelu
          (scatterE (W (Proc.devRef .tc main_v314))
            (Cert.Spec.scale (gatherE (W (Proc.devRef .tc main_v313)) (W (Proc.devRef .tc main_v311)))
              (wedgeFrom (disOf (degOf (W (Proc.devRef .tc main_v314)))) (W (Proc.devRef .tc main_v313)) (W (Proc.devRef .tc main_v314)))))
          (W (Proc.devRef .tc main_arg7)) := by
  simp only [ops8, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv2 (W : Valuation τ sig (Elt Ideal)) :
    after ops8 W (Proc.devRef .tc main_v356)
      = Cert.Spec.conv (graphOf (W (Proc.devRef .tc main_v1)) (W (Proc.devRef .tc main_v3)))
          (W (Proc.devRef .tc main_v264)) (W (Proc.devRef .tc main_arg6)) (W (Proc.devRef .tc main_arg7)) := by
  rw [after_cut 4 ops8 W, conv2_rest, conv2_dst, conv2_src, conv2_dot, conv2_bias]
  rfl

end Cert.ReferenceIdeal.StageL2

end
-- ==== Proof.RStageGateL2.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.StageL2

open Cert.ReferenceIdeal Cert.ReferenceIdeal.Run Cert.ReferenceIdeal.Graph Idealize.ShloMosaic Idealize.ShloMosaic.TcCoe Idealize.ShloMosaic.StableHlo
open Idealize.SL.Sem

set_option maxRecDepth 8192 in
theorem gate (W : Valuation τ sig (Elt Ideal)) :
    after ops9 W (Proc.devRef .tc main_v392)
      = Cert.Spec.gate
          ((graphOf (W (Proc.devRef .tc main_v1)) (W (Proc.devRef .tc main_v3))).scatterS
            (Cert.Spec.diffSq
              ((graphOf (W (Proc.devRef .tc main_v1)) (W (Proc.devRef .tc main_v3))).gatherS (W (Proc.devRef .tc main_v356)))
              ((graphOf (W (Proc.devRef .tc main_v1)) (W (Proc.devRef .tc main_v3))).gatherD (W (Proc.devRef .tc main_v356)))))
          (graphOf (W (Proc.devRef .tc main_v1)) (W (Proc.devRef .tc main_v3))).cnt
          (W (Proc.devRef .tc main_v264)) (W (Proc.devRef .tc main_v310)) := by
  after_results_simp
  have hd := Kinds.diffSq (gatherS (W (Proc.devRef .tc main_v1)) (W (Proc.devRef .tc main_v356)))
    (gatherS (W (Proc.devRef .tc main_v3)) (W (Proc.devRef .tc main_v356)))
  have hg := Kinds.gate
    (scatterS (W (Proc.devRef .tc main_v1))
      (Cert.Spec.diffSq (gatherS (W (Proc.devRef .tc main_v1)) (W (Proc.devRef .tc main_v356)))
        (gatherS (W (Proc.devRef .tc main_v3)) (W (Proc.devRef .tc main_v356)))))
    (cntOf (W (Proc.devRef .tc main_v1))) (W (Proc.devRef .tc main_v264)) (W (Proc.devRef .tc main_v310))
  refine Eq.trans ?_ hg
  rw [← hd]
  rfl

end Cert.ReferenceIdeal.StageL2

end
-- ==== Proof.RStageConvL1.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.StageL1

open Cert.ReferenceIdeal Cert.ReferenceIdeal.Run Cert.ReferenceIdeal.Graph Idealize.ShloMosaic Idealize.ShloMosaic.StableHlo
open Idealize.SL.Sem

theorem after_cut (k : ℕ) (ops : List (HloOp τ sig (Elt Ideal))) (V : Valuation τ sig (Elt Ideal)) :
    after ops V = after (ops.drop k) (after (ops.take k) V) := by
  rw [← after_append, List.take_append_drop]

theorem conv1_dot (W : Valuation τ sig (Elt Ideal)) :
    after (ops4.take 4) W (Proc.devRef .tc main_v137)
      = Cert.Spec.mm64 (W (Proc.devRef .tc main_v136)) (W (Proc.devRef .tc main_arg4)) := by
  simp only [ops4, List.take_succ_cons, List.take_zero]
  after_results
  exact Kinds.mm64 _ _

theorem conv1_src (W : Valuation τ sig (Elt Ideal)) :
    after (ops4.take 4) W (Proc.devRef .tc main_v139) = selfLoops (W (Proc.devRef .tc main_v1)) := by
  simp only [ops4, List.take_succ_cons, List.take_zero]
  after_results
  rfl

theorem conv1_dst (W : Valuation τ sig (Elt Ideal)) :
    after (ops4.take 4) W (Proc.devRef .tc main_v140) = selfLoops (W (Proc.devRef .tc main_v3)) := by
  simp only [ops4, List.take_succ_cons, List.take_zero]
  after_results
  rfl

theorem conv1_bias (W : Valuation τ sig (Elt Ideal)) :
    after (ops4.take 4) W (Proc.devRef .tc main_arg5) = W (Proc.devRef .tc main_arg5) := by
  simp only [ops4, List.take_succ_cons, List.take_zero]
  after_results

set_option maxRecDepth 8192 in
set_option maxHeartbeats 4000000 in
theorem conv1_rest (W : Valuation τ sig (Elt Ideal)) :
    after (ops4.drop 4) W (Proc.devRef .tc main_v182)
      = Cert.Spec.biasRelu
          (scatterE (W (Proc.devRef .tc main_v140))
            (Cert.Spec.scale (gatherE (W (Proc.devRef .tc main_v139)) (W (Proc.devRef .tc main_v137)))
              (wedgeFrom (disOf (degOf (W (Proc.devRef .tc main_v140)))) (W (Proc.devRef .tc main_v139)) (W (Proc.devRef .tc main_v140)))))
          (W (Proc.devRef .tc main_arg5)) := by
  simp only [ops4, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv1 (W : Valuation τ sig (Elt Ideal)) :
    after ops4 W (Proc.devRef .tc main_v182)
      = Cert.Spec.conv (graphOf (W (Proc.devRef .tc main_v1)) (W (Proc.devRef .tc main_v3)))
          (W (Proc.devRef .tc main_v136)) (W (Proc.devRef .tc main_arg4)) (W (Proc.devRef .tc main_arg5)) := by
  rw [after_cut 4 ops4 W, conv1_rest, conv1_dst, conv1_src, conv1_dot, conv1_bias]
  rfl

theorem conv2_dot (W : Valuation τ sig (Elt Ideal)) :
    after (ops5.take 4) W (Proc.devRef .tc main_v183)
      = Cert.Spec.mm64 (W (Proc.devRef .tc main_v136)) (W (Proc.devRef .tc main_arg6)) := by
  simp only [ops5, List.take_succ_cons, List.take_zero]
  after_results
  exact Kinds.mm64 _ _

theorem conv2_src (W : Valuation τ sig (Elt Ideal)) :
    after (ops5.take 4) W (Proc.devRef .tc main_v185) = selfLoops (W (Proc.devRef .tc main_v1)) := by
  simp only [ops5, List.take_succ_cons, List.take_zero]
  after_results
  rfl

theorem conv2_dst (W : Valuation τ sig (Elt Ideal)) :
    after (ops5.take 4) W (Proc.devRef .tc main_v186) = selfLoops (W (Proc.devRef .tc main_v3)) := by
  simp only [ops5, List.take_succ_cons, List.take_zero]
  after_results
  rfl

theorem conv2_bias (W : Valuation τ sig (Elt Ideal)) :
    after (ops5.take 4) W (Proc.devRef .tc main_arg7) = W (Proc.devRef .tc main_arg7) := by
  simp only [ops5, List.take_succ_cons, List.take_zero]
  after_results

set_option maxRecDepth 8192 in
set_option maxHeartbeats 4000000 in
theorem conv2_rest (W : Valuation τ sig (Elt Ideal)) :
    after (ops5.drop 4) W (Proc.devRef .tc main_v228)
      = Cert.Spec.biasRelu
          (scatterE (W (Proc.devRef .tc main_v186))
            (Cert.Spec.scale (gatherE (W (Proc.devRef .tc main_v185)) (W (Proc.devRef .tc main_v183)))
              (wedgeFrom (disOf (degOf (W (Proc.devRef .tc main_v186)))) (W (Proc.devRef .tc main_v185)) (W (Proc.devRef .tc main_v186)))))
          (W (Proc.devRef .tc main_arg7)) := by
  simp only [ops5, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv2 (W : Valuation τ sig (Elt Ideal)) :
    after ops5 W (Proc.devRef .tc main_v228)
      = Cert.Spec.conv (graphOf (W (Proc.devRef .tc main_v1)) (W (Proc.devRef .tc main_v3)))
          (W (Proc.devRef .tc main_v136)) (W (Proc.devRef .tc main_arg6)) (W (Proc.devRef .tc main_arg7)) := by
  rw [after_cut 4 ops5 W, conv2_rest, conv2_dst, conv2_src, conv2_dot, conv2_bias]
  rfl

end Cert.ReferenceIdeal.StageL1

end
-- ==== Proof.RStageGateL1.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.StageL1

open Cert.ReferenceIdeal Cert.ReferenceIdeal.Run Cert.ReferenceIdeal.Graph Idealize.ShloMosaic Idealize.ShloMosaic.TcCoe Idealize.ShloMosaic.StableHlo
open Idealize.SL.Sem

set_option maxRecDepth 8192 in
theorem gate (W : Valuation τ sig (Elt Ideal)) :
    after ops6 W (Proc.devRef .tc main_v264)
      = Cert.Spec.gate
          ((graphOf (W (Proc.devRef .tc main_v1)) (W (Proc.devRef .tc main_v3))).scatterS
            (Cert.Spec.diffSq
              ((graphOf (W (Proc.devRef .tc main_v1)) (W (Proc.devRef .tc main_v3))).gatherS (W (Proc.devRef .tc main_v228)))
              ((graphOf (W (Proc.devRef .tc main_v1)) (W (Proc.devRef .tc main_v3))).gatherD (W (Proc.devRef .tc main_v228)))))
          (graphOf (W (Proc.devRef .tc main_v1)) (W (Proc.devRef .tc main_v3))).cnt
          (W (Proc.devRef .tc main_v136)) (W (Proc.devRef .tc main_v182)) := by
  after_results_simp
  have hd := Kinds.diffSq (gatherS (W (Proc.devRef .tc main_v1)) (W (Proc.devRef .tc main_v228)))
    (gatherS (W (Proc.devRef .tc main_v3)) (W (Proc.devRef .tc main_v228)))
  have hg := Kinds.gate
    (scatterS (W (Proc.devRef .tc main_v1))
      (Cert.Spec.diffSq (gatherS (W (Proc.devRef .tc main_v1)) (W (Proc.devRef .tc main_v228)))
        (gatherS (W (Proc.devRef .tc main_v3)) (W (Proc.devRef .tc main_v228)))))
    (cntOf (W (Proc.devRef .tc main_v1))) (W (Proc.devRef .tc main_v136)) (W (Proc.devRef .tc main_v182))
  refine Eq.trans ?_ hg
  rw [← hd]
  rfl

end Cert.ReferenceIdeal.StageL1

end
-- ==== Proof.RStageConv.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.Stage

open Cert.ReferenceIdeal Cert.ReferenceIdeal.Run Cert.ReferenceIdeal.Graph Idealize.ShloMosaic Idealize.ShloMosaic.StableHlo
open Idealize.SL.Sem

theorem after_cut (k : ℕ) (ops : List (HloOp τ sig (Elt Ideal))) (V : Valuation τ sig (Elt Ideal)) :
    after ops V = after (ops.drop k) (after (ops.take k) V) := by
  rw [← after_append, List.take_append_drop]

theorem conv1_dot (W : Valuation τ sig (Elt Ideal)) :
    after (ops1.take 4) W (Proc.devRef .tc main_v9)
      = Cert.Spec.mm64 (W (Proc.devRef .tc main_v8)) (W (Proc.devRef .tc main_arg4)) := by
  simp only [ops1, List.take_succ_cons, List.take_zero]
  after_results
  exact Kinds.mm64 _ _

theorem conv1_src (W : Valuation τ sig (Elt Ideal)) :
    after (ops1.take 4) W (Proc.devRef .tc main_v11) = selfLoops (W (Proc.devRef .tc main_v1)) := by
  simp only [ops1, List.take_succ_cons, List.take_zero]
  after_results
  rfl

theorem conv1_dst (W : Valuation τ sig (Elt Ideal)) :
    after (ops1.take 4) W (Proc.devRef .tc main_v12) = selfLoops (W (Proc.devRef .tc main_v3)) := by
  simp only [ops1, List.take_succ_cons, List.take_zero]
  after_results
  rfl

theorem conv1_bias (W : Valuation τ sig (Elt Ideal)) :
    after (ops1.take 4) W (Proc.devRef .tc main_arg5) = W (Proc.devRef .tc main_arg5) := by
  simp only [ops1, List.take_succ_cons, List.take_zero]
  after_results

set_option maxRecDepth 8192 in
set_option maxHeartbeats 4000000 in
theorem conv1_rest (W : Valuation τ sig (Elt Ideal)) :
    after (ops1.drop 4) W (Proc.devRef .tc main_v54)
      = Cert.Spec.biasRelu
          (scatterE (W (Proc.devRef .tc main_v12))
            (Cert.Spec.scale (gatherE (W (Proc.devRef .tc main_v11)) (W (Proc.devRef .tc main_v9)))
              (wedgeFrom (disOf (degOf (W (Proc.devRef .tc main_v12)))) (W (Proc.devRef .tc main_v11)) (W (Proc.devRef .tc main_v12)))))
          (W (Proc.devRef .tc main_arg5)) := by
  simp only [ops1, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv1 (W : Valuation τ sig (Elt Ideal)) :
    after ops1 W (Proc.devRef .tc main_v54)
      = Cert.Spec.conv (graphOf (W (Proc.devRef .tc main_v1)) (W (Proc.devRef .tc main_v3)))
          (W (Proc.devRef .tc main_v8)) (W (Proc.devRef .tc main_arg4)) (W (Proc.devRef .tc main_arg5)) := by
  rw [after_cut 4 ops1 W, conv1_rest, conv1_dst, conv1_src, conv1_dot, conv1_bias]
  rfl

theorem conv2_dot (W : Valuation τ sig (Elt Ideal)) :
    after (ops2.take 4) W (Proc.devRef .tc main_v55)
      = Cert.Spec.mm64 (W (Proc.devRef .tc main_v8)) (W (Proc.devRef .tc main_arg6)) := by
  simp only [ops2, List.take_succ_cons, List.take_zero]
  after_results
  exact Kinds.mm64 _ _

theorem conv2_src (W : Valuation τ sig (Elt Ideal)) :
    after (ops2.take 4) W (Proc.devRef .tc main_v57) = selfLoops (W (Proc.devRef .tc main_v1)) := by
  simp only [ops2, List.take_succ_cons, List.take_zero]
  after_results
  rfl

theorem conv2_dst (W : Valuation τ sig (Elt Ideal)) :
    after (ops2.take 4) W (Proc.devRef .tc main_v58) = selfLoops (W (Proc.devRef .tc main_v3)) := by
  simp only [ops2, List.take_succ_cons, List.take_zero]
  after_results
  rfl

theorem conv2_bias (W : Valuation τ sig (Elt Ideal)) :
    after (ops2.take 4) W (Proc.devRef .tc main_arg7) = W (Proc.devRef .tc main_arg7) := by
  simp only [ops2, List.take_succ_cons, List.take_zero]
  after_results

set_option maxRecDepth 8192 in
set_option maxHeartbeats 4000000 in
theorem conv2_rest (W : Valuation τ sig (Elt Ideal)) :
    after (ops2.drop 4) W (Proc.devRef .tc main_v100)
      = Cert.Spec.biasRelu
          (scatterE (W (Proc.devRef .tc main_v58))
            (Cert.Spec.scale (gatherE (W (Proc.devRef .tc main_v57)) (W (Proc.devRef .tc main_v55)))
              (wedgeFrom (disOf (degOf (W (Proc.devRef .tc main_v58)))) (W (Proc.devRef .tc main_v57)) (W (Proc.devRef .tc main_v58)))))
          (W (Proc.devRef .tc main_arg7)) := by
  simp only [ops2, List.drop_succ_cons, List.drop_zero]
  simp only [TRef.nullary, TRef.unary, TRef.binary, TRef.ternary, TRef.ofBuf, TRef.toBuf, cast_eq]
  after_results_simp
  refine (Kinds.biasRelu _ _).trans ?_
  rw [Kinds.scale]
  rfl

theorem conv2 (W : Valuation τ sig (Elt Ideal)) :
    after ops2 W (Proc.devRef .tc main_v100)
      = Cert.Spec.conv (graphOf (W (Proc.devRef .tc main_v1)) (W (Proc.devRef .tc main_v3)))
          (W (Proc.devRef .tc main_v8)) (W (Proc.devRef .tc main_arg6)) (W (Proc.devRef .tc main_arg7)) := by
  rw [after_cut 4 ops2 W, conv2_rest, conv2_dst, conv2_src, conv2_dot, conv2_bias]
  rfl

end Cert.ReferenceIdeal.Stage

end
-- ==== Proof.RStageGate.lean ====
import proofs.«402353_j91190745629151_3_alg».proof.Proof.ROps
import proofs.«402353_j91190745629151_3_alg».proof.Proof.RGraph
import proofs.«402353_j91190745629151_3_alg».proof.Proof.RefKinds
import proofs.«402353_j91190745629151_3_alg».proof.Proof.Spec

noncomputable section

namespace Cert.ReferenceIdeal.Stage

open Cert.ReferenceIdeal Cert.ReferenceIdeal.Run Cert.ReferenceIdeal.Graph Idealize.ShloMosaic Idealize.ShloMosaic.TcCoe Idealize.ShloMosaic.StableHlo
open Idealize.SL.Sem

set_option maxRecDepth 8192 in
theorem gate (W : Valuation τ sig (Elt Ideal)) :
    after ops3 W (Proc.devRef .tc main_v136)
      = Cert.Spec.gate
          ((graphOf (W (Proc.devRef .tc main_v1)) (W (Proc.devRef .tc main_v3))).scatterS
            (Cert.Spec.diffSq
              ((graphOf (W (Proc.devRef .tc main_v1)) (W (Proc.devRef .tc main_v3))).gatherS (W (Proc.devRef .tc main_v100)))
              ((graphOf (W (Proc.devRef .tc main_v1)) (W (Proc.devRef .tc main_v3))).gatherD (W (Proc.devRef .tc main_v100)))))
          (graphOf (W (Proc.devRef .tc main_v1)) (W (Proc.devRef .tc main_v3))).cnt
          (W (Proc.devRef .tc main_v8)) (W (Proc.devRef .tc main_v54)) := by
  after_results_simp
  have hd := Kinds.diffSq (gatherS (W (Proc.devRef .tc main_v1)) (W (Proc.devRef .tc main_v100)))
    (gatherS (W (Proc.devRef .tc main_v3)) (W (Proc.devRef .tc main_v100)))
  have hg := Kinds.gate
    (scatterS (W (Proc.devRef .tc main_v1))
      (Cert.Spec.diffSq (gatherS (W (Proc.devRef .tc main_v1)) (W (Proc.devRef .tc main_v100)))
        (gatherS (W (Proc.devRef .tc main_v3)) (W (Proc.devRef .tc main_v100)))))
    (cntOf (W (Proc.devRef .tc main_v1))) (W (Proc.devRef .tc main_v8)) (W (Proc.devRef .tc main_v54))
  refine Eq.trans ?_ hg
  rw [← hd]
  rfl

end Cert.ReferenceIdeal.Stage

end
-- ==== Proof.RChainPre.lean ====
import proofs.«402353_j91190745629151_3_alg».proof.Proof.RVals
import proofs.«402353_j91190745629151_3_alg».proof.Proof.RStageEnds

set_option maxRecDepth 16384

noncomputable section

namespace Cert.ReferenceIdeal.Chain.Pre

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem r0_arg0 (c : Dev nD) : R0 m c (Proc.devRef .tc main_arg0) = A0 m c :=
  rfl
theorem r0_arg1 (c : Dev nD) : R0 m c (Proc.devRef .tc main_arg1) = E m c :=
  rfl
theorem r0_arg2 (c : Dev nD) : R0 m c (Proc.devRef .tc main_arg2) = A2 m c :=
  rfl
theorem r0_arg3 (c : Dev nD) : R0 m c (Proc.devRef .tc main_arg3) = A3 m c :=
  rfl
theorem r0_arg4 (c : Dev nD) : R0 m c (Proc.devRef .tc main_arg4) = A4 m c :=
  rfl
theorem r0_arg5 (c : Dev nD) : R0 m c (Proc.devRef .tc main_arg5) = A5 m c :=
  rfl
theorem r0_arg6 (c : Dev nD) : R0 m c (Proc.devRef .tc main_arg6) = A6 m c :=
  rfl
theorem r0_arg7 (c : Dev nD) : R0 m c (Proc.devRef .tc main_arg7) = A7 m c :=
  rfl
theorem r0_arg8 (c : Dev nD) : R0 m c (Proc.devRef .tc main_arg8) = A8 m c :=
  rfl
theorem r0_arg9 (c : Dev nD) : R0 m c (Proc.devRef .tc main_arg9) = A9 m c :=
  rfl

theorem r1_v1 (c : Dev nD) : R1 m c (Proc.devRef .tc main_v1) = SRC m c :=
  (Stage.src (R0 m c)).trans (congr1 (f := srcOf) (r0_arg1 m c))
theorem r1_v3 (c : Dev nD) : R1 m c (Proc.devRef .tc main_v3) = DST m c :=
  (Stage.dst (R0 m c)).trans (congr1 (f := dstOf) (r0_arg1 m c))
theorem r1_v8 (c : Dev nD) : R1 m c (Proc.devRef .tc main_v8) = X0 m c :=
  (Stage.enc (R0 m c)).trans (congr3 (f := Cert.Spec.encode) (r0_arg0 m c) (r0_arg2 m c) (r0_arg3 m c))
theorem r1_arg0 (c : Dev nD) : R1 m c (Proc.devRef .tc main_arg0) = A0 m c :=
  (StableHlo.after_of_forall_not_mem (b := Proc.devRef .tc main_arg0) _ _ (List.forall_iff_forall_mem.mp (by keep_ops ops0))).trans (r0_arg0 m c)
theorem r1_arg1 (c : Dev nD) : R1 m c (Proc.devRef .tc main_arg1) = E m c :=
  (StableHlo.after_of_forall_not_mem (b := Proc.devRef .tc main_arg1) _ _ (List.forall_iff_forall_mem.mp (by keep_ops ops0))).trans (r0_arg1 m c)
theorem r1_arg2 (c : Dev nD) : R1 m c (Proc.devRef .tc main_arg2) = A2 m c :=
  (StableHlo.after_of_forall_not_mem (b := Proc.devRef .tc main_arg2) _ _ (List.forall_iff_forall_mem.mp (by keep_ops ops0))).trans (r0_arg2 m c)
theorem r1_arg3 (c : Dev nD) : R1 m c (Proc.devRef .tc main_arg3) = A3 m c :=
  (StableHlo.after_of_forall_not_mem (b := Proc.devRef .tc main_arg3) _ _ (List.forall_iff_forall_mem.mp (by keep_ops ops0))).trans (r0_arg3 m c)
theorem r1_arg4 (c : Dev nD) : R1 m c (Proc.devRef .tc main_arg4) = A4 m c :=
  (StableHlo.after_of_forall_not_mem (b := Proc.devRef .tc main_arg4) _ _ (List.forall_iff_forall_mem.mp (by keep_ops ops0))).trans (r0_arg4 m c)
theorem r1_arg5 (c : Dev nD) : R1 m c (Proc.devRef .tc main_arg5) = A5 m c :=
  (StableHlo.after_of_forall_not_mem (b := Proc.devRef .tc main_arg5) _ _ (List.forall_iff_forall_mem.mp (by keep_ops ops0))).trans (r0_arg5 m c)
theorem r1_arg6 (c : Dev nD) : R1 m c (Proc.devRef .tc main_arg6) = A6 m c :=
  (StableHlo.after_of_forall_not_mem (b := Proc.devRef .tc main_arg6) _ _ (List.forall_iff_forall_mem.mp (by keep_ops ops0))).trans (r0_arg6 m c)
theorem r1_arg7 (c : Dev nD) : R1 m c (Proc.devRef .tc main_arg7) = A7 m c :=
  (StableHlo.after_of_forall_not_mem (b := Proc.devRef .tc main_arg7) _ _ (List.forall_iff_forall_mem.mp (by keep_ops ops0))).trans (r0_arg7 m c)
theorem r1_arg8 (c : Dev nD) : R1 m c (Proc.devRef .tc main_arg8) = A8 m c :=
  (StableHlo.after_of_forall_not_mem (b := Proc.devRef .tc main_arg8) _ _ (List.forall_iff_forall_mem.mp (by keep_ops ops0))).trans (r0_arg8 m c)
theorem r1_arg9 (c : Dev nD) : R1 m c (Proc.devRef .tc main_arg9) = A9 m c :=
  (StableHlo.after_of_forall_not_mem (b := Proc.devRef .tc main_arg9) _ _ (List.forall_iff_forall_mem.mp (by keep_ops ops0))).trans (r0_arg9 m c)

/-- The valuation still holds the arguments and the edge list's two rows as the first stretch left them. -/
def _root_.Cert.ReferenceIdeal.Chain.Agrees (c : Dev nD) (W : Valuation τ sig (Elt Ideal)) : Prop :=
  ∀ b ∈ stable, W (Proc.devRef .tc b) = R1 m c (Proc.devRef .tc b)

section
variable {m} {c : Dev nD} {W : Valuation τ sig (Elt Ideal)}

/-- A stretch none of whose operations writes such a buffer keeps them all. -/
theorem _root_.Cert.ReferenceIdeal.Chain.Agrees.host (h : Agrees m c W) (ops : List (HloOp τ sig (Elt Ideal)))
    (hk : stable.Forall fun b => ops.Forall fun op => Proc.devRef .tc b ∉ op.writes) : Agrees m c (StableHlo.after ops W) :=
  fun b hb => (StableHlo.after_of_forall_not_mem _ _ (List.forall_iff_forall_mem.mp (List.forall_iff_forall_mem.mp hk b hb))).trans (h b hb)

theorem _root_.Cert.ReferenceIdeal.Chain.Agrees.arg0 (h : Agrees m c W) : W (Proc.devRef .tc main_arg0) = A0 m c := (h _ (by decide)).trans (r1_arg0 m c)
theorem _root_.Cert.ReferenceIdeal.Chain.Agrees.arg1 (h : Agrees m c W) : W (Proc.devRef .tc main_arg1) = E m c := (h _ (by decide)).trans (r1_arg1 m c)
theorem _root_.Cert.ReferenceIdeal.Chain.Agrees.arg2 (h : Agrees m c W) : W (Proc.devRef .tc main_arg2) = A2 m c := (h _ (by decide)).trans (r1_arg2 m c)
theorem _root_.Cert.ReferenceIdeal.Chain.Agrees.arg3 (h : Agrees m c W) : W (Proc.devRef .tc main_arg3) = A3 m c := (h _ (by decide)).trans (r1_arg3 m c)
theorem _root_.Cert.ReferenceIdeal.Chain.Agrees.arg4 (h : Agrees m c W) : W (Proc.devRef .tc main_arg4) = A4 m c := (h _ (by decide)).trans (r1_arg4 m c)
theorem _root_.Cert.ReferenceIdeal.Chain.Agrees.arg5 (h : Agrees m c W) : W (Proc.devRef .tc main_arg5) = A5 m c := (h _ (by decide)).trans (r1_arg5 m c)
theorem _root_.Cert.ReferenceIdeal.Chain.Agrees.arg6 (h : Agrees m c W) : W (Proc.devRef .tc main_arg6) = A6 m c := (h _ (by decide)).trans (r1_arg6 m c)
theorem _root_.Cert.ReferenceIdeal.Chain.Agrees.arg7 (h : Agrees m c W) : W (Proc.devRef .tc main_arg7) = A7 m c := (h _ (by decide)).trans (r1_arg7 m c)
theorem _root_.Cert.ReferenceIdeal.Chain.Agrees.arg8 (h : Agrees m c W) : W (Proc.devRef .tc main_arg8) = A8 m c := (h _ (by decide)).trans (r1_arg8 m c)
theorem _root_.Cert.ReferenceIdeal.Chain.Agrees.arg9 (h : Agrees m c W) : W (Proc.devRef .tc main_arg9) = A9 m c := (h _ (by decide)).trans (r1_arg9 m c)
theorem _root_.Cert.ReferenceIdeal.Chain.Agrees.v1 (h : Agrees m c W) : W (Proc.devRef .tc main_v1) = SRC m c := (h _ (by decide)).trans (r1_v1 m c)
theorem _root_.Cert.ReferenceIdeal.Chain.Agrees.v3 (h : Agrees m c W) : W (Proc.devRef .tc main_v3) = DST m c := (h _ (by decide)).trans (r1_v3 m c)
end

theorem s1 (c : Dev nD) : Agrees m c (R1 m c) := fun _ _ => rfl

end Cert.ReferenceIdeal.Chain.Pre

end
-- ==== Proof.RChainL0.lean ====
import proofs.«402353_j91190745629151_3_alg».proof.Proof.RVals
import proofs.«402353_j91190745629151_3_alg».proof.Proof.RStageConv
import proofs.«402353_j91190745629151_3_alg».proof.Proof.RStageGate
import proofs.«402353_j91190745629151_3_alg».proof.Proof.RChainPre

set_option maxRecDepth 16384

noncomputable section

namespace Cert.ReferenceIdeal.Chain.L0

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem s2 (c : Dev nD) : Agrees m c (R2 m c) := (Cert.ReferenceIdeal.Chain.Pre.s1 m c).host ops1 (by keep_ops ops1)

theorem r2_v54 (c : Dev nD) : R2 m c (Proc.devRef .tc main_v54) = L0.c1 m c :=
  (Stage.conv1 (R1 m c)).trans (congr5 (f := (fun s t x w b => Cert.Spec.conv (graphOf s t) x w b)) (Cert.ReferenceIdeal.Chain.Pre.r1_v1 m c) (Cert.ReferenceIdeal.Chain.Pre.r1_v3 m c) (Cert.ReferenceIdeal.Chain.Pre.r1_v8 m c) (Cert.ReferenceIdeal.Chain.Pre.r1_arg4 m c) (Cert.ReferenceIdeal.Chain.Pre.r1_arg5 m c))
theorem r2_v8 (c : Dev nD) : R2 m c (Proc.devRef .tc main_v8) = X0 m c :=
  (StableHlo.after_of_forall_not_mem (b := Proc.devRef .tc main_v8) _ _ (List.forall_iff_forall_mem.mp (by keep_ops ops1))).trans (Cert.ReferenceIdeal.Chain.Pre.r1_v8 m c)

theorem s3 (c : Dev nD) : Agrees m c (R3 m c) := (s2 m c).host ops2 (by keep_ops ops2)

theorem r3_v100 (c : Dev nD) : R3 m c (Proc.devRef .tc main_v100) = L0.c2 m c :=
  (Stage.conv2 (R2 m c)).trans (congr5 (f := (fun s t x w b => Cert.Spec.conv (graphOf s t) x w b)) (s2 m c).v1 (s2 m c).v3 (r2_v8 m c) (s2 m c).arg6 (s2 m c).arg7)
theorem r3_v54 (c : Dev nD) : R3 m c (Proc.devRef .tc main_v54) = L0.c1 m c :=
  (StableHlo.after_of_forall_not_mem (b := Proc.devRef .tc main_v54) _ _ (List.forall_iff_forall_mem.mp (by keep_ops ops2))).trans (r2_v54 m c)
theorem r3_v8 (c : Dev nD) : R3 m c (Proc.devRef .tc main_v8) = X0 m c :=
  (StableHlo.after_of_forall_not_mem (b := Proc.devRef .tc main_v8) _ _ (List.forall_iff_forall_mem.mp (by keep_ops ops2))).trans (r2_v8 m c)

theorem s4 (c : Dev nD) : Agrees m c (R4 m c) := (s3 m c).host ops3 (by keep_ops ops3)

theorem r4_v136 (c : Dev nD) : R4 m c (Proc.devRef .tc main_v136) = L0.Xout m c :=
  (Stage.gate (R3 m c)).trans (congr5 (f := (fun s t g x y => Cert.Spec.gate ((graphOf s t).scatterS (Cert.Spec.diffSq ((graphOf s t).gatherS g) ((graphOf s t).gatherD g))) (graphOf s t).cnt x y)) (s3 m c).v1 (s3 m c).v3 (r3_v100 m c) (r3_v8 m c) (r3_v54 m c))

end Cert.ReferenceIdeal.Chain.L0

end
-- ==== Proof.RChainL1.lean ====
import proofs.«402353_j91190745629151_3_alg».proof.Proof.RVals
import proofs.«402353_j91190745629151_3_alg».proof.Proof.RStageConvL1
import proofs.«402353_j91190745629151_3_alg».proof.Proof.RStageGateL1
import proofs.«402353_j91190745629151_3_alg».proof.Proof.RChainL0

set_option maxRecDepth 16384

noncomputable section

namespace Cert.ReferenceIdeal.Chain.L1

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem s5 (c : Dev nD) : Agrees m c (R5 m c) := (Cert.ReferenceIdeal.Chain.L0.s4 m c).host ops4 (by keep_ops ops4)

theorem r5_v182 (c : Dev nD) : R5 m c (Proc.devRef .tc main_v182) = L1.c1 m c :=
  (StageL1.conv1 (R4 m c)).trans (congr5 (f := (fun s t x w b => Cert.Spec.conv (graphOf s t) x w b)) (Cert.ReferenceIdeal.Chain.L0.s4 m c).v1 (Cert.ReferenceIdeal.Chain.L0.s4 m c).v3 (Cert.ReferenceIdeal.Chain.L0.r4_v136 m c) (Cert.ReferenceIdeal.Chain.L0.s4 m c).arg4 (Cert.ReferenceIdeal.Chain.L0.s4 m c).arg5)
theorem r5_v136 (c : Dev nD) : R5 m c (Proc.devRef .tc main_v136) = L0.Xout m c :=
  (StableHlo.after_of_forall_not_mem (b := Proc.devRef .tc main_v136) _ _ (List.forall_iff_forall_mem.mp (by keep_ops ops4))).trans (Cert.ReferenceIdeal.Chain.L0.r4_v136 m c)

theorem s6 (c : Dev nD) : Agrees m c (R6 m c) := (s5 m c).host ops5 (by keep_ops ops5)

theorem r6_v228 (c : Dev nD) : R6 m c (Proc.devRef .tc main_v228) = L1.c2 m c :=
  (StageL1.conv2 (R5 m c)).trans (congr5 (f := (fun s t x w b => Cert.Spec.conv (graphOf s t) x w b)) (s5 m c).v1 (s5 m c).v3 (r5_v136 m c) (s5 m c).arg6 (s5 m c).arg7)
theorem r6_v136 (c : Dev nD) : R6 m c (Proc.devRef .tc main_v136) = L0.Xout m c :=
  (StableHlo.after_of_forall_not_mem (b := Proc.devRef .tc main_v136) _ _ (List.forall_iff_forall_mem.mp (by keep_ops ops5))).trans (r5_v136 m c)
theorem r6_v182 (c : Dev nD) : R6 m c (Proc.devRef .tc main_v182) = L1.c1 m c :=
  (StableHlo.after_of_forall_not_mem (b := Proc.devRef .tc main_v182) _ _ (List.forall_iff_forall_mem.mp (by keep_ops ops5))).trans (r5_v182 m c)

theorem s7 (c : Dev nD) : Agrees m c (R7 m c) := (s6 m c).host ops6 (by keep_ops ops6)

theorem r7_v264 (c : Dev nD) : R7 m c (Proc.devRef .tc main_v264) = L1.Xout m c :=
  (StageL1.gate (R6 m c)).trans (congr5 (f := (fun s t g x y => Cert.Spec.gate ((graphOf s t).scatterS (Cert.Spec.diffSq ((graphOf s t).gatherS g) ((graphOf s t).gatherD g))) (graphOf s t).cnt x y)) (s6 m c).v1 (s6 m c).v3 (r6_v228 m c) (r6_v136 m c) (r6_v182 m c))

end Cert.ReferenceIdeal.Chain.L1

end
-- ==== Proof.RChainL2.lean ====
import proofs.«402353_j91190745629151_3_alg».proof.Proof.RVals
import proofs.«402353_j91190745629151_3_alg».proof.Proof.RStageConvL2
import proofs.«402353_j91190745629151_3_alg».proof.Proof.RStageGateL2
import proofs.«402353_j91190745629151_3_alg».proof.Proof.RChainL1

set_option maxRecDepth 16384

noncomputable section

namespace Cert.ReferenceIdeal.Chain.L2

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem s8 (c : Dev nD) : Agrees m c (R8 m c) := (Cert.ReferenceIdeal.Chain.L1.s7 m c).host ops7 (by keep_ops ops7)

theorem r8_v310 (c : Dev nD) : R8 m c (Proc.devRef .tc main_v310) = L2.c1 m c :=
  (StageL2.conv1 (R7 m c)).trans (congr5 (f := (fun s t x w b => Cert.Spec.conv (graphOf s t) x w b)) (Cert.ReferenceIdeal.Chain.L1.s7 m c).v1 (Cert.ReferenceIdeal.Chain.L1.s7 m c).v3 (Cert.ReferenceIdeal.Chain.L1.r7_v264 m c) (Cert.ReferenceIdeal.Chain.L1.s7 m c).arg4 (Cert.ReferenceIdeal.Chain.L1.s7 m c).arg5)
theorem r8_v264 (c : Dev nD) : R8 m c (Proc.devRef .tc main_v264) = L1.Xout m c :=
  (StableHlo.after_of_forall_not_mem (b := Proc.devRef .tc main_v264) _ _ (List.forall_iff_forall_mem.mp (by keep_ops ops7))).trans (Cert.ReferenceIdeal.Chain.L1.r7_v264 m c)

theorem s9 (c : Dev nD) : Agrees m c (R9 m c) := (s8 m c).host ops8 (by keep_ops ops8)

theorem r9_v356 (c : Dev nD) : R9 m c (Proc.devRef .tc main_v356) = L2.c2 m c :=
  (StageL2.conv2 (R8 m c)).trans (congr5 (f := (fun s t x w b => Cert.Spec.conv (graphOf s t) x w b)) (s8 m c).v1 (s8 m c).v3 (r8_v264 m c) (s8 m c).arg6 (s8 m c).arg7)
theorem r9_v264 (c : Dev nD) : R9 m c (Proc.devRef .tc main_v264) = L1.Xout m c :=
  (StableHlo.after_of_forall_not_mem (b := Proc.devRef .tc main_v264) _ _ (List.forall_iff_forall_mem.mp (by keep_ops ops8))).trans (r8_v264 m c)
theorem r9_v310 (c : Dev nD) : R9 m c (Proc.devRef .tc main_v310) = L2.c1 m c :=
  (StableHlo.after_of_forall_not_mem (b := Proc.devRef .tc main_v310) _ _ (List.forall_iff_forall_mem.mp (by keep_ops ops8))).trans (r8_v310 m c)

theorem s10 (c : Dev nD) : Agrees m c (R10 m c) := (s9 m c).host ops9 (by keep_ops ops9)

theorem r10_v392 (c : Dev nD) : R10 m c (Proc.devRef .tc main_v392) = L2.Xout m c :=
  (StageL2.gate (R9 m c)).trans (congr5 (f := (fun s t g x y => Cert.Spec.gate ((graphOf s t).scatterS (Cert.Spec.diffSq ((graphOf s t).gatherS g) ((graphOf s t).gatherD g))) (graphOf s t).cnt x y)) (s9 m c).v1 (s9 m c).v3 (r9_v356 m c) (r9_v264 m c) (r9_v310 m c))

end Cert.ReferenceIdeal.Chain.L2

end
-- ==== Proof.RChainL3.lean ====
import proofs.«402353_j91190745629151_3_alg».proof.Proof.RVals
import proofs.«402353_j91190745629151_3_alg».proof.Proof.RStageConvL3
import proofs.«402353_j91190745629151_3_alg».proof.Proof.RStageGateL3
import proofs.«402353_j91190745629151_3_alg».proof.Proof.RChainL2

set_option maxRecDepth 16384

noncomputable section

namespace Cert.ReferenceIdeal.Chain.L3

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem s11 (c : Dev nD) : Agrees m c (R11 m c) := (Cert.ReferenceIdeal.Chain.L2.s10 m c).host ops10 (by keep_ops ops10)

theorem r11_v438 (c : Dev nD) : R11 m c (Proc.devRef .tc main_v438) = L3.c1 m c :=
  (StageL3.conv1 (R10 m c)).trans (congr5 (f := (fun s t x w b => Cert.Spec.conv (graphOf s t) x w b)) (Cert.ReferenceIdeal.Chain.L2.s10 m c).v1 (Cert.ReferenceIdeal.Chain.L2.s10 m c).v3 (Cert.ReferenceIdeal.Chain.L2.r10_v392 m c) (Cert.ReferenceIdeal.Chain.L2.s10 m c).arg4 (Cert.ReferenceIdeal.Chain.L2.s10 m c).arg5)
theorem r11_v392 (c : Dev nD) : R11 m c (Proc.devRef .tc main_v392) = L2.Xout m c :=
  (StableHlo.after_of_forall_not_mem (b := Proc.devRef .tc main_v392) _ _ (List.forall_iff_forall_mem.mp (by keep_ops ops10))).trans (Cert.ReferenceIdeal.Chain.L2.r10_v392 m c)

theorem s12 (c : Dev nD) : Agrees m c (R12 m c) := (s11 m c).host ops11 (by keep_ops ops11)

theorem r12_v484 (c : Dev nD) : R12 m c (Proc.devRef .tc main_v484) = L3.c2 m c :=
  (StageL3.conv2 (R11 m c)).trans (congr5 (f := (fun s t x w b => Cert.Spec.conv (graphOf s t) x w b)) (s11 m c).v1 (s11 m c).v3 (r11_v392 m c) (s11 m c).arg6 (s11 m c).arg7)
theorem r12_v392 (c : Dev nD) : R12 m c (Proc.devRef .tc main_v392) = L2.Xout m c :=
  (StableHlo.after_of_forall_not_mem (b := Proc.devRef .tc main_v392) _ _ (List.forall_iff_forall_mem.mp (by keep_ops ops11))).trans (r11_v392 m c)
theorem r12_v438 (c : Dev nD) : R12 m c (Proc.devRef .tc main_v438) = L3.c1 m c :=
  (StableHlo.after_of_forall_not_mem (b := Proc.devRef .tc main_v438) _ _ (List.forall_iff_forall_mem.mp (by keep_ops ops11))).trans (r11_v438 m c)

theorem s13 (c : Dev nD) : Agrees m c (R13 m c) := (s12 m c).host ops12 (by keep_ops ops12)

theorem r13_v520 (c : Dev nD) : R13 m c (Proc.devRef .tc main_v520) = L3.Xout m c :=
  (StageL3.gate (R12 m c)).trans (congr5 (f := (fun s t g x y => Cert.Spec.gate ((graphOf s t).scatterS (Cert.Spec.diffSq ((graphOf s t).gatherS g) ((graphOf s t).gatherD g))) (graphOf s t).cnt x y)) (s12 m c).v1 (s12 m c).v3 (r12_v484 m c) (r12_v392 m c) (r12_v438 m c))

end Cert.ReferenceIdeal.Chain.L3

end
-- ==== Proof.RChainPost.lean ====
import proofs.«402353_j91190745629151_3_alg».proof.Proof.RVals
import proofs.«402353_j91190745629151_3_alg».proof.Proof.RStageEnds
import proofs.«402353_j91190745629151_3_alg».proof.Proof.RChainL3

set_option maxRecDepth 16384

noncomputable section

namespace Cert.ReferenceIdeal.Chain.Post

open Cert.ReferenceIdeal Cert.ReferenceIdeal.Gen Cert.ReferenceIdeal.Run Cert.ReferenceIdeal.Graph Cert.ReferenceIdeal.Chain Idealize.ShloMosaic Idealize.ShloMosaic.TcCoe Idealize.ShloMosaic.StableHlo
open Idealize.SL.Sem

variable (m : (ℓ : Loc nD τ sig) → Buf (Elt Ideal) ℓ)

theorem s14 (c : Dev nD) : Agrees m c (R14 m c) := (Cert.ReferenceIdeal.Chain.L3.s13 m c).host ops13 (by keep_ops ops13)

theorem r14_v525 (c : Dev nD) : R14 m c (Proc.devRef .tc main_v525) = OUT m c :=
  (Stage.dec (R13 m c)).trans (congr3 (f := Cert.Spec.decode) (Cert.ReferenceIdeal.Chain.L3.r13_v520 m c) (Cert.ReferenceIdeal.Chain.L3.s13 m c).arg8 (Cert.ReferenceIdeal.Chain.L3.s13 m c).arg9)

end Cert.ReferenceIdeal.Chain.Post

end
-- ==== Proof.RefValue.lean ====
import proofs.«402353_j91190745629151_3_alg».proof.Proof.ROps
import proofs.«402353_j91190745629151_3_alg».proof.Proof.RVals
import proofs.«402353_j91190745629151_3_alg».proof.Proof.RChainPost

noncomputable section

namespace Cert.ReferenceIdeal.RefValue

open Cert.ReferenceIdeal Cert.ReferenceIdeal.Run Cert.ReferenceIdeal.Graph Cert.ReferenceIdeal.Chain Idealize.ShloMosaic Idealize.ShloMosaic.TcCoe
open Idealize.ShloMosaic.StableHlo Idealize.SL.Sem

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v525)
        = Cert.Spec.forward (graph (E m c)) (A0 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v525).trans ((congrFun (fold_eq m c) _).trans ((Post.r14_v525 m c).trans (OUT_eq m c))),
       (h c main_arg0).trans ((congrFun (fold_eq m c) _).trans (Post.s14 m c).arg0),
       (h c main_arg1).trans ((congrFun (fold_eq m c) _).trans (Post.s14 m c).arg1),
       (h c main_arg2).trans ((congrFun (fold_eq m c) _).trans (Post.s14 m c).arg2),
       (h c main_arg3).trans ((congrFun (fold_eq m c) _).trans (Post.s14 m c).arg3),
       (h c main_arg4).trans ((congrFun (fold_eq m c) _).trans (Post.s14 m c).arg4),
       (h c main_arg5).trans ((congrFun (fold_eq m c) _).trans (Post.s14 m c).arg5),
       (h c main_arg6).trans ((congrFun (fold_eq m c) _).trans (Post.s14 m c).arg6),
       (h c main_arg7).trans ((congrFun (fold_eq m c) _).trans (Post.s14 m c).arg7),
       (h c main_arg8).trans ((congrFun (fold_eq m c) _).trans (Post.s14 m c).arg8),
       (h c main_arg9).trans ((congrFun (fold_eq m c) _).trans (Post.s14 m c).arg9)⟩)
    (fold m ρ)

end Cert.ReferenceIdeal.RefValue

end
-- ==== Proof.GraphEq.lean ====
import proofs.«402353_j91190745629151_3_alg».proof.Proof.KGraph
import proofs.«402353_j91190745629151_3_alg».proof.Proof.RGraph

noncomputable section

namespace Cert.GraphEq

open Idealize.ShloMosaic

theorem graphOf_eq (src dst : IVec Cert.KernelIdeal.S800000 32) :
    Cert.ReferenceIdeal.Graph.graphOf src dst = Cert.KernelIdeal.Graph.graphOf src dst := rfl

theorem graph_eq (e : IVec Cert.KernelIdeal.S2x800000 32) :
    Cert.ReferenceIdeal.Graph.graph e = Cert.KernelIdeal.Graph.graph e := rfl

end Cert.GraphEq

end
-- ==== Proof.lean ====
/- Both programs leave `Spec.forward` of the arguments in their result: casts are the identity over the extended reals, products commute, and |a − b|² is one number whether written as a power or as a product. -/
import proofs.«402353_j91190745629151_3_alg».proof.Defs
import proofs.«402353_j91190745629151_3_alg».proof.Proof.Gen.Kernel
import proofs.«402353_j91190745629151_3_alg».proof.Proof.Gen.Kernel.Frame
import proofs.«402353_j91190745629151_3_alg».proof.Proof.Gen.KernelIdeal
import proofs.«402353_j91190745629151_3_alg».proof.Proof.Gen.KernelIdeal.Frame
import proofs.«402353_j91190745629151_3_alg».proof.Proof.Gen.ReferenceIdeal
import proofs.«402353_j91190745629151_3_alg».proof.Proof.Gen.Pre_finite_inputs
import proofs.«402353_j91190745629151_3_alg».proof.Proof.KernelRun
import proofs.«402353_j91190745629151_3_alg».proof.Proof.KChainPost
import proofs.«402353_j91190745629151_3_alg».proof.Proof.RefValue
import proofs.«402353_j91190745629151_3_alg».proof.Proof.GraphEq
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

/-- Both idealized programs end with the specification's network of the arguments. -/
theorem algebraic : Cert.algebraic_KernelIdeal_ReferenceIdeal := by
  intro m ρ m' ρ' _ hagree
  refine ⟨fun c => Cert.Spec.forward (Cert.KernelIdeal.Graph.graph (Cert.KernelIdeal.Chain.E m c)) (Cert.KernelIdeal.Chain.A0 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c), ?_, ?_⟩
  · exact (θ_run Cert.KernelIdeal.defs _ _).mono
      (fun _ h c => ⟨(h c).1.trans ((Cert.KernelIdeal.Chain.Post.w61_v219 m ρ c).trans (Cert.KernelIdeal.Chain.OUT_eq m c)), (h c).2⟩)
      (Cert.KernelIdeal.ValueRun.run m ρ)
  · refine (θ_run Cert.ReferenceIdeal.defs _ _).mono (fun _ h c => ⟨(h c).1.trans ?_, (h c).2⟩)
      (Cert.ReferenceIdeal.RefValue.run m' ρ')
    obtain ⟨h0, h1, h2, h3, h4, h5, h6, h7, h8, h9⟩ := hagree c
    unfold Cert.ReferenceIdeal.Chain.E Cert.ReferenceIdeal.Chain.A0 Cert.ReferenceIdeal.Chain.A2 Cert.ReferenceIdeal.Chain.A3
      Cert.ReferenceIdeal.Chain.A4 Cert.ReferenceIdeal.Chain.A5 Cert.ReferenceIdeal.Chain.A6 Cert.ReferenceIdeal.Chain.A7
      Cert.ReferenceIdeal.Chain.A8 Cert.ReferenceIdeal.Chain.A9
    rw [h0, h1, h2, h3, h4, h5, h6, h7, h8, h9, Cert.GraphEq.graph_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
